-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x32 : Shape := ⟨2, ![64, 32]⟩
abbrev S32 : Shape := ⟨1, ![32]⟩
abbrev S32x32 : Shape := ⟨2, ![32, 32]⟩
abbrev S1600000 : Shape := ⟨1, ![1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg7 main_v34
  let main_c_13 : IVec S_ 32 := constantI S_ 32 100000#32
  let main_v36 : IVec S1600000 32 := broadcastInDim S1600000 ![] bcast_S_S1600000 main_c_13
  let main_v37 : IVec S1600000 1 := cmpi .slt main_arg7 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg4 : FVec F S32 .f32) (main_arg5 : FVec F S32x32 .f32) (main_arg6 : FVec F S32 .f32) (main_arg7 : IVec S1600000 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S64x32 .f32) (main_arg2 : FVec F S32 .f32) (main_arg3 : FVec F S32x32 .f32) (main_arg4 : FVec F S32 .f32) (main_arg5 : FVec F S32x32 .f32) (main_arg6 : FVec F S32 .f32) (main_arg7 : IVec S1600000 32) (main_arg8 : IVec S1600000 32) (main_arg9 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_v13 main_v16
-- ==== Kernel.lean ====
abbrev S100000x64 : Shape := ⟨2, ![100000, 64]⟩
abbrev S64x32 : Shape := ⟨2, ![64, 32]⟩
abbrev S32 : Shape := ⟨1, ![32]⟩
abbrev S32x32 : Shape := ⟨2, ![32, 32]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S128 : Shape := ⟨1, ![128]⟩
abbrev S100000x1 : Shape := ⟨2, ![100000, 1]⟩
abbrev S352 : Shape := ⟨1, ![352]⟩
abbrev S100352 : Shape := ⟨1, ![100352]⟩
abbrev S100352x1 : Shape := ⟨2, ![100352, 1]⟩
abbrev S1x100352 : Shape := ⟨2, ![1, 100352]⟩
abbrev S100352x64 : Shape := ⟨2, ![100352, 64]⟩
abbrev S100352x32 : Shape := ⟨2, ![100352, 32]⟩
abbrev S2048x64 : Shape := ⟨2, ![2048, 64]⟩
abbrev S2048x32 : Shape := ⟨2, ![2048, 32]⟩
abbrev S1600000x32 : Shape := ⟨2, ![1600000, 32]⟩
abbrev S100000x32 : Shape := ⟨2, ![100000, 32]⟩
abbrev S1x32 : Shape := ⟨2, ![1, 32]⟩
abbrev S2048x1 : Shape := ⟨2, ![2048, 1]⟩
abbrev S128x32 : Shape := ⟨2, ![128, 32]⟩
abbrev S1x2048 : Shape := ⟨2, ![1, 2048]⟩
abbrev S128x2048 : Shape := ⟨2, ![128, 2048]⟩
abbrev S128x1 : Shape := ⟨2, ![128, 1]⟩
abbrev S1x128x32 : Shape := ⟨3, ![1, 128, 32]⟩
abbrev S3x128x32 : Shape := ⟨3, ![3, 128, 32]⟩

abbrev nBuf : Space → Nat
  | .hbm => 184
  | .vmem => 60
  | .smem => 0
  | _ => 0

abbrev hbmTy0_0 (i : Nat) : BufTy := match i % 128 with
  | 0 => ⟨S100000x64, .f32⟩
  | 1 => ⟨S64x32, .f32⟩
  | 2 => ⟨S32, .f32⟩
  | 3 => ⟨S32x32, .f32⟩
  | 4 => ⟨S32, .f32⟩
  | 5 => ⟨S32x32, .f32⟩
  | 6 => ⟨S32, .f32⟩
  | 7 => ⟨S1600000, .i32⟩
  | 8 => ⟨S1600000, .i32⟩
  | 9 => ⟨S100000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S_, .f32⟩
  | 23 => ⟨S128, .f32⟩
  | 24 => ⟨S100000x1, .i32⟩
  | 25 => ⟨S128, .f32⟩
  | 26 => ⟨S_, .f32⟩
  | 27 => ⟨S128, .f32⟩
  | 28 => ⟨S128, .f32⟩
  | 29 => ⟨S_, .f32⟩
  | 30 => ⟨S352, .f32⟩
  | 31 => ⟨S100352, .f32⟩
  | 32 => ⟨S100352x1, .f32⟩
  | 33 => ⟨S_, .i32⟩
  | 34 => ⟨S_, .i32⟩
  | 35 => ⟨S100352, .i32⟩
  | 36 => ⟨S1x100352, .i32⟩
  | 37 => ⟨S_, .i32⟩
  | 38 => ⟨S_, .f32⟩
  | 39 => ⟨S100352x64, .f32⟩
  | 40 => ⟨S100352x32, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S1600000x1, .f32⟩
  | 70 => ⟨S1600000x32, .f32⟩
  | 71 => ⟨S1600000x32, .f32⟩
  | 72 => ⟨S_, .f32⟩
  | 73 => ⟨S100000x32, .f32⟩
  | 74 => ⟨S1600000x1, .i32⟩
  | 75 => ⟨S100000x32, .f32⟩
  | 76 => ⟨S_, .i32⟩
  | 77 => ⟨S_, .f32⟩
  | 78 => ⟨S100352x32, .f32⟩
  | 79 => ⟨S1x32, .f32⟩
  | 80 => ⟨S100352x32, .f32⟩
  | 81 => ⟨S128x32, .f32⟩
  | 82 => ⟨S128x1, .f32⟩
  | 83 => ⟨S128x32, .f32⟩
  | 84 => ⟨S128x32, .f32⟩
  | 85 => ⟨S100352x32, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x1, .f32⟩
  | 115 => ⟨S1600000x32, .f32⟩
  | 116 => ⟨S1600000x32, .f32⟩
  | 117 => ⟨S_, .f32⟩
  | 118 => ⟨S100000x32, .f32⟩
  | 119 => ⟨S1600000x1, .i32⟩
  | 120 => ⟨S100000x32, .f32⟩
  | 121 => ⟨S_, .i32⟩
  | 122 => ⟨S_, .f32⟩
  | 123 => ⟨S100352x32, .f32⟩
  | 124 => ⟨S1x32, .f32⟩
  | 125 => ⟨S100352x32, .f32⟩
  | 126 => ⟨S128x32, .f32⟩
  | 127 => ⟨S128x1, .f32⟩
  | _ => ⟨S100000x64, .f32⟩

abbrev hbmTy0_1 (i : Nat) : BufTy := match i % 128 with
  | 0 => ⟨S128x32, .f32⟩
  | 1 => ⟨S128x32, .f32⟩
  | 2 => ⟨S100352x32, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S1600000x1, .f32⟩
  | 32 => ⟨S1600000x32, .f32⟩
  | 33 => ⟨S1600000x32, .f32⟩
  | 34 => ⟨S_, .f32⟩
  | 35 => ⟨S100000x32, .f32⟩
  | 36 => ⟨S1600000x1, .i32⟩
  | 37 => ⟨S100000x32, .f32⟩
  | 38 => ⟨S_, .i32⟩
  | 39 => ⟨S_, .f32⟩
  | 40 => ⟨S100352x32, .f32⟩
  | 41 => ⟨S1x32, .f32⟩
  | 42 => ⟨S100352x32, .f32⟩
  | 43 => ⟨S128x32, .f32⟩
  | 44 => ⟨S128x1, .f32⟩
  | 45 => ⟨S128x32, .f32⟩
  | 46 => ⟨S128x32, .f32⟩
  | 47 => ⟨S1x128x32, .f32⟩
  | 48 => ⟨S1x128x32, .f32⟩
  | 49 => ⟨S1x128x32, .f32⟩
  | 50 => ⟨S3x128x32, .f32⟩
  | 51 => ⟨S_, .f32⟩
  | 52 => ⟨S128x32, .f32⟩
  | 53 => ⟨S_, .f32⟩
  | 54 => ⟨S128x32, .f32⟩
  | 55 => ⟨S128x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S64x32, .f32⟩
  | .local _ .vmem, ⟨3, _⟩ => ⟨S2048x32, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x1, .f32⟩
  | .local _ .vmem, ⟨10, _⟩ => ⟨S2048x1, .f32⟩
  | .local _ .vmem, ⟨11, _⟩ => ⟨S1x32, .f32⟩
  | .local _ .vmem, ⟨12, _⟩ => ⟨S2048x32, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S1x2048, .i32⟩
  | .local _ .vmem, ⟨17, _⟩ => ⟨S1x2048, .i32⟩
  | .local _ .vmem, ⟨18, _⟩ => ⟨S128x32, .f32⟩
  | .local _ .vmem, ⟨19, _⟩ => ⟨S128x32, .f32⟩
  | .local _ .vmem, ⟨20, _⟩ => ⟨S2048x32, .f32⟩
  | .local _ .vmem, ⟨21, _⟩ => ⟨S2048x32, .f32⟩
  | .local _ .vmem, ⟨22, _⟩ => ⟨S32x32, .f32⟩
  | .local _ .vmem, ⟨23, _⟩ => ⟨S2048x32, .f32⟩
  | .local _ .vmem, ⟨24, _⟩ => ⟨S2048x32, .f32⟩
  | .local _ .vmem, ⟨25, _⟩ => ⟨S2048x32, .f32⟩
  | .local _ .vmem, ⟨26, _⟩ => ⟨S2048x32, .f32⟩
  | .local _ .vmem, ⟨27, _⟩ => ⟨S2048x32, .f32⟩
  | .local _ .vmem, ⟨28, _⟩ => ⟨S2048x32, .f32⟩
  | .local _ .vmem, ⟨29, _⟩ => ⟨S2048x1, .f32⟩
  | .local _ .vmem, ⟨30, _⟩ => ⟨S2048x1, .f32⟩
  | .local _ .vmem, ⟨31, _⟩ => ⟨S1x32, .f32⟩
  | .local _ .vmem, ⟨32, _⟩ => ⟨S2048x32, .f32⟩
  | .local _ .vmem, ⟨33, _⟩ => ⟨S2048x32, .f32⟩
  | .local _ .vmem, ⟨34, _⟩ => ⟨S2048x32, .f32⟩
  | .local _ .vmem, ⟨35, _⟩ => ⟨S2048x32, .f32⟩
  | .local _ .vmem, ⟨36, _⟩ => ⟨S1x2048, .i32⟩
  | .local _ .vmem, ⟨37, _⟩ => ⟨S1x2048, .i32⟩
  | .local _ .vmem, ⟨38, _⟩ => ⟨S128x32, .f32⟩
  | .local _ .vmem, ⟨39, _⟩ => ⟨S128x32, .f32⟩
  | .local _ .vmem, ⟨40, _⟩ => ⟨S2048x32, .f32⟩
  | .local _ .vmem, ⟨41, _⟩ => ⟨S2048x32, .f32⟩
  | .local _ .vmem, ⟨42, _⟩ => ⟨S32x32, .f32⟩
  | .local _ .vmem, ⟨43, _⟩ => ⟨S2048x32, .f32⟩
  | .local _ .vmem, ⟨44, _⟩ => ⟨S2048x32, .f32⟩
  | .local _ .vmem, ⟨45, _⟩ => ⟨S2048x32, .f32⟩
  | .local _ .vmem, ⟨46, _⟩ => ⟨S2048x32, .f32⟩
  | .local _ .vmem, ⟨47, _⟩ => ⟨S2048x32, .f32⟩
  | .local _ .vmem, ⟨48, _⟩ => ⟨S2048x32, .f32⟩
  | .local _ .vmem, ⟨49, _⟩ => ⟨S2048x1, .f32⟩
  | .local _ .vmem, ⟨50, _⟩ => ⟨S2048x1, .f32⟩
  | .local _ .vmem, ⟨51, _⟩ => ⟨S1x32, .f32⟩
  | .local _ .vmem, ⟨52, _⟩ => ⟨S2048x32, .f32⟩
  | .local _ .vmem, ⟨53, _⟩ => ⟨S2048x32, .f32⟩
  | .local _ .vmem, ⟨54, _⟩ => ⟨S2048x32, .f32⟩
  | .local _ .vmem, ⟨55, _⟩ => ⟨S2048x32, .f32⟩
  | .local _ .vmem, ⟨56, _⟩ => ⟨S1x2048, .i32⟩
  | .local _ .vmem, ⟨57, _⟩ => ⟨S1x2048, .i32⟩
  | .local _ .vmem, ⟨58, _⟩ => ⟨S128x32, .f32⟩
  | .local _ .vmem, ⟨59, _⟩ => ⟨S128x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_call1_v0 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_14 : Ref sig .tc := ⟨.hbm, 76, rfl⟩
abbrev main_call2_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_15 : Ref sig .tc := ⟨.hbm, 86, rfl⟩
abbrev main_v56 : Ref sig .tc := ⟨.hbm, 87, rfl⟩
abbrev main_v57 : Ref sig .tc := ⟨.hbm, 88, rfl⟩
abbrev main_c_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_v71 : Ref sig .tc := ⟨.hbm, 106, rfl⟩
abbrev main_v72 : Ref sig .tc := ⟨.hbm, 107, rfl⟩
abbrev main_c_20 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_call3_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_23 : Ref sig .tc := ⟨.hbm, 131, rfl⟩
abbrev main_v92 : Ref sig .tc := ⟨.hbm, 132, rfl⟩
abbrev main_v93 : Ref sig .tc := ⟨.hbm, 133, rfl⟩
abbrev main_c_24 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_25 : Ref sig .tc := ⟨.hbm, 140, rfl⟩
abbrev main_v99 : Ref sig .tc := ⟨.hbm, 141, rfl⟩
abbrev main_v100 : Ref sig .tc := ⟨.hbm, 142, rfl⟩
abbrev main_c_26 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_27 : Ref sig .tc := ⟨.hbm, 150, rfl⟩
abbrev main_v107 : Ref sig .tc := ⟨.hbm, 151, rfl⟩
abbrev main_v108 : Ref sig .tc := ⟨.hbm, 152, rfl⟩
abbrev main_c_28 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_29 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_30 : Ref sig .tc := ⟨.hbm, 166, rfl⟩
abbrev main_call4_v0 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_31 : Ref sig .tc := ⟨.hbm, 179, rfl⟩
abbrev main_v131 : Ref sig .tc := ⟨.hbm, 180, rfl⟩
abbrev main_cst_32 : Ref sig .tc := ⟨.hbm, 181, rfl⟩
abbrev main_v132 : Ref sig .tc := ⟨.hbm, 182, rfl⟩
abbrev main_v133 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_scratch0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_scratch0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem4_0 : DmaSem sig := 50
abbrev cc7_sem4_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![49], ![false]⟩

def k2_cond2 (i : grid2.Coords) : BitVec 1 :=
  let arg0 : BitVec 32 := BitVec.ofNat 32 (i 0).val
  let c48_i32 : BitVec 32 := 48#32
  let v20 : BitVec 1 := Scalar.cmpi .eq arg0 c48_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![49], ![false]⟩

def k5_cond2 (i : grid5.Coords) : BitVec 1 :=
  let arg0 : BitVec 32 := BitVec.ofNat 32 (i 0).val
  let c48_i32 : BitVec 32 := 48#32
  let v20 : BitVec 1 := Scalar.cmpi .eq arg0 c48_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2048x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![49], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2048x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2048x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![49], ![false]⟩

def k8_cond2 (i : grid8.Coords) : BitVec 1 :=
  let arg0 : BitVec 32 := BitVec.ofNat 32 (i 0).val
  let c48_i32 : BitVec 32 := 48#32
  let v20 : BitVec 1 := Scalar.cmpi .eq arg0 c48_i32
  let v21 : BitVec 32 := Scalar.extui v20
  let c0_i32_8 : BitVec 32 := 0#32
  let v22 : BitVec 1 := Scalar.cmpi .ne v21 c0_i32_8
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2048x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x2048 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S100000_S100000x1_0 : S100000.BroadcastsInDim S100000x1 (![0] : Fin 1 → Fin S100000x1.rank)
  bcast_S_S352 : S_.BroadcastsInDim S352 (![] : Fin 0 → Fin S352.rank)
  concatenates_S100000_S352_S100352_d0 : Shape.Concatenates [S100000, S352] S100352 0
  shapeCasts_S100352_S100352x1 : S100352.ShapeCasts S100352x1
  pads_S100000_S100352_03520 : S100000.Pads (![0] : Fin 1 → Nat) ![352] ![0] S100352
  h_S_ : 0 < S_.numel
  shapeCasts_S100352_S1x100352 : S100352.ShapeCasts S1x100352
  pads_S100000x64_S100352x64_03520_000 : S100000x64.Pads (![0, 0] : Fin 2 → Nat) ![352, 0] ![0, 0] S100352x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2048x32_S2048x32_0_0 : ∀ a, (![0, 0] : Fin 2 → Nat) a + S2048x32.size a ≤ S2048x32.size a
  h_S2048x32 : 0 < S2048x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  pads_S100000x32_S100352x32_03520_000 : S100000x32.Pads (![0, 0] : Fin 2 → Nat) ![352, 0] ![0, 0] S100352x32
  shapeCasts_S32_S1x32 : S32.ShapeCasts S1x32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2048x32_S2048x32 : S2048x32.ShapeCasts S2048x32
  broadcasts_S2048x1_S2048x32 : S2048x1.Broadcasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  iota_S128x2048_d0_w32 : S128x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  natLt_1_32 : 1 < 32
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  inb_S32x32_S32x32_0_0 : ∀ a, (![0, 0] : Fin 2 → Nat) a + S32x32.size a ≤ S32x32.size a
  h_S32x32 : 0 < S32x32.numel
  bcast_S128x32_S1x128x32_1_2 : S128x32.BroadcastsInDim S1x128x32 (![1, 2] : Fin 2 → Fin S1x128x32.rank)
  concatenates_S1x128x32_S1x128x32_S1x128x32_S3x128x32_d0 : Shape.Concatenates [S1x128x32, S1x128x32, S1x128x32] S3x128x32 0
  reducesTo_S3x128x32_S128x32_d0 : S3x128x32.ReducesTo [0] S128x32
  bcast_S_S128x32 : S_.BroadcastsInDim S128x32 (![] : Fin 0 → Fin S128x32.rank)
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  dot_S2048x64_S64x32_S2048x32_1_0_0_1_n_n_wf : DotDims.WF S2048x64 S64x32 S2048x32 [1] [0] [0] [1] [] []
  gather_S100000_S1600000x1_S1600000_n_0_n_n_0_1_1_wf : GatherDims.WF S100000 S1600000x1 S1600000 [] [0] [] [0] [] 1 ![1]
  gather_S100352x32_S1600000x1_S1600000x32_1_0_n_n_0_1_132_wf : GatherDims.WF S100352x32 S1600000x1 S1600000x32 [1] [0] [] [0] [] 1 ![1, 32]
  scatter_S100000x32_S1600000x1_S1600000x32_1_0_0_1_wf : ScatterDims.WF S100000x32 S1600000x1 S1600000x32 [1] [0] [0] 1
  dot_S128x2048_S2048x32_S128x32_1_0_0_1_n_n_wf : DotDims.WF S128x2048 S2048x32 S128x32 [1] [0] [0] [1] [] []
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S100352x64.size a
  hwx0_0 : ∀ i : grid0.Coords, EltTy.bits .f32 = 32 ∨ (Rect.block (s := S100352x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S100352x32.size a
  hwx0_2 : ∀ i : grid0.Coords, EltTy.bits .f32 = 32 ∨ (Rect.block (s := S100352x32) S2048x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S100352x32.size a
  hwx1_0 : ∀ i : grid1.Coords, EltTy.bits .f32 = 32 ∨ (Rect.block (s := S100352x32) S2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S100352x32.size a
  hwx1_1 : ∀ i : grid1.Coords, EltTy.bits .f32 = 32 ∨ (Rect.block (s := S100352x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S100352x1.size a
  hwx1_2 : ∀ i : grid1.Coords, EltTy.bits .f32 = 32 ∨ (Rect.block (s := S100352x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x32.size a ≤ S100352x32.size a
  hwx1_4 : ∀ i : grid1.Coords, EltTy.bits .f32 = 32 ∨ (Rect.block (s := S100352x32) S2048x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S100352x32.size a
  hwx2_0 : ∀ i : grid2.Coords, EltTy.bits .f32 = 32 ∨ (Rect.block (s := S100352x32) S2048x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x100352.size a
  hwx2_1 : ∀ i : grid2.Coords, EltTy.bits .i32 = 32 ∨ (Rect.block (s := S1x100352) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S100352x32.size a
  hwx3_0 : ∀ i : grid3.Coords, EltTy.bits .f32 = 32 ∨ (Rect.block (s := S100352x32) S2048x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x32.size a ≤ S100352x32.size a
  hwx3_2 : ∀ i : grid3.Coords, EltTy.bits .f32 = 32 ∨ (Rect.block (s := S100352x32) S2048x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x32.size a ≤ S100352x32.size a
  hwx4_0 : ∀ i : grid4.Coords, EltTy.bits .f32 = 32 ∨ (Rect.block (s := S100352x32) S2048x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x32.size a ≤ S100352x32.size a
  hwx4_1 : ∀ i : grid4.Coords, EltTy.bits .f32 = 32 ∨ (Rect.block (s := S100352x32) S2048x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S100352x1.size a
  hwx4_2 : ∀ i : grid4.Coords, EltTy.bits .f32 = 32 ∨ (Rect.block (s := S100352x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x32.size a ≤ S100352x32.size a
  hwx4_4 : ∀ i : grid4.Coords, EltTy.bits .f32 = 32 ∨ (Rect.block (s := S100352x32) S2048x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x32.size a ≤ S100352x32.size a
  hwx5_0 : ∀ i : grid5.Coords, EltTy.bits .f32 = 32 ∨ (Rect.block (s := S100352x32) S2048x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x100352.size a
  hwx5_1 : ∀ i : grid5.Coords, EltTy.bits .i32 = 32 ∨ (Rect.block (s := S1x100352) S1x2048.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x32.size a ≤ S100352x32.size a
  hwx6_0 : ∀ i : grid6.Coords, EltTy.bits .f32 = 32 ∨ (Rect.block (s := S100352x32) S2048x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x32.size a ≤ S100352x32.size a
  hwx6_2 : ∀ i : grid6.Coords, EltTy.bits .f32 = 32 ∨ (Rect.block (s := S100352x32) S2048x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x32.size a ≤ S100352x32.size a
  hwx7_0 : ∀ i : grid7.Coords, EltTy.bits .f32 = 32 ∨ (Rect.block (s := S100352x32) S2048x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x32.size a ≤ S100352x32.size a
  hwx7_1 : ∀ i : grid7.Coords, EltTy.bits .f32 = 32 ∨ (Rect.block (s := S100352x32) S2048x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1.size a ≤ S100352x1.size a
  hwx7_2 : ∀ i : grid7.Coords, EltTy.bits .f32 = 32 ∨ (Rect.block (s := S100352x1) S2048x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x32.size a ≤ S100352x32.size a
  hwx7_4 : ∀ i : grid7.Coords, EltTy.bits .f32 = 32 ∨ (Rect.block (s := S100352x32) S2048x32.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x32.size a ≤ S100352x32.size a
  hwx8_0 : ∀ i : grid8.Coords, EltTy.bits .f32 = 32 ∨ (Rect.block (s := S100352x32) S2048x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x2048.size a ≤ S1x100352.size a
  hwx8_1 : ∀ i : grid8.Coords, EltTy.bits .i32 = 32 ∨ (Rect.block (s := S1x100352) S1x2048.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x32.size a ≤ S128x32.size a
  hwx8_2 : ∀ i : grid8.Coords, EltTy.bits .f32 = 32 ∨ (Rect.block (s := S128x32) S128x32.size (cc8_transform_2 i) (hinb8_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100352x32_S1600000x1_S1600000x32_1_0_n_n_0_1_132 : GatherDims S100352x32 S1600000x1 S1600000x32 where
  offsetDims := [1]
  collapsedSliceDims := [0]
  operandBatchingDims := []
  startIndicesBatchingDims := []
  startIndexMap := [0]
  indexVectorDim := 1
  sliceSizes := ![1, 32]
  wf := gather_S100352x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_v18) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2048x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x32.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v50) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S2048x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S2048x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2048x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S2048x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v86) S2048x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S128x32.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v86) S2048x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S2048x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v120) S2048x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S2048x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S2048x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S2048x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v122) S2048x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v17) S1x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v123) S128x32.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S64x32 : Shape := ⟨2, ![64, 32]⟩
abbrev S32 : Shape := ⟨1, ![32]⟩
abbrev S32x32 : Shape := ⟨2, ![32, 32]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S128 : Shape := ⟨1, ![128]⟩
abbrev S100000x1 : Shape := ⟨2, ![100000, 1]⟩
abbrev S100000x32 : Shape := ⟨2, ![100000, 32]⟩
abbrev S1600000x32 : Shape := ⟨2, ![1600000, 32]⟩
abbrev S1x32 : Shape := ⟨2, ![1, 32]⟩
abbrev S128x32 : Shape := ⟨2, ![128, 32]⟩
abbrev S128x1 : Shape := ⟨2, ![128, 1]⟩
abbrev S1x128x32 : Shape := ⟨3, ![1, 128, 32]⟩
abbrev S3x128x32 : Shape := ⟨3, ![3, 128, 32]⟩

abbrev nBuf : Space → Nat
  | .hbm => 215
  | .vmem => 0
  | .smem => 0
  | _ => 0

abbrev hbmTy0_0 (i : Nat) : BufTy := match i % 128 with
  | 0 => ⟨S100000x64, .f32⟩
  | 1 => ⟨S64x32, .f32⟩
  | 2 => ⟨S32, .f32⟩
  | 3 => ⟨S32x32, .f32⟩
  | 4 => ⟨S32, .f32⟩
  | 5 => ⟨S32x32, .f32⟩
  | 6 => ⟨S32, .f32⟩
  | 7 => ⟨S1600000, .i32⟩
  | 8 => ⟨S1600000, .i32⟩
  | 9 => ⟨S100000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .f32⟩
  | 21 => ⟨S100000, .f32⟩
  | 22 => ⟨S_, .f32⟩
  | 23 => ⟨S128, .f32⟩
  | 24 => ⟨S100000x1, .i32⟩
  | 25 => ⟨S128, .f32⟩
  | 26 => ⟨S_, .f32⟩
  | 27 => ⟨S128, .f32⟩
  | 28 => ⟨S128, .f32⟩
  | 29 => ⟨S100000x32, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S100000, .f32⟩
  | 66 => ⟨S100000x1, .f32⟩
  | 67 => ⟨S100000x32, .f32⟩
  | 68 => ⟨S100000x32, .f32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S_, .f32⟩
  | 75 => ⟨S100000x32, .f32⟩
  | 76 => ⟨S100000x32, .i1⟩
  | 77 => ⟨S_, .f32⟩
  | 78 => ⟨S100000x32, .f32⟩
  | 79 => ⟨S100000x32, .f32⟩
  | 80 => ⟨S100000x32, .f32⟩
  | 81 => ⟨S_, .f32⟩
  | 82 => ⟨S128x32, .f32⟩
  | 83 => ⟨S100000x1, .i32⟩
  | 84 => ⟨S128x32, .f32⟩
  | 85 => ⟨S128x1, .f32⟩
  | 86 => ⟨S128x32, .f32⟩
  | 87 => ⟨S128x32, .f32⟩
  | 88 => ⟨S100000x32, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S1600000x32, .f32⟩
  | 119 => ⟨S1600000x32, .f32⟩
  | 120 => ⟨S_, .f32⟩
  | 121 => ⟨S100000x32, .f32⟩
  | 122 => ⟨S1600000x1, .i32⟩
  | 123 => ⟨S100000x32, .f32⟩
  | 124 => ⟨S100000, .f32⟩
  | 125 => ⟨S100000x1, .f32⟩
  | 126 => ⟨S100000x32, .f32⟩
  | 127 => ⟨S100000x32, .f32⟩
  | _ => ⟨S100000x64, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S_, .f32⟩
  | 5 => ⟨S_, .f32⟩
  | 6 => ⟨S100000x32, .f32⟩
  | 7 => ⟨S100000x32, .i1⟩
  | 8 => ⟨S_, .f32⟩
  | 9 => ⟨S100000x32, .f32⟩
  | 10 => ⟨S100000x32, .f32⟩
  | 11 => ⟨S100000x32, .f32⟩
  | 12 => ⟨S_, .f32⟩
  | 13 => ⟨S128x32, .f32⟩
  | 14 => ⟨S100000x1, .i32⟩
  | 15 => ⟨S128x32, .f32⟩
  | 16 => ⟨S128x1, .f32⟩
  | 17 => ⟨S128x32, .f32⟩
  | 18 => ⟨S128x32, .f32⟩
  | 19 => ⟨S100000x32, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x32, .f32⟩
  | 49 => ⟨S1600000x32, .f32⟩
  | 50 => ⟨S1600000x32, .f32⟩
  | 51 => ⟨S_, .f32⟩
  | 52 => ⟨S100000x32, .f32⟩
  | 53 => ⟨S1600000x1, .i32⟩
  | 54 => ⟨S100000x32, .f32⟩
  | 55 => ⟨S100000, .f32⟩
  | 56 => ⟨S100000x1, .f32⟩
  | 57 => ⟨S100000x32, .f32⟩
  | 58 => ⟨S100000x32, .f32⟩
  | 59 => ⟨S100000x32, .f32⟩
  | 60 => ⟨S1x32, .f32⟩
  | 61 => ⟨S100000x32, .f32⟩
  | 62 => ⟨S100000x32, .f32⟩
  | 63 => ⟨S_, .f32⟩
  | 64 => ⟨S_, .f32⟩
  | 65 => ⟨S100000x32, .f32⟩
  | 66 => ⟨S100000x32, .i1⟩
  | 67 => ⟨S_, .f32⟩
  | 68 => ⟨S100000x32, .f32⟩
  | 69 => ⟨S100000x32, .f32⟩
  | 70 => ⟨S100000x32, .f32⟩
  | 71 => ⟨S_, .f32⟩
  | 72 => ⟨S128x32, .f32⟩
  | 73 => ⟨S100000x1, .i32⟩
  | 74 => ⟨S128x32, .f32⟩
  | 75 => ⟨S128x1, .f32⟩
  | 76 => ⟨S128x32, .f32⟩
  | 77 => ⟨S128x32, .f32⟩
  | 78 => ⟨S1x128x32, .f32⟩
  | 79 => ⟨S1x128x32, .f32⟩
  | 80 => ⟨S1x128x32, .f32⟩
  | 81 => ⟨S3x128x32, .f32⟩
  | 82 => ⟨S_, .f32⟩
  | 83 => ⟨S128x32, .f32⟩
  | 84 => ⟨S_, .f32⟩
  | 85 => ⟨S128x32, .f32⟩
  | 86 => ⟨S128x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_c_16 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_20 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v94 : Ref sig .tc := ⟨.hbm, 139, rfl⟩
abbrev main_cst_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_22 : Ref sig .tc := ⟨.hbm, 148, rfl⟩
abbrev main_v102 : Ref sig .tc := ⟨.hbm, 149, rfl⟩
abbrev main_v103 : Ref sig .tc := ⟨.hbm, 150, rfl⟩
abbrev main_c_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_24 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_28 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_29 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_v138 : Ref sig .tc := ⟨.hbm, 198, rfl⟩
abbrev main_cst_30 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_31 : Ref sig .tc := ⟨.hbm, 210, rfl⟩
abbrev main_v149 : Ref sig .tc := ⟨.hbm, 211, rfl⟩
abbrev main_cst_32 : Ref sig .tc := ⟨.hbm, 212, rfl⟩
abbrev main_v150 : Ref sig .tc := ⟨.hbm, 213, rfl⟩
abbrev main_v151 : Ref sig .tc := ⟨.hbm, 214, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S100000_S100000x1_0 : S100000.BroadcastsInDim S100000x1 (![0] : Fin 1 → Fin S100000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S128x32 : S_.BroadcastsInDim S128x32 (![] : Fin 0 → Fin S128x32.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S128x32_S1x128x32_1_2 : S128x32.BroadcastsInDim S1x128x32 (![1, 2] : Fin 2 → Fin S1x128x32.rank)
  concatenates_S1x128x32_S1x128x32_S1x128x32_S3x128x32_d0 : Shape.Concatenates [S1x128x32, S1x128x32, S1x128x32] S3x128x32 0
  reducesTo_S3x128x32_S128x32_d0 : S3x128x32.ReducesTo [0] S128x32
  h_S_ : 0 < S_.numel
  scatter_S100000_S1600000x1_S1600000_n_0_0_1_wf : ScatterDims.WF S100000 S1600000x1 S1600000 [] [0] [0] 1
  scatter_S128_S100000x1_S100000_n_0_0_1_wf : ScatterDims.WF S128 S100000x1 S100000 [] [0] [0] 1
  dot_S100000x64_S64x32_S100000x32_1_0_0_1_n_n_wf : DotDims.WF S100000x64 S64x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S128x32_S100000x1_S100000x32_1_0_0_1_wf : ScatterDims.WF S128x32 S100000x1 S100000x32 [1] [0] [0] 1
  dot_S100000x32_S32x32_S100000x32_1_0_0_1_n_n_wf : DotDims.WF S100000x32 S32x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KI.Reg0.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S64x32 := Rect.unit (s := S64x32) ![0, 0] S64x32.size inb_S64x32_S64x32_0_0
abbrev r0_2 : Rect S2048x32 := Rect.unit (s := S2048x32) ![0, 0] S2048x32.size inb_S2048x32_S2048x32_0_0

def out0_2 (x0 : Vec F S2048x64 .f32) (x1 : Vec F S64x32 .f32) : Vec F S2048x32 .f32 :=
  View.canon [⟨r0_2, k0_pay1 (View.ld x0 r0_0) (View.ld x1 r0_1)⟩]

theorem cover0_2 (p0 : Vec F S2048x32 .f32) (y : S2048x32.Idx) :
    ∃ pc ∈ ([⟨r0_2, p0⟩] : List (View.Piece (Elt F) S2048x32 .f32)), y ∈ pc.1.set :=
  View.cover_of_tiled [⟨r0_2, p0⟩] S2048x32.size (by rfl) y

set_option maxHeartbeats 1000000 in
theorem sound_kernel0 (c : Dev nD) (E : Set ℕ) (i : grid0.Coords)
    (arg0 : Memref sig .tc .vmem S2048x64 .f32) (harg0 : arg0.IsWhole) (arg1 : Memref sig .tc .vmem S64x32 .f32) (harg1 : arg1.IsWhole)
    (arg2 : Memref sig .tc .vmem S2048x32 .f32) (harg2 : arg2.IsWhole)
    (x0 : Vec F S2048x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x32 := Rect.unit (s := S2048x32) ![0, 0] S2048x32.size inb_S2048x32_S2048x32_0_0
abbrev r1_1 : Rect S2048x1 := Rect.unit (s := S2048x1) ![0, 0] S2048x1.size inb_S2048x1_S2048x1_0_0
abbrev r1_2 : Rect S1x32 := Rect.unit (s := S1x32) ![0, 0] S1x32.size inb_S1x32_S1x32_0_0

def out1_4 (x0 : Vec F S2048x32 .f32) (x1 : Vec F S2048x32 .f32) (x2 : Vec F S2048x1 .f32) (x3 : Vec F S1x32 .f32) : Vec F S2048x32 .f32 :=
  View.canon [⟨r1_0, k1_pay1 (View.ld x2 r1_1) (View.ld x1 r1_0) (View.ld x0 r1_0) (View.ld x3 r1_2)⟩]

theorem cover1_4 (p0 : Vec F S2048x32 .f32) (y : S2048x32.Idx) :
    ∃ pc ∈ ([⟨r1_0, p0⟩] : List (View.Piece (Elt F) S2048x32 .f32)), y ∈ pc.1.set :=
  View.cover_of_tiled [⟨r1_0, p0⟩] S2048x32.size (by rfl) y

set_option maxHeartbeats 1000000 in
theorem sound_kernel1 (c : Dev nD) (E : Set ℕ) (i : grid1.Coords) (arg1 : Memref sig .tc .vmem S2048x32 .f32) (harg1 : arg1.IsWhole) (arg2 : Memref sig .tc .vmem S2048x32 .f32) (harg2 : arg2.IsWhole) (arg3 : Memref sig .tc .vmem S2048x1 .f32) (harg3 : arg3.IsWhole) (arg4 : Memref sig .tc .vmem S1x32 .f32) (harg4 : arg4.IsWhole) (arg5 : Memref sig .tc .vmem S2048x32 .f32) (harg5 : arg5.IsWhole)
    (x0 : Vec F S2048x32 .f32) (x1 : Vec F S2048x32 .f32) (x2 : Vec F S2048x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def acc2 (c : Dev nD) : (n : ℕ) → n < cfg2.N → Vec F S128x32 .f32
  | 0, hn => k2_pay2 (iblk2 V c 1 ⟨0, hn⟩) (iblk2 V c 0 ⟨0, hn⟩) k2_pay1
  | n + 1, hn => k2_pay2 (iblk2 V c 1 ⟨n + 1, hn⟩) (iblk2 V c 0 ⟨n + 1, hn⟩) (acc2 c n (Nat.lt_of_succ_lt hn))

theorem acc2_zero (c : Dev nD) (hn : 0 < cfg2.N) :
    acc2 V c 0 hn = k2_pay2 (iblk2 V c 1 ⟨0, hn⟩) (iblk2 V c 0 ⟨0, hn⟩) k2_pay1 := rfl

theorem acc2_succ (c : Dev nD) (n : ℕ) (hn : n + 1 < cfg2.N) :
    acc2 V c (n + 1) hn = k2_pay2 (iblk2 V c 1 ⟨n + 1, hn⟩) (iblk2 V c 0 ⟨n + 1, hn⟩) (acc2 V c n (Nat.lt_of_succ_lt hn)) := rfl

theorem acc2_first (c : Dev nD) (t : Fin cfg2.N) (ht : t.val = 0) :
    acc2 V c t.val t.isLt = k2_pay2 (iblk2 V c 1 t) (iblk2 V c 0 t) k2_pay1 := by
  obtain ⟨n, hn⟩ := t
  cases n with
  | zero => rfl
  | succ n => exact absurd ht (Nat.succ_ne_zero n)

theorem acc2_pos (c : Dev nD) (t : Fin cfg2.N) (ht : t.val ≠ 0) :
    acc2 V c t.val t.isLt = k2_pay2 (iblk2 V c 1 t) (iblk2 V c 0 t) (acc2 V c (t.val - 1) (Nat.lt_of_le_of_lt (Nat.sub_le _ _) t.isLt)) := by
  obtain ⟨n, hn⟩ := t
  cases n with
  | zero => exact absurd rfl ht
  | succ n => rfl

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 48 :=
  (by decide +kernel : ∀ t : Fin grid2.N, cond2_1 (grid2.coords t) ↔ t.val = 48)

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2 : ∀ t : Fin cfg2.N, t.val ≠ 48 → cfg2.idle 2 (grid2.coords t) = true := by decide +kernel

theorem liveAt2_2 : ∀ t : Fin cfg2.N, t.val = 48 → cfg2.idle 2 (grid2.coords t) = false := by decide +kernel

theorem noFlush2_2 (t : Fin cfg2.N) (h : t.val ≠ 48) : (cfg2.win 2).flush t = false := by
  have hN : t.val < 49 := lt_of_lt_of_eq t.isLt (show cfg2.N = 49 from N_2)
  cases hf : (cfg2.win 2).flush t with
  | false => rfl
  | true => exact absurd ((flush2_2 t).mp hf) (by omega)

theorem hz_reg2 : (![0, 0] : Fin 2 → Nat) = fun _ => 0 := funext fun a => by fin_cases a <;> rfl

theorem load_whole_reg2 {κ : Kind} {sp : Space} {S : Shape} {e : EltTy} {m : Memref sig κ sp S e} (h : m.IsWhole)
    {off : Fin S.rank → Nat} (hz : off = fun _ => 0) (inb : ∀ a, off a + S.size a ≤ S.size a) (X : S.Idx → Elt F e) :
    View.readAt (Elt F) m.view (Rect.unit off S.size inb).toLoadRect (h.unread X) = X := by
  show View.ld (m.view.read (Elt F) (h.unread X)) (Rect.unit off S.size inb) = X
  rw [h.read_unread]; exact View.ld_unit_zero hz inb X

theorem read_store_whole_reg2 {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self .., View.mem_set_unit_zero hz inb y⟩),
    View.canon_cons_unit_zero hz]

theorem load_stored_whole_reg2 {κ : Kind} {sp : Space} {S : Shape} {e : EltTy} (v : View sig κ sp S e)
    {off : Fin S.rank → Nat} (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero (Val := Elt F) v hz inb w

abbrev ms2_0 (t : Fin cfg2.N) : Memref sig .tc .vmem S2048x32 .f32 := win2_0.stage (cfg2.slots t 0)
abbrev ms2_1 (t : Fin cfg2.N) : Memref sig .tc .vmem S1x2048 .i32 := win2_1.stage (cfg2.slots t 1)
abbrev ms2_2 (t : Fin cfg2.N) : Memref sig .tc .vmem S128x32 .f32 := win2_2.stage (cfg2.slots t 2)
abbrev scM2 : Memref sig .tc .vmem S128x32 .f32 := Memref.whole cc2_scratch0

set_option maxHeartbeats 1000000 in
theorem sound_kernel2_A (c : Dev nD) (E : Set ℕ) (i : grid2.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : cond2_0 i) (hc1 : ¬cond2_1 i)
    (x1 : Vec F S2048x32 .f32) (x2 : Vec F S1x2048 .i32) (xi3 : Vec F S128x32 .f32)
    (Y : Vec F S128x32 .f32) (hY : Y = k2_pay2 x2 x1 k2_pay1) (K : PUnit → sProp 𝕄) :
    iprop(owns (c : Thread nD τ) arg1 fullShare x1 ∗ owns (c : Thread nD τ) arg2 fullShare x2 ∗ owns (c : Thread nD τ) arg3 fullShare xi3
        ∗ (∃ d, owns (c : Thread nD τ) arg4 fullShare d)
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc2__pool_kernel i arg1 harg1 arg2 harg2 arg3 harg3 arg4 harg4) K := by
  subst hY
  simp only [cc2__pool_kernel_eq_skeleton]; unfold cc2__pool_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [read_store_whole_reg2 (F := F) arg4.view _ hz_reg2 inb_S128x32_S128x32_0_0,
    load_whole_reg2 (F := F) harg2 hz_reg2 inb_S1x2048_S1x2048_0_0 x2,
    load_whole_reg2 (F := F) harg1 hz_reg2 inb_S2048x32_S2048x32_0_0 x1,
    load_stored_whole_reg2 (F := F) arg4.view hz_reg2 inb_S128x32_S128x32_0_0 (k2_pay1 (F := F))]

set_option maxHeartbeats 1000000 in
theorem sound_kernel2_B (c : Dev nD) (E : Set ℕ) (i : grid2.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond2_0 i) (hc1 : ¬cond2_1 i)
    (x1 : Vec F S2048x32 .f32) (x2 : Vec F S1x2048 .i32) (xi3 : Vec F S128x32 .f32) (xs : Vec F S128x32 .f32)
    (Y : Vec F S128x32 .f32) (hY : Y = k2_pay2 x2 x1 xs) (K : PUnit → sProp 𝕄) :
    iprop(owns (c : Thread nD τ) arg1 fullShare x1 ∗ owns (c : Thread nD τ) arg2 fullShare x2 ∗ owns (c : Thread nD τ) arg3 fullShare xi3
        ∗ owns (c : Thread nD τ) arg4 fullShare xs
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc2__pool_kernel i arg1 harg1 arg2 harg2 arg3 harg3 arg4 harg4) K := by
  subst hY
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_words
  rw [read_store_whole_reg2 (F := F) arg4.view _ hz_reg2 inb_S128x32_S128x32_0_0,
    load_whole_reg2 (F := F) harg2 hz_reg2 inb_S1x2048_S1x2048_0_0 x2,
    load_whole_reg2 (F := F) harg1 hz_reg2 inb_S2048x32_S2048x32_0_0 x1,
    load_whole_reg2 (F := F) harg4 hz_reg2 inb_S128x32_S128x32_0_0 xs]

set_option maxHeartbeats 1000000 in
theorem sound_kernel2_C (c : Dev nD) (E : Set ℕ) (i : grid2.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond2_0 i) (hc1 : cond2_1 i)
    (x1 : Vec F S2048x32 .f32) (x2 : Vec F S1x2048 .i32) (xs : Vec F S128x32 .f32)
    (Y : Vec F S128x32 .f32) (hY : Y = k2_pay2 x2 x1 xs) (K : PUnit → sProp 𝕄) :
    iprop(owns (c : Thread nD τ) arg1 fullShare x1 ∗ owns (c : Thread nD τ) arg2 fullShare x2 ∗ (∃ d, owns (c : Thread nD τ) arg3 fullShare d)
        ∗ owns (c : Thread nD τ) arg4 fullShare xs
        ∗ (iprop(owns (c : Thread nD τ) arg1 fullShare x1 ∗ owns (c : Thread nD τ) arg2 fullShare x2 ∗ owns (c : Thread nD τ) arg3 fullShare Y
              ∗ owns (c : Thread nD τ) arg4 fullShare Y) -∗ K ⟨⟩))
      ⊢ wp frame (wpE (defs₀ (F := F)) Variants.none c none) E (cc2__pool_kernel i arg1 harg1 arg2 harg2 arg3 harg3 arg4 harg4) K := by
  subst hY
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2
  obtain rfl := harg4.eq_unread hf4
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_words
    rw [read_store_whole_reg2 (F := F) arg3.view _ hz_reg2 inb_S128x32_S128x32_0_0,
      load_stored_whole_reg2 (F := F) arg4.view hz_reg2 inb_S128x32_S128x32_0_0,
      load_whole_reg2 (F := F) harg2 hz_reg2 inb_S1x2048_S1x2048_0_0 x2,
      load_whole_reg2 (F := F) harg1 hz_reg2 inb_S2048x32_S2048x32_0_0 x1,
      load_whole_reg2 (F := F) harg4 hz_reg2 inb_S128x32_S128x32_0_0 xs]
  iexists _; isplitr
  swap; · iexact H4
  ipureintro
  try sl_unfold_words
  rw [read_store_whole_reg2 (F := F) arg4.view _ hz_reg2 inb_S128x32_S128x32_0_0,
    load_whole_reg2 (F := F) harg2 hz_reg2 inb_S1x2048_S1x2048_0_0 x2,
    load_whole_reg2 (F := F) harg1 hz_reg2 inb_S2048x32_S2048x32_0_0 x1,
    load_whole_reg2 (F := F) harg4 hz_reg2 inb_S128x32_S128x32_0_0 xs]

theorem PhiA2_eq (c : Dev nD) :
    (Pipeline.ΦA spec2 c : sProp 𝕄)
      = iprop(iprop(iprop((∃ d, owns (c : Thread nD τ) scM2 fullShare d))
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

def PhiS2 (c : Dev nD) : (n : ℕ) → n ≤ cfg2.N → sProp 𝕄
  | 0, _ => Pipeline.ΦA spec2 c
  | n + 1, hn => iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
        ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem after2_2_last (c : Dev nD) : ∀ t : Fin cfg2.N, t.val = 48 → (dat2 V c).after 2 t = acc2 V c 48 (by decide) := by
  intro t ht
  rw [after2_2]
  obtain ⟨n, hn⟩ := t
  dsimp only at ht
  subst ht
  rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 49 := lt_of_lt_of_eq t.isLt (show cfg2.N = 49 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val = 0
  · have h1 : t.val ≠ 48 := by omega
    rw [Dat.leavesExact_idle (dat2 V c) 2 t (idleAt2_2 t h1) (noFlush2_2 t h1)]
    rw [PhiS2_castSucc V c t, PhiS2_zero V c _ _ h0, PhiA2_eq]
    iintro ⟨⟨⟨HS, HR⟩, Hg⟩, Ho, ⟨%d0, H0⟩, ⟨%d1, H1⟩, ⟨%d2, H2⟩⟩
    iapply (sound_kernel2_A c Set.univ (grid2.coords t) _ _ _ _ _ _ _ _ ((hcond2_0 t).mpr h0) (fun h => h1 ((hcond2_1 t).mp h))
      (iblk2 V c 0 t) (iblk2 V c 1 t) ((dat2 V c).before 2 t d2) (acc2 V c t.val t.isLt) (acc2_first V c t h0) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 48
    · rw [show (dat2 V c).leavesExact 2 t = owns (c : Thread nD τ) (ms2_2 t) fullShare ((dat2 V c).after 2 t) from by
        unfold Dat.leavesExact; rw [liveAt2_2 t h1], after2_2]
      rw [PhiS2_castSucc V c t, PhiS2_pos V c _ _ h0]
      iintro ⟨⟨⟨HS, HR⟩, Hg⟩, Ho, ⟨%d0, H0⟩, ⟨%d1, H1⟩, ⟨%d2, H2⟩⟩
      iapply (sound_kernel2_C c Set.univ (grid2.coords t) _ _ _ _ _ _ _ _ (fun h => h0 ((hcond2_0 t).mp h)) ((hcond2_1 t).mpr h1)
        (iblk2 V c 0 t) (iblk2 V c 1 t) (acc2 V c (t.val - 1) (Nat.lt_of_le_of_lt (Nat.sub_le _ _) t.isLt))
        (acc2 V c t.val t.isLt) (acc2_pos V c t h0) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat2 V c) 2 t (idleAt2_2 t h1) (noFlush2_2 t h1)]
      rw [PhiS2_castSucc V c t, PhiS2_pos V c _ _ h0]
      iintro ⟨⟨⟨HS, HR⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h))
        (iblk2 V c 0 t) (iblk2 V c 1 t) ((dat2 V c).before 2 t d2) (acc2 V c (t.val - 1) (Nat.lt_of_le_of_lt (Nat.sub_le _ _) t.isLt))
        (acc2 V c t.val t.isLt) (acc2_pos V c t h0) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hne : (Fin.last cfg2.N).val ≠ 0 := by rw [Fin.val_last]; have : cfg2.N = 49 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitl [HS HR]
  · isplitl [HS]
    · iexists _; iexact HS
    iexact HR
  iexact Hg

end Cert.KernelIdeal.Gen

end
-- ==== Proof.KI.Reg3.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2048x32 := Rect.unit (s := S2048x32) ![0, 0] S2048x32.size inb_S2048x32_S2048x32_0_0
abbrev r3_1 : Rect S32x32 := Rect.unit (s := S32x32) ![0, 0] S32x32.size inb_S32x32_S32x32_0_0
abbrev r3_2 : Rect S2048x32 := Rect.unit (s := S2048x32) ![0, 0] S2048x32.size inb_S2048x32_S2048x32_0_0

def out3_2 (x0 : Vec F S2048x32 .f32) (x1 : Vec F S32x32 .f32) : Vec F S2048x32 .f32 :=
  View.canon [⟨r3_2, k3_pay1 (View.ld x0 r3_0) (View.ld x1 r3_1)⟩]

theorem cover3_2 (p0 : Vec F S2048x32 .f32) (y : S2048x32.Idx) :
    ∃ pc ∈ ([⟨r3_2, p0⟩] : List (View.Piece (Elt F) S2048x32 .f32)), y ∈ pc.1.set :=
  View.cover_of_tiled [⟨r3_2, p0⟩] S2048x32.size (by rfl) y

set_option maxHeartbeats 1000000 in
theorem sound_kernel3 (c : Dev nD) (E : Set ℕ) (i : grid3.Coords)
    (arg0 : Memref sig .tc .vmem S2048x32 .f32) (harg0 : arg0.IsWhole) (arg1 : Memref sig .tc .vmem S32x32 .f32) (harg1 : arg1.IsWhole)
    (arg2 : Memref sig .tc .vmem S2048x32 .f32) (harg2 : arg2.IsWhole)
    (x0 : Vec F S2048x32 .f32) (x1 : Vec F S32x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import proofs.«423851_j31086973288655_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2048x32 := Rect.unit (s := S2048x32) ![0, 0] S2048x32.size inb_S2048x32_S2048x32_0_0
abbrev r4_1 : Rect S2048x1 := Rect.unit (s := S2048x1) ![0, 0] S2048x1.size inb_S2048x1_S2048x1_0_0
abbrev r4_2 : Rect S1x32 := Rect.unit (s := S1x32) ![0, 0] S1x32.size inb_S1x32_S1x32_0_0

def out4_4 (x0 : Vec F S2048x32 .f32) (x1 : Vec F S2048x32 .f32) (x2 : Vec F S2048x1 .f32) (x3 : Vec F S1x32 .f32) : Vec F S2048x32 .f32 :=
  View.canon [⟨r4_0, k4_pay1 (View.ld x2 r4_1) (View.ld x1 r4_0) (View.ld x0 r4_0) (View.ld x3 r4_2)⟩]

/-- This region's body is region 1's function under another name: its triple is region 1's. -/
theorem sound_kernel4 (c : Dev nD) (E : Set ℕ) (i : grid4.Coords) (arg1 : Memref sig .tc .vmem S2048x32 .f32) (harg1 : arg1.IsWhole) (arg2 : Memref sig .tc .vmem S2048x32 .f32) (harg2 : arg2.IsWhole) (arg3 : Memref sig .tc .vmem S2048x1 .f32) (harg3 : arg3.IsWhole) (arg4 : Memref sig .tc .vmem S1x32 .f32) (harg4 : arg4.IsWhole) (arg5 : Memref sig .tc .vmem S2048x32 .f32) (harg5 : arg5.IsWhole)
    (x0 : Vec F S2048x32 .f32) (x1 : Vec F S2048x32 .f32) (x2 : Vec F S2048x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_kernel i arg1 harg1 arg2 harg2 arg3 harg3 arg4 harg4 arg5 harg5) K :=
  sound_kernel1 c E i arg1 harg1 arg2 harg2 arg3 harg3 arg4 harg4 arg5 harg5 x0 x1 x2 x3 K

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) := .rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Reg5.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import proofs.«423851_j31086973288655_1_alg».proof.Proof.KI.Reg2
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

def acc5 (c : Dev nD) : (n : ℕ) → n < cfg5.N → Vec F S128x32 .f32
  | 0, hn => k5_pay2 (iblk5 V c 1 ⟨0, hn⟩) (iblk5 V c 0 ⟨0, hn⟩) k5_pay1
  | n + 1, hn => k5_pay2 (iblk5 V c 1 ⟨n + 1, hn⟩) (iblk5 V c 0 ⟨n + 1, hn⟩) (acc5 c n (Nat.lt_of_succ_lt hn))

theorem acc5_zero (c : Dev nD) (hn : 0 < cfg5.N) :
    acc5 V c 0 hn = k5_pay2 (iblk5 V c 1 ⟨0, hn⟩) (iblk5 V c 0 ⟨0, hn⟩) k5_pay1 := rfl

theorem acc5_succ (c : Dev nD) (n : ℕ) (hn : n + 1 < cfg5.N) :
    acc5 V c (n + 1) hn = k5_pay2 (iblk5 V c 1 ⟨n + 1, hn⟩) (iblk5 V c 0 ⟨n + 1, hn⟩) (acc5 V c n (Nat.lt_of_succ_lt hn)) := rfl

theorem acc5_first (c : Dev nD) (t : Fin cfg5.N) (ht : t.val = 0) :
    acc5 V c t.val t.isLt = k5_pay2 (iblk5 V c 1 t) (iblk5 V c 0 t) k5_pay1 := by
  obtain ⟨n, hn⟩ := t
  cases n with
  | zero => rfl
  | succ n => exact absurd ht (Nat.succ_ne_zero n)

theorem acc5_pos (c : Dev nD) (t : Fin cfg5.N) (ht : t.val ≠ 0) :
    acc5 V c t.val t.isLt = k5_pay2 (iblk5 V c 1 t) (iblk5 V c 0 t) (acc5 V c (t.val - 1) (Nat.lt_of_le_of_lt (Nat.sub_le _ _) t.isLt)) := by
  obtain ⟨n, hn⟩ := t
  cases n with
  | zero => exact absurd rfl ht
  | succ n => rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1

theorem hcond5_1 : ∀ t : Fin cfg5.N, cond5_1 (grid5.coords t) ↔ t.val = 48 :=
  (by decide +kernel : ∀ t : Fin grid5.N, cond5_1 (grid5.coords t) ↔ t.val = 48)

theorem liveAt5_0 : ∀ t : Fin cfg5.N, cfg5.idle 0 (grid5.coords t) = false := by decide +kernel
theorem liveAt5_1 : ∀ t : Fin cfg5.N, cfg5.idle 1 (grid5.coords t) = false := by decide +kernel

theorem idleAt5_2 : ∀ t : Fin cfg5.N, t.val ≠ 48 → cfg5.idle 2 (grid5.coords t) = true := by decide +kernel

theorem liveAt5_2 : ∀ t : Fin cfg5.N, t.val = 48 → cfg5.idle 2 (grid5.coords t) = false := by decide +kernel

theorem noFlush5_2 (t : Fin cfg5.N) (h : t.val ≠ 48) : (cfg5.win 2).flush t = false := by
  have hN : t.val < 49 := lt_of_lt_of_eq t.isLt (show cfg5.N = 49 from N_5)
  cases hf : (cfg5.win 2).flush t with
  | false => rfl
  | true => exact absurd ((flush5_2 t).mp hf) (by omega)

abbrev ms5_0 (t : Fin cfg5.N) : Memref sig .tc .vmem S2048x32 .f32 := win5_0.stage (cfg5.slots t 0)
abbrev ms5_1 (t : Fin cfg5.N) : Memref sig .tc .vmem S1x2048 .i32 := win5_1.stage (cfg5.slots t 1)
abbrev ms5_2 (t : Fin cfg5.N) : Memref sig .tc .vmem S128x32 .f32 := win5_2.stage (cfg5.slots t 2)
abbrev scM5 : Memref sig .tc .vmem S128x32 .f32 := Memref.whole cc5_scratch0

/-- This region's body is region 2's function under another name: its triples are region 2's. -/
theorem sound_kernel5_A (c : Dev nD) (E : Set ℕ) (i : grid5.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : cond5_0 i) (hc1 : ¬cond5_1 i)
    (x1 : Vec F S2048x32 .f32) (x2 : Vec F S1x2048 .i32) (xi3 : Vec F S128x32 .f32)
    (Y : Vec F S128x32 .f32) (hY : Y = k5_pay2 x2 x1 k5_pay1) (K : PUnit → sProp 𝕄) :
    iprop(owns (c : Thread nD τ) arg1 fullShare x1 ∗ owns (c : Thread nD τ) arg2 fullShare x2 ∗ owns (c : Thread nD τ) arg3 fullShare xi3
        ∗ (∃ d, owns (c : Thread nD τ) arg4 fullShare d)
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc5__pool_kernel i arg1 harg1 arg2 harg2 arg3 harg3 arg4 harg4) K :=
  sound_kernel2_A c E i arg1 harg1 arg2 harg2 arg3 harg3 arg4 harg4 hc0 hc1 x1 x2 xi3 Y hY K

theorem sound_kernel5_B (c : Dev nD) (E : Set ℕ) (i : grid5.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond5_0 i) (hc1 : ¬cond5_1 i)
    (x1 : Vec F S2048x32 .f32) (x2 : Vec F S1x2048 .i32) (xi3 : Vec F S128x32 .f32) (xs : Vec F S128x32 .f32)
    (Y : Vec F S128x32 .f32) (hY : Y = k5_pay2 x2 x1 xs) (K : PUnit → sProp 𝕄) :
    iprop(owns (c : Thread nD τ) arg1 fullShare x1 ∗ owns (c : Thread nD τ) arg2 fullShare x2 ∗ owns (c : Thread nD τ) arg3 fullShare xi3
        ∗ owns (c : Thread nD τ) arg4 fullShare xs
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc5__pool_kernel i arg1 harg1 arg2 harg2 arg3 harg3 arg4 harg4) K :=
  sound_kernel2_B c E i arg1 harg1 arg2 harg2 arg3 harg3 arg4 harg4 hc0 hc1 x1 x2 xi3 xs Y hY K

theorem sound_kernel5_C (c : Dev nD) (E : Set ℕ) (i : grid5.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond5_0 i) (hc1 : cond5_1 i)
    (x1 : Vec F S2048x32 .f32) (x2 : Vec F S1x2048 .i32) (xs : Vec F S128x32 .f32)
    (Y : Vec F S128x32 .f32) (hY : Y = k5_pay2 x2 x1 xs) (K : PUnit → sProp 𝕄) :
    iprop(owns (c : Thread nD τ) arg1 fullShare x1 ∗ owns (c : Thread nD τ) arg2 fullShare x2 ∗ (∃ d, owns (c : Thread nD τ) arg3 fullShare d)
        ∗ owns (c : Thread nD τ) arg4 fullShare xs
        ∗ (iprop(owns (c : Thread nD τ) arg1 fullShare x1 ∗ owns (c : Thread nD τ) arg2 fullShare x2 ∗ owns (c : Thread nD τ) arg3 fullShare Y
              ∗ owns (c : Thread nD τ) arg4 fullShare Y) -∗ K ⟨⟩))
      ⊢ wp frame (wpE (defs₀ (F := F)) Variants.none c none) E (cc5__pool_kernel i arg1 harg1 arg2 harg2 arg3 harg3 arg4 harg4) K :=
  sound_kernel2_C c E i arg1 harg1 arg2 harg2 arg3 harg3 arg4 harg4 hc0 hc1 x1 x2 xs Y hY K

theorem PhiA5_eq (c : Dev nD) :
    (Pipeline.ΦA spec5 c : sProp 𝕄)
      = iprop(iprop(iprop((∃ d, owns (c : Thread nD τ) scM5 fullShare d))
            ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega))
        ∗ Pipeline.scopedRestBut (Ix := Unit) (Name := ℕ) (U := UR sig nD τ) (Lvl := ℕ) (Val := Elt F) spec5 c [cc5_scratch0])
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

theorem after5_2_last (c : Dev nD) : ∀ t : Fin cfg5.N, t.val = 48 → (dat5 V c).after 2 t = acc5 V c 48 (by decide) := by
  intro t ht
  rw [after5_2]
  obtain ⟨n, hn⟩ := t
  dsimp only at ht
  subst ht
  rfl

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 49 := lt_of_lt_of_eq t.isLt (show cfg5.N = 49 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val = 0
  · have h1 : t.val ≠ 48 := by omega
    rw [Dat.leavesExact_idle (dat5 V c) 2 t (idleAt5_2 t h1) (noFlush5_2 t h1)]
    rw [PhiS5_castSucc V c t, PhiS5_zero V c _ _ h0, PhiA5_eq]
    iintro ⟨⟨⟨HS, HR⟩, Hg⟩, Ho, ⟨%d0, H0⟩, ⟨%d1, H1⟩, ⟨%d2, H2⟩⟩
    iapply (sound_kernel5_A c Set.univ (grid5.coords t) _ _ _ _ _ _ _ _ ((hcond5_0 t).mpr h0) (fun h => h1 ((hcond5_1 t).mp h))
      (iblk5 V c 0 t) (iblk5 V c 1 t) ((dat5 V c).before 2 t d2) (acc5 V c t.val t.isLt) (acc5_first V c t h0) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 48
    · rw [show (dat5 V c).leavesExact 2 t = owns (c : Thread nD τ) (ms5_2 t) fullShare ((dat5 V c).after 2 t) from by
        unfold Dat.leavesExact; rw [liveAt5_2 t h1], after5_2]
      rw [PhiS5_castSucc V c t, PhiS5_pos V c _ _ h0]
      iintro ⟨⟨⟨HS, HR⟩, Hg⟩, Ho, ⟨%d0, H0⟩, ⟨%d1, H1⟩, ⟨%d2, H2⟩⟩
      iapply (sound_kernel5_C c Set.univ (grid5.coords t) _ _ _ _ _ _ _ _ (fun h => h0 ((hcond5_0 t).mp h)) ((hcond5_1 t).mpr h1)
        (iblk5 V c 0 t) (iblk5 V c 1 t) (acc5 V c (t.val - 1) (Nat.lt_of_le_of_lt (Nat.sub_le _ _) t.isLt))
        (acc5 V c t.val t.isLt) (acc5_pos V c t h0) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat5 V c) 2 t (idleAt5_2 t h1) (noFlush5_2 t h1)]
      rw [PhiS5_castSucc V c t, PhiS5_pos V c _ _ h0]
      iintro ⟨⟨⟨HS, HR⟩, Hg⟩, Ho, ⟨%d0, H0⟩, ⟨%d1, H1⟩, ⟨%d2, H2⟩⟩
      iapply (sound_kernel5_B c Set.univ (grid5.coords t) _ _ _ _ _ _ _ _ (fun h => h0 ((hcond5_0 t).mp h)) (fun h => h1 ((hcond5_1 t).mp h))
        (iblk5 V c 0 t) (iblk5 V c 1 t) ((dat5 V c).before 2 t d2) (acc5 V c (t.val - 1) (Nat.lt_of_le_of_lt (Nat.sub_le _ _) t.isLt))
        (acc5 V c t.val t.isLt) (acc5_pos V c t h0) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have hne : (Fin.last cfg5.N).val ≠ 0 := by rw [Fin.val_last]; have : cfg5.N = 49 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨⟨HS, HR⟩, Hg⟩
  isplitl [HS HR]
  · isplitl [HS]
    · iexists _; iexact HS
    iexact HR
  iexact Hg

end Cert.KernelIdeal.Gen

end
-- ==== Proof.KI.Reg6.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import proofs.«423851_j31086973288655_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2048x32 := Rect.unit (s := S2048x32) ![0, 0] S2048x32.size inb_S2048x32_S2048x32_0_0
abbrev r6_1 : Rect S32x32 := Rect.unit (s := S32x32) ![0, 0] S32x32.size inb_S32x32_S32x32_0_0
abbrev r6_2 : Rect S2048x32 := Rect.unit (s := S2048x32) ![0, 0] S2048x32.size inb_S2048x32_S2048x32_0_0

def out6_2 (x0 : Vec F S2048x32 .f32) (x1 : Vec F S32x32 .f32) : Vec F S2048x32 .f32 :=
  View.canon [⟨r6_2, k6_pay1 (View.ld x0 r6_0) (View.ld x1 r6_1)⟩]

/-- This region's body is region 3's function under another name: its triple is region 3's. -/
theorem sound_kernel6 (c : Dev nD) (E : Set ℕ) (i : grid6.Coords)
    (arg0 : Memref sig .tc .vmem S2048x32 .f32) (harg0 : arg0.IsWhole) (arg1 : Memref sig .tc .vmem S32x32 .f32) (harg1 : arg1.IsWhole)
    (arg2 : Memref sig .tc .vmem S2048x32 .f32) (harg2 : arg2.IsWhole)
    (x0 : Vec F S2048x32 .f32) (x1 : Vec F S32x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__matmul_kernel i arg0 harg0 arg1 harg1 arg2 harg2) K :=
  sound_kernel3 c E i arg0 harg0 arg1 harg1 arg2 harg2 x0 x1 K

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

theorem hin6 (c : Dev nD) : (Pipeline.ΦA spec6 c : sProp 𝕄) ⊢ (dat6 V c).Φ 0 := .rfl
theorem hout6 (c : Dev nD) : (dat6 V c).Φ (Fin.last cfg6.N) ⊢ (Pipeline.ΦA spec6 c : sProp 𝕄) := .rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Reg7.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import proofs.«423851_j31086973288655_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2048x32 := Rect.unit (s := S2048x32) ![0, 0] S2048x32.size inb_S2048x32_S2048x32_0_0
abbrev r7_1 : Rect S2048x1 := Rect.unit (s := S2048x1) ![0, 0] S2048x1.size inb_S2048x1_S2048x1_0_0
abbrev r7_2 : Rect S1x32 := Rect.unit (s := S1x32) ![0, 0] S1x32.size inb_S1x32_S1x32_0_0

def out7_4 (x0 : Vec F S2048x32 .f32) (x1 : Vec F S2048x32 .f32) (x2 : Vec F S2048x1 .f32) (x3 : Vec F S1x32 .f32) : Vec F S2048x32 .f32 :=
  View.canon [⟨r7_0, k7_pay1 (View.ld x2 r7_1) (View.ld x1 r7_0) (View.ld x0 r7_0) (View.ld x3 r7_2)⟩]

/-- This region's body is region 1's function under another name: its triple is region 1's. -/
theorem sound_kernel7 (c : Dev nD) (E : Set ℕ) (i : grid7.Coords) (arg1 : Memref sig .tc .vmem S2048x32 .f32) (harg1 : arg1.IsWhole) (arg2 : Memref sig .tc .vmem S2048x32 .f32) (harg2 : arg2.IsWhole) (arg3 : Memref sig .tc .vmem S2048x1 .f32) (harg3 : arg3.IsWhole) (arg4 : Memref sig .tc .vmem S1x32 .f32) (harg4 : arg4.IsWhole) (arg5 : Memref sig .tc .vmem S2048x32 .f32) (harg5 : arg5.IsWhole)
    (x0 : Vec F S2048x32 .f32) (x1 : Vec F S2048x32 .f32) (x2 : Vec F S2048x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__combine_kernel i arg1 harg1 arg2 harg2 arg3 harg3 arg4 harg4 arg5 harg5) K :=
  sound_kernel1 c E i arg1 harg1 arg2 harg2 arg3 harg3 arg4 harg4 arg5 harg5 x0 x1 x2 x3 K

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

theorem hin7 (c : Dev nD) : (Pipeline.ΦA spec7 c : sProp 𝕄) ⊢ (dat7 V c).Φ 0 := .rfl

theorem hout7 (c : Dev nD) : (dat7 V c).Φ (Fin.last cfg7.N) ⊢ (Pipeline.ΦA spec7 c : sProp 𝕄) := .rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.Reg8.lean ====
import proofs.«423851_j31086973288655_1_alg».proof.Proof.Gen.KernelIdeal.Launch
import proofs.«423851_j31086973288655_1_alg».proof.Proof.Gen.KernelIdeal.Skeleton
import proofs.«423851_j31086973288655_1_alg».proof.Proof.Gen.KernelIdeal.Points
import proofs.«423851_j31086973288655_1_alg».proof.Proof.KI.Reg2
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

def acc8 (c : Dev nD) : (n : ℕ) → n < cfg8.N → Vec F S128x32 .f32
  | 0, hn => k8_pay2 (iblk8 V c 1 ⟨0, hn⟩) (iblk8 V c 0 ⟨0, hn⟩) k8_pay1
  | n + 1, hn => k8_pay2 (iblk8 V c 1 ⟨n + 1, hn⟩) (iblk8 V c 0 ⟨n + 1, hn⟩) (acc8 c n (Nat.lt_of_succ_lt hn))

theorem acc8_zero (c : Dev nD) (hn : 0 < cfg8.N) :
    acc8 V c 0 hn = k8_pay2 (iblk8 V c 1 ⟨0, hn⟩) (iblk8 V c 0 ⟨0, hn⟩) k8_pay1 := rfl

theorem acc8_succ (c : Dev nD) (n : ℕ) (hn : n + 1 < cfg8.N) :
    acc8 V c (n + 1) hn = k8_pay2 (iblk8 V c 1 ⟨n + 1, hn⟩) (iblk8 V c 0 ⟨n + 1, hn⟩) (acc8 V c n (Nat.lt_of_succ_lt hn)) := rfl

theorem acc8_first (c : Dev nD) (t : Fin cfg8.N) (ht : t.val = 0) :
    acc8 V c t.val t.isLt = k8_pay2 (iblk8 V c 1 t) (iblk8 V c 0 t) k8_pay1 := by
  obtain ⟨n, hn⟩ := t
  cases n with
  | zero => rfl
  | succ n => exact absurd ht (Nat.succ_ne_zero n)

theorem acc8_pos (c : Dev nD) (t : Fin cfg8.N) (ht : t.val ≠ 0) :
    acc8 V c t.val t.isLt = k8_pay2 (iblk8 V c 1 t) (iblk8 V c 0 t) (acc8 V c (t.val - 1) (Nat.lt_of_le_of_lt (Nat.sub_le _ _) t.isLt)) := by
  obtain ⟨n, hn⟩ := t
  cases n with
  | zero => exact absurd rfl ht
  | succ n => rfl

abbrev cond8_0 (i : grid8.Coords) : Prop := (Scalar.cmpi .ne (Scalar.extui (Scalar.cmpi .eq (BitVec.ofNat 32 (i 0).val) 0#32)) 0#32) = 1#1

theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1

theorem hcond8_1 : ∀ t : Fin cfg8.N, cond8_1 (grid8.coords t) ↔ t.val = 48 :=
  (by decide +kernel : ∀ t : Fin grid8.N, cond8_1 (grid8.coords t) ↔ t.val = 48)

theorem liveAt8_0 : ∀ t : Fin cfg8.N, cfg8.idle 0 (grid8.coords t) = false := by decide +kernel
theorem liveAt8_1 : ∀ t : Fin cfg8.N, cfg8.idle 1 (grid8.coords t) = false := by decide +kernel

theorem idleAt8_2 : ∀ t : Fin cfg8.N, t.val ≠ 48 → cfg8.idle 2 (grid8.coords t) = true := by decide +kernel

theorem liveAt8_2 : ∀ t : Fin cfg8.N, t.val = 48 → cfg8.idle 2 (grid8.coords t) = false := by decide +kernel

theorem noFlush8_2 (t : Fin cfg8.N) (h : t.val ≠ 48) : (cfg8.win 2).flush t = false := by
  have hN : t.val < 49 := lt_of_lt_of_eq t.isLt (show cfg8.N = 49 from N_8)
  cases hf : (cfg8.win 2).flush t with
  | false => rfl
  | true => exact absurd ((flush8_2 t).mp hf) (by omega)

abbrev ms8_0 (t : Fin cfg8.N) : Memref sig .tc .vmem S2048x32 .f32 := win8_0.stage (cfg8.slots t 0)
abbrev ms8_1 (t : Fin cfg8.N) : Memref sig .tc .vmem S1x2048 .i32 := win8_1.stage (cfg8.slots t 1)
abbrev ms8_2 (t : Fin cfg8.N) : Memref sig .tc .vmem S128x32 .f32 := win8_2.stage (cfg8.slots t 2)
abbrev scM8 : Memref sig .tc .vmem S128x32 .f32 := Memref.whole cc8_scratch0

/-- This region's body is region 2's function under another name: its triples are region 2's. -/
theorem sound_kernel8_A (c : Dev nD) (E : Set ℕ) (i : grid8.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : cond8_0 i) (hc1 : ¬cond8_1 i)
    (x1 : Vec F S2048x32 .f32) (x2 : Vec F S1x2048 .i32) (xi3 : Vec F S128x32 .f32)
    (Y : Vec F S128x32 .f32) (hY : Y = k8_pay2 x2 x1 k8_pay1) (K : PUnit → sProp 𝕄) :
    iprop(owns (c : Thread nD τ) arg1 fullShare x1 ∗ owns (c : Thread nD τ) arg2 fullShare x2 ∗ owns (c : Thread nD τ) arg3 fullShare xi3
        ∗ (∃ d, owns (c : Thread nD τ) arg4 fullShare d)
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc8__pool_kernel i arg1 harg1 arg2 harg2 arg3 harg3 arg4 harg4) K :=
  sound_kernel2_A c E i arg1 harg1 arg2 harg2 arg3 harg3 arg4 harg4 hc0 hc1 x1 x2 xi3 Y hY K

theorem sound_kernel8_B (c : Dev nD) (E : Set ℕ) (i : grid8.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond8_0 i) (hc1 : ¬cond8_1 i)
    (x1 : Vec F S2048x32 .f32) (x2 : Vec F S1x2048 .i32) (xi3 : Vec F S128x32 .f32) (xs : Vec F S128x32 .f32)
    (Y : Vec F S128x32 .f32) (hY : Y = k8_pay2 x2 x1 xs) (K : PUnit → sProp 𝕄) :
    iprop(owns (c : Thread nD τ) arg1 fullShare x1 ∗ owns (c : Thread nD τ) arg2 fullShare x2 ∗ owns (c : Thread nD τ) arg3 fullShare xi3
        ∗ owns (c : Thread nD τ) arg4 fullShare xs
        ∗ (iprop(owns (c : Thread nD τ) arg1 fullShare x1 ∗ owns (c : Thread nD τ) arg2 fullShare x2 ∗ owns (c : Thread nD τ) arg3 fullShare xi3
              ∗ owns (c : Thread nD τ) arg4 fullShare Y) -∗ K ⟨⟩))
      ⊢ wp frame (wpE (defs₀ (F := F)) Variants.none c none) E (cc8__pool_kernel i arg1 harg1 arg2 harg2 arg3 harg3 arg4 harg4) K :=
  sound_kernel2_B c E i arg1 harg1 arg2 harg2 arg3 harg3 arg4 harg4 hc0 hc1 x1 x2 xi3 xs Y hY K

theorem sound_kernel8_C (c : Dev nD) (E : Set ℕ) (i : grid8.Coords)
    (arg1 : Memref sig .tc .vmem S2048x32 .f32) (harg1 : arg1.IsWhole) (arg2 : Memref sig .tc .vmem S1x2048 .i32) (harg2 : arg2.IsWhole)
    (arg3 : Memref sig .tc .vmem S128x32 .f32) (harg3 : arg3.IsWhole) (arg4 : Memref sig .tc .vmem S128x32 .f32) (harg4 : arg4.IsWhole)
    (hc0 : ¬cond8_0 i) (hc1 : cond8_1 i)
    (x1 : Vec F S2048x32 .f32) (x2 : Vec F S1x2048 .i32) (xs : Vec F S128x32 .f32)
    (Y : Vec F S128x32 .f32) (hY : Y = k8_pay2 x2 x1 xs) (K : PUnit → sProp 𝕄) :
    iprop(owns (c : Thread nD τ) arg1 fullShare x1 ∗ owns (c : Thread nD τ) arg2 fullShare x2 ∗ (∃ d, owns (c : Thread nD τ) arg3 fullShare d)
        ∗ owns (c : Thread nD τ) arg4 fullShare xs
        ∗ (iprop(owns (c : Thread nD τ) arg1 fullShare x1 ∗ owns (c : Thread nD τ) arg2 fullShare x2 ∗ owns (c : Thread nD τ) arg3 fullShare Y
              ∗ owns (c : Thread nD τ) arg4 fullShare Y) -∗ K ⟨⟩))
      ⊢ wp frame (wpE (defs₀ (F := F)) Variants.none c none) E (cc8__pool_kernel i arg1 harg1 arg2 harg2 arg3 harg3 arg4 harg4) K :=
  sound_kernel2_C c E i arg1 harg1 arg2 harg2 arg3 harg3 arg4 harg4 hc0 hc1 x1 x2 xs Y hY K

theorem PhiA8_eq (c : Dev nD) :
    (Pipeline.ΦA spec8 c : sProp 𝕄)
      = iprop(iprop(iprop((∃ d, owns (c : Thread nD τ) scM8 fullShare d))
            ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8, owns_whole]; try rfl

def PhiS8 (c : Dev nD) : (n : ℕ) → n ≤ cfg8.N → sProp 𝕄
  | 0, _ => Pipeline.ΦA spec8 c
  | n + 1, hn => iprop(iprop(owns (c : Thread nD τ) scM8 fullShare (acc8 V c n hn)
        ∗ Pipeline.scopedRestBut (Ix := Unit) (Name := ℕ) (U := UR sig nD τ) (Lvl := ℕ) (Val := Elt F) spec8 c [cc8_scratch0])
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
        ∗ Pipeline.scopedRestBut (Ix := Unit) (Name := ℕ) (U := UR sig nD τ) (Lvl := ℕ) (Val := Elt F) spec8 c [cc8_scratch0])
      ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
        ∗ Pipeline.scopedRestBut (Ix := Unit) (Name := ℕ) (U := UR sig nD τ) (Lvl := ℕ) (Val := Elt F) spec8 c [cc8_scratch0])
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c t.val t.isLt := by dsimp only [dat8]

theorem after8_2_last (c : Dev nD) : ∀ t : Fin cfg8.N, t.val = 48 → (dat8 V c).after 2 t = acc8 V c 48 (by decide) := by
  intro t ht
  rw [after8_2]
  obtain ⟨n, hn⟩ := t
  dsimp only at ht
  subst ht
  rfl

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 49 := lt_of_lt_of_eq t.isLt (show cfg8.N = 49 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h0 : t.val = 0
  · have h1 : t.val ≠ 48 := by omega
    rw [Dat.leavesExact_idle (dat8 V c) 2 t (idleAt8_2 t h1) (noFlush8_2 t h1)]
    rw [PhiS8_castSucc V c t, PhiS8_zero V c _ _ h0, PhiA8_eq]
    iintro ⟨⟨⟨HS, HR⟩, Hg⟩, Ho, ⟨%d0, H0⟩, ⟨%d1, H1⟩, ⟨%d2, H2⟩⟩
    iapply (sound_kernel8_A c Set.univ (grid8.coords t) _ _ _ _ _ _ _ _ ((hcond8_0 t).mpr h0) (fun h => h1 ((hcond8_1 t).mp h))
      (iblk8 V c 0 t) (iblk8 V c 1 t) ((dat8 V c).before 2 t d2) (acc8 V c t.val t.isLt) (acc8_first V c t h0) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 48
    · rw [show (dat8 V c).leavesExact 2 t = owns (c : Thread nD τ) (ms8_2 t) fullShare ((dat8 V c).after 2 t) from by
        unfold Dat.leavesExact; rw [liveAt8_2 t h1], after8_2]
      rw [PhiS8_castSucc V c t, PhiS8_pos V c _ _ h0]
      iintro ⟨⟨⟨HS, HR⟩, Hg⟩, Ho, ⟨%d0, H0⟩, ⟨%d1, H1⟩, ⟨%d2, H2⟩⟩
      iapply (sound_kernel8_C c Set.univ (grid8.coords t) _ _ _ _ _ _ _ _ (fun h => h0 ((hcond8_0 t).mp h)) ((hcond8_1 t).mpr h1)
        (iblk8 V c 0 t) (iblk8 V c 1 t) (acc8 V c (t.val - 1) (Nat.lt_of_le_of_lt (Nat.sub_le _ _) t.isLt))
        (acc8 V c t.val t.isLt) (acc8_pos V c t h0) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat8 V c) 2 t (idleAt8_2 t h1) (noFlush8_2 t h1)]
      rw [PhiS8_castSucc V c t, PhiS8_pos V c _ _ h0]
      iintro ⟨⟨⟨HS, HR⟩, Hg⟩, Ho, ⟨%d0, H0⟩, ⟨%d1, H1⟩, ⟨%d2, H2⟩⟩
      iapply (sound_kernel8_B c Set.univ (grid8.coords t) _ _ _ _ _ _ _ _ (fun h => h0 ((hcond8_0 t).mp h)) (fun h => h1 ((hcond8_1 t).mp h))
        (iblk8 V c 0 t) (iblk8 V c 1 t) ((dat8 V c).before 2 t d2) (acc8 V c (t.val - 1) (Nat.lt_of_le_of_lt (Nat.sub_le _ _) t.isLt))
        (acc8 V c t.val t.isLt) (acc8_pos V c t h0) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c := by
  have hne : (Fin.last cfg8.N).val ≠ 0 := by rw [Fin.val_last]; have : cfg8.N = 49 := N_8; omega
  rw [show (dat8 V c).Φ (Fin.last cfg8.N) = PhiS8 V c (Fin.last cfg8.N).val (Nat.le_of_lt_succ (Fin.last cfg8.N).isLt) from rfl,
    PhiS8_pos V c _ _ hne, PhiA8_eq]
  iintro ⟨⟨HS, HR⟩, Hg⟩
  isplitl [HS HR]
  · isplitl [HS]
    · iexists _; iexact HS
    iexact HR
  iexact Hg

end Cert.KernelIdeal.Gen

end
-- ==== Proof.KI.Chain.lean ====
import proofs.«423851_j31086973288655_1_alg».proof.Proof.Gen.KernelIdeal.Regions
import proofs.«423851_j31086973288655_1_alg».proof.Proof.KI.Reg0
import proofs.«423851_j31086973288655_1_alg».proof.Proof.KI.Reg1
import proofs.«423851_j31086973288655_1_alg».proof.Proof.KI.Reg2
import proofs.«423851_j31086973288655_1_alg».proof.Proof.KI.Reg3
import proofs.«423851_j31086973288655_1_alg».proof.Proof.KI.Reg4
import proofs.«423851_j31086973288655_1_alg».proof.Proof.KI.Reg5
import proofs.«423851_j31086973288655_1_alg».proof.Proof.KI.Reg6
import proofs.«423851_j31086973288655_1_alg».proof.Proof.KI.Reg7
import proofs.«423851_j31086973288655_1_alg».proof.Proof.KI.Reg8
import Idealize.ShloMosaic.Lib.Pipeline.RegionsLoop
import Idealize.ShloMosaic.Lib.Pipeline.Kit

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev VW4 : (c : Dev nD) → (b : Ref sig .tc) → Buf (Elt F) ((c : Thread nD τ).loc b) := fun c b => W4 m c (Proc.devRef .tc b)

abbrev W5 : Dev nD → Valuation τ sig (Elt F) := fun c =>
  Function.update (W4 m c) (Proc.devRef .tc main_v19) ((dat0 (VW4 m) c).arrAt 2 cfg0.N)

abbrev VW5 : (c : Dev nD) → (b : Ref sig .tc) → Buf (Elt F) ((c : Thread nD τ).loc b) := fun c b => W5 m c (Proc.devRef .tc b)

abbrev W6 : Dev nD → Valuation τ sig (Elt F) := fun c => StableHlo.after hostOps1 (W5 m c)

abbrev W7 : Dev nD → Valuation τ sig (Elt F) := fun c => StableHlo.after hostOps1_1 (W6 m c)

abbrev W8 : Dev nD → Valuation τ sig (Elt F) := fun c => StableHlo.after hostOps1_2 (W7 m c)

abbrev VW8 : (c : Dev nD) → (b : Ref sig .tc) → Buf (Elt F) ((c : Thread nD τ).loc b) := fun c b => W8 m c (Proc.devRef .tc b)

abbrev W9 : Dev nD → Valuation τ sig (Elt F) := fun c =>
  Function.update (W8 m c) (Proc.devRef .tc main_v50) ((dat1 (VW8 m) c).arrAt 4 cfg1.N)

abbrev VW9 : (c : Dev nD) → (b : Ref sig .tc) → Buf (Elt F) ((c : Thread nD τ).loc b) := fun c b => W9 m c (Proc.devRef .tc b)

abbrev W10 : Dev nD → Valuation τ sig (Elt F) := fun c =>
  Function.update (W9 m c) (Proc.devRef .tc main_v51) ((dat2 (VW9 m) c).arrAt 2 cfg2.N)

abbrev VW10 : (c : Dev nD) → (b : Ref sig .tc) → Buf (Elt F) ((c : Thread nD τ).loc b) := fun c b => W10 m c (Proc.devRef .tc b)

abbrev W11 : Dev nD → Valuation τ sig (Elt F) := fun c => StableHlo.after hostOps3 (W10 m c)

abbrev VW11 : (c : Dev nD) → (b : Ref sig .tc) → Buf (Elt F) ((c : Thread nD τ).loc b) := fun c b => W11 m c (Proc.devRef .tc b)

abbrev W12 : Dev nD → Valuation τ sig (Elt F) := fun c =>
  Function.update (W11 m c) (Proc.devRef .tc main_v55) ((dat3 (VW11 m) c).arrAt 2 cfg3.N)

abbrev VW12 : (c : Dev nD) → (b : Ref sig .tc) → Buf (Elt F) ((c : Thread nD τ).loc b) := fun c b => W12 m c (Proc.devRef .tc b)

abbrev W13 : Dev nD → Valuation τ sig (Elt F) := fun c => StableHlo.after hostOps4 (W12 m c)

abbrev W14 : Dev nD → Valuation τ sig (Elt F) := fun c => StableHlo.after hostOps4_1 (W13 m c)

abbrev W15 : Dev nD → Valuation τ sig (Elt F) := fun c => StableHlo.after hostOps4_2 (W14 m c)

abbrev VW15 : (c : Dev nD) → (b : Ref sig .tc) → Buf (Elt F) ((c : Thread nD τ).loc b) := fun c b => W15 m c (Proc.devRef .tc b)

abbrev W16 : Dev nD → Valuation τ sig (Elt F) := fun c =>
  Function.update (W15 m c) (Proc.devRef .tc main_v86) ((dat4 (VW15 m) c).arrAt 4 cfg4.N)

abbrev VW16 : (c : Dev nD) → (b : Ref sig .tc) → Buf (Elt F) ((c : Thread nD τ).loc b) := fun c b => W16 m c (Proc.devRef .tc b)

abbrev W17 : Dev nD → Valuation τ sig (Elt F) := fun c =>
  Function.update (W16 m c) (Proc.devRef .tc main_v87) ((dat5 (VW16 m) c).arrAt 2 cfg5.N)

abbrev VW17 : (c : Dev nD) → (b : Ref sig .tc) → Buf (Elt F) ((c : Thread nD τ).loc b) := fun c b => W17 m c (Proc.devRef .tc b)

abbrev W18 : Dev nD → Valuation τ sig (Elt F) := fun c => StableHlo.after hostOps6 (W17 m c)

abbrev VW18 : (c : Dev nD) → (b : Ref sig .tc) → Buf (Elt F) ((c : Thread nD τ).loc b) := fun c b => W18 m c (Proc.devRef .tc b)

abbrev W19 : Dev nD → Valuation τ sig (Elt F) := fun c =>
  Function.update (W18 m c) (Proc.devRef .tc main_v91) ((dat6 (VW18 m) c).arrAt 2 cfg6.N)

abbrev VW19 : (c : Dev nD) → (b : Ref sig .tc) → Buf (Elt F) ((c : Thread nD τ).loc b) := fun c b => W19 m c (Proc.devRef .tc b)

abbrev W20 : Dev nD → Valuation τ sig (Elt F) := fun c => StableHlo.after hostOps7 (W19 m c)

abbrev W21 : Dev nD → Valuation τ sig (Elt F) := fun c => StableHlo.after hostOps7_1 (W20 m c)

abbrev W22 : Dev nD → Valuation τ sig (Elt F) := fun c => StableHlo.after hostOps7_2 (W21 m c)

abbrev VW22 : (c : Dev nD) → (b : Ref sig .tc) → Buf (Elt F) ((c : Thread nD τ).loc b) := fun c b => W22 m c (Proc.devRef .tc b)

abbrev W23 : Dev nD → Valuation τ sig (Elt F) := fun c =>
  Function.update (W22 m c) (Proc.devRef .tc main_v122) ((dat7 (VW22 m) c).arrAt 4 cfg7.N)

abbrev VW23 : (c : Dev nD) → (b : Ref sig .tc) → Buf (Elt F) ((c : Thread nD τ).loc b) := fun c b => W23 m c (Proc.devRef .tc b)

abbrev W24 : Dev nD → Valuation τ sig (Elt F) := fun c =>
  Function.update (W23 m c) (Proc.devRef .tc main_v123) ((dat8 (VW23 m) c).arrAt 2 cfg8.N)

abbrev VW24 : (c : Dev nD) → (b : Ref sig .tc) → Buf (Elt F) ((c : Thread nD τ).loc b) := fun c b => W24 m c (Proc.devRef .tc b)

abbrev W25 : Dev nD → Valuation τ sig (Elt F) := fun c => StableHlo.after hostOps9 (W24 m c)

def outs : Outs (F := F) := fun J r c =>
  match J with
  | 5 => W5 m c (Proc.devRef .tc r)
  | 9 => W9 m c (Proc.devRef .tc r)
  | 10 => W10 m c (Proc.devRef .tc r)
  | 12 => W12 m c (Proc.devRef .tc r)
  | 16 => W16 m c (Proc.devRef .tc r)
  | 17 => W17 m c (Proc.devRef .tc r)
  | 19 => W19 m c (Proc.devRef .tc r)
  | 23 => W23 m c (Proc.devRef .tc r)
  | 24 => W24 m c (Proc.devRef .tc r)
  | _ => W0 m c (Proc.devRef .tc r)

theorem outs_5 (r : Ref sig .tc) (c : Dev nD) : outs m 5 r c = W5 m c (Proc.devRef .tc r) := rfl
theorem outs_9 (r : Ref sig .tc) (c : Dev nD) : outs m 9 r c = W9 m c (Proc.devRef .tc r) := rfl
theorem outs_10 (r : Ref sig .tc) (c : Dev nD) : outs m 10 r c = W10 m c (Proc.devRef .tc r) := rfl
theorem outs_12 (r : Ref sig .tc) (c : Dev nD) : outs m 12 r c = W12 m c (Proc.devRef .tc r) := rfl
theorem outs_16 (r : Ref sig .tc) (c : Dev nD) : outs m 16 r c = W16 m c (Proc.devRef .tc r) := rfl
theorem outs_17 (r : Ref sig .tc) (c : Dev nD) : outs m 17 r c = W17 m c (Proc.devRef .tc r) := rfl
theorem outs_19 (r : Ref sig .tc) (c : Dev nD) : outs m 19 r c = W19 m c (Proc.devRef .tc r) := rfl
theorem outs_23 (r : Ref sig .tc) (c : Dev nD) : outs m 23 r c = W23 m c (Proc.devRef .tc r) := rfl
theorem outs_24 (r : Ref sig .tc) (c : Dev nD) : outs m 24 r c = W24 m c (Proc.devRef .tc r) := rfl

theorem update_self_idem {α : Type} [DecidableEq α] {β : α → Type} (f : (a : α) → β a) (k : α) (x : β k) :
    Function.update f k (Function.update f k x k) = Function.update f k x := by rw [Function.update_self]

theorem V_eq_W0 (c : Dev nD) : V0 m c = W0 m c := rfl
theorem V_eq_W1 (c : Dev nD) : V1 m c = W1 m c := congrArg (StableHlo.after hostOps0) (V_eq_W0 m c)
theorem V_eq_W2 (c : Dev nD) : V2 m c = W2 m c := congrArg (StableHlo.after hostOps0_1) (V_eq_W1 m c)
theorem V_eq_W3 (c : Dev nD) : V3 m c = W3 m c := congrArg (StableHlo.after hostOps0_2) (V_eq_W2 m c)
theorem V_eq_W4 (c : Dev nD) : V4 m c = W4 m c := congrArg (StableHlo.after hostOps0_3) (V_eq_W3 m c)
theorem V_eq_W5 (c : Dev nD) : V5 m (outs m) c = W5 m c := by
  show Function.update (V4 m c) (Proc.devRef .tc main_v19) (outs m 5 main_v19 c) = W5 m c
  rw [V_eq_W4 m c, outs_5 m main_v19 c]
  exact update_self_idem (W4 m c) _ _
theorem V_eq_W6 (c : Dev nD) : V6 m (outs m) c = W6 m c := congrArg (StableHlo.after hostOps1) (V_eq_W5 m c)
theorem V_eq_W7 (c : Dev nD) : V7 m (outs m) c = W7 m c := congrArg (StableHlo.after hostOps1_1) (V_eq_W6 m c)
theorem V_eq_W8 (c : Dev nD) : V8 m (outs m) c = W8 m c := congrArg (StableHlo.after hostOps1_2) (V_eq_W7 m c)
theorem V_eq_W9 (c : Dev nD) : V9 m (outs m) c = W9 m c := by
  show Function.update (V8 m (outs m) c) (Proc.devRef .tc main_v50) (outs m 9 main_v50 c) = W9 m c
  rw [V_eq_W8 m c, outs_9 m main_v50 c]
  exact update_self_idem (W8 m c) _ _
theorem V_eq_W10 (c : Dev nD) : V10 m (outs m) c = W10 m c := by
  show Function.update (V9 m (outs m) c) (Proc.devRef .tc main_v51) (outs m 10 main_v51 c) = W10 m c
  rw [V_eq_W9 m c, outs_10 m main_v51 c]
  exact update_self_idem (W9 m c) _ _
theorem V_eq_W11 (c : Dev nD) : V11 m (outs m) c = W11 m c := congrArg (StableHlo.after hostOps3) (V_eq_W10 m c)
theorem V_eq_W12 (c : Dev nD) : V12 m (outs m) c = W12 m c := by
  show Function.update (V11 m (outs m) c) (Proc.devRef .tc main_v55) (outs m 12 main_v55 c) = W12 m c
  rw [V_eq_W11 m c, outs_12 m main_v55 c]
  exact update_self_idem (W11 m c) _ _
theorem V_eq_W13 (c : Dev nD) : V13 m (outs m) c = W13 m c := congrArg (StableHlo.after hostOps4) (V_eq_W12 m c)
theorem V_eq_W14 (c : Dev nD) : V14 m (outs m) c = W14 m c := congrArg (StableHlo.after hostOps4_1) (V_eq_W13 m c)
theorem V_eq_W15 (c : Dev nD) : V15 m (outs m) c = W15 m c := congrArg (StableHlo.after hostOps4_2) (V_eq_W14 m c)
theorem V_eq_W16 (c : Dev nD) : V16 m (outs m) c = W16 m c := by
  show Function.update (V15 m (outs m) c) (Proc.devRef .tc main_v86) (outs m 16 main_v86 c) = W16 m c
  rw [V_eq_W15 m c, outs_16 m main_v86 c]
  exact update_self_idem (W15 m c) _ _
theorem V_eq_W17 (c : Dev nD) : V17 m (outs m) c = W17 m c := by
  show Function.update (V16 m (outs m) c) (Proc.devRef .tc main_v87) (outs m 17 main_v87 c) = W17 m c
  rw [V_eq_W16 m c, outs_17 m main_v87 c]
  exact update_self_idem (W16 m c) _ _
theorem V_eq_W18 (c : Dev nD) : V18 m (outs m) c = W18 m c := congrArg (StableHlo.after hostOps6) (V_eq_W17 m c)
theorem V_eq_W19 (c : Dev nD) : V19 m (outs m) c = W19 m c := by
  show Function.update (V18 m (outs m) c) (Proc.devRef .tc main_v91) (outs m 19 main_v91 c) = W19 m c
  rw [V_eq_W18 m c, outs_19 m main_v91 c]
  exact update_self_idem (W18 m c) _ _
theorem V_eq_W20 (c : Dev nD) : V20 m (outs m) c = W20 m c := congrArg (StableHlo.after hostOps7) (V_eq_W19 m c)
theorem V_eq_W21 (c : Dev nD) : V21 m (outs m) c = W21 m c := congrArg (StableHlo.after hostOps7_1) (V_eq_W20 m c)
theorem V_eq_W22 (c : Dev nD) : V22 m (outs m) c = W22 m c := congrArg (StableHlo.after hostOps7_2) (V_eq_W21 m c)
theorem V_eq_W23 (c : Dev nD) : V23 m (outs m) c = W23 m c := by
  show Function.update (V22 m (outs m) c) (Proc.devRef .tc main_v122) (outs m 23 main_v122 c) = W23 m c
  rw [V_eq_W22 m c, outs_23 m main_v122 c]
  exact update_self_idem (W22 m c) _ _
theorem V_eq_W24 (c : Dev nD) : V24 m (outs m) c = W24 m c := by
  show Function.update (V23 m (outs m) c) (Proc.devRef .tc main_v123) (outs m 24 main_v123 c) = W24 m c
  rw [V_eq_W23 m c, outs_24 m main_v123 c]
  exact update_self_idem (W23 m c) _ _
theorem V_eq_W25 (c : Dev nD) : V25 m (outs m) c = W25 m c := congrArg (StableHlo.after hostOps9) (V_eq_W24 m c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W5_of (c : Dev nD) (r : Ref sig .tc) (h : r ∉ ([main_v19] : List (Ref sig .tc))) : W5 m c (Proc.devRef .tc r) = W4 m c (Proc.devRef .tc r) :=
  Function.update_of_ne (StableHlo.devRef_ne_of_ne (x := r) (y := main_v19) (List.ne_of_not_mem_cons h)) _ _
theorem W5_out (c : Dev nD) : W5 m c (Proc.devRef .tc main_v19) = (dat0 (VW4 m) c).arrAt 2 cfg0.N :=
  Function.update_self _ _ _
theorem W6_of (c : Dev nD) (r : Ref sig .tc) (h : r ∉ hostOps1_W) : W6 m c (Proc.devRef .tc r) = W5 m c (Proc.devRef .tc r) :=
  StableHlo.after_of_writes_sub hostOps1 _ hostOps1_writes h
theorem W7_of (c : Dev nD) (r : Ref sig .tc) (h : r ∉ hostOps1_1_W) : W7 m c (Proc.devRef .tc r) = W6 m c (Proc.devRef .tc r) :=
  StableHlo.after_of_writes_sub hostOps1_1 _ hostOps1_1_writes h
theorem W8_of (c : Dev nD) (r : Ref sig .tc) (h : r ∉ hostOps1_2_W) : W8 m c (Proc.devRef .tc r) = W7 m c (Proc.devRef .tc r) :=
  StableHlo.after_of_writes_sub hostOps1_2 _ hostOps1_2_writes h
theorem W9_of (c : Dev nD) (r : Ref sig .tc) (h : r ∉ ([main_v50] : List (Ref sig .tc))) : W9 m c (Proc.devRef .tc r) = W8 m c (Proc.devRef .tc r) :=
  Function.update_of_ne (StableHlo.devRef_ne_of_ne (x := r) (y := main_v50) (List.ne_of_not_mem_cons h)) _ _
theorem W9_out (c : Dev nD) : W9 m c (Proc.devRef .tc main_v50) = (dat1 (VW8 m) c).arrAt 4 cfg1.N :=
  Function.update_self _ _ _
theorem W10_of (c : Dev nD) (r : Ref sig .tc) (h : r ∉ ([main_v51] : List (Ref sig .tc))) : W10 m c (Proc.devRef .tc r) = W9 m c (Proc.devRef .tc r) :=
  Function.update_of_ne (StableHlo.devRef_ne_of_ne (x := r) (y := main_v51) (List.ne_of_not_mem_cons h)) _ _
theorem W10_out (c : Dev nD) : W10 m c (Proc.devRef .tc main_v51) = (dat2 (VW9 m) c).arrAt 2 cfg2.N :=
  Function.update_self _ _ _
theorem W11_of (c : Dev nD) (r : Ref sig .tc) (h : r ∉ hostOps3_W) : W11 m c (Proc.devRef .tc r) = W10 m c (Proc.devRef .tc r) :=
  StableHlo.after_of_writes_sub hostOps3 _ hostOps3_writes h
theorem W12_of (c : Dev nD) (r : Ref sig .tc) (h : r ∉ ([main_v55] : List (Ref sig .tc))) : W12 m c (Proc.devRef .tc r) = W11 m c (Proc.devRef .tc r) :=
  Function.update_of_ne (StableHlo.devRef_ne_of_ne (x := r) (y := main_v55) (List.ne_of_not_mem_cons h)) _ _
theorem W12_out (c : Dev nD) : W12 m c (Proc.devRef .tc main_v55) = (dat3 (VW11 m) c).arrAt 2 cfg3.N :=
  Function.update_self _ _ _
theorem W13_of (c : Dev nD) (r : Ref sig .tc) (h : r ∉ hostOps4_W) : W13 m c (Proc.devRef .tc r) = W12 m c (Proc.devRef .tc r) :=
  StableHlo.after_of_writes_sub hostOps4 _ hostOps4_writes h
theorem W14_of (c : Dev nD) (r : Ref sig .tc) (h : r ∉ hostOps4_1_W) : W14 m c (Proc.devRef .tc r) = W13 m c (Proc.devRef .tc r) :=
  StableHlo.after_of_writes_sub hostOps4_1 _ hostOps4_1_writes h
theorem W15_of (c : Dev nD) (r : Ref sig .tc) (h : r ∉ hostOps4_2_W) : W15 m c (Proc.devRef .tc r) = W14 m c (Proc.devRef .tc r) :=
  StableHlo.after_of_writes_sub hostOps4_2 _ hostOps4_2_writes h
theorem W16_of (c : Dev nD) (r : Ref sig .tc) (h : r ∉ ([main_v86] : List (Ref sig .tc))) : W16 m c (Proc.devRef .tc r) = W15 m c (Proc.devRef .tc r) :=
  Function.update_of_ne (StableHlo.devRef_ne_of_ne (x := r) (y := main_v86) (List.ne_of_not_mem_cons h)) _ _
theorem W16_out (c : Dev nD) : W16 m c (Proc.devRef .tc main_v86) = (dat4 (VW15 m) c).arrAt 4 cfg4.N :=
  Function.update_self _ _ _
theorem W17_of (c : Dev nD) (r : Ref sig .tc) (h : r ∉ ([main_v87] : List (Ref sig .tc))) : W17 m c (Proc.devRef .tc r) = W16 m c (Proc.devRef .tc r) :=
  Function.update_of_ne (StableHlo.devRef_ne_of_ne (x := r) (y := main_v87) (List.ne_of_not_mem_cons h)) _ _
theorem W17_out (c : Dev nD) : W17 m c (Proc.devRef .tc main_v87) = (dat5 (VW16 m) c).arrAt 2 cfg5.N :=
  Function.update_self _ _ _
theorem W18_of (c : Dev nD) (r : Ref sig .tc) (h : r ∉ hostOps6_W) : W18 m c (Proc.devRef .tc r) = W17 m c (Proc.devRef .tc r) :=
  StableHlo.after_of_writes_sub hostOps6 _ hostOps6_writes h
theorem W19_of (c : Dev nD) (r : Ref sig .tc) (h : r ∉ ([main_v91] : List (Ref sig .tc))) : W19 m c (Proc.devRef .tc r) = W18 m c (Proc.devRef .tc r) :=
  Function.update_of_ne (StableHlo.devRef_ne_of_ne (x := r) (y := main_v91) (List.ne_of_not_mem_cons h)) _ _
theorem W19_out (c : Dev nD) : W19 m c (Proc.devRef .tc main_v91) = (dat6 (VW18 m) c).arrAt 2 cfg6.N :=
  Function.update_self _ _ _
theorem W20_of (c : Dev nD) (r : Ref sig .tc) (h : r ∉ hostOps7_W) : W20 m c (Proc.devRef .tc r) = W19 m c (Proc.devRef .tc r) :=
  StableHlo.after_of_writes_sub hostOps7 _ hostOps7_writes h
theorem W21_of (c : Dev nD) (r : Ref sig .tc) (h : r ∉ hostOps7_1_W) : W21 m c (Proc.devRef .tc r) = W20 m c (Proc.devRef .tc r) :=
  StableHlo.after_of_writes_sub hostOps7_1 _ hostOps7_1_writes h
theorem W22_of (c : Dev nD) (r : Ref sig .tc) (h : r ∉ hostOps7_2_W) : W22 m c (Proc.devRef .tc r) = W21 m c (Proc.devRef .tc r) :=
  StableHlo.after_of_writes_sub hostOps7_2 _ hostOps7_2_writes h
theorem W23_of (c : Dev nD) (r : Ref sig .tc) (h : r ∉ ([main_v122] : List (Ref sig .tc))) : W23 m c (Proc.devRef .tc r) = W22 m c (Proc.devRef .tc r) :=
  Function.update_of_ne (StableHlo.devRef_ne_of_ne (x := r) (y := main_v122) (List.ne_of_not_mem_cons h)) _ _
theorem W23_out (c : Dev nD) : W23 m c (Proc.devRef .tc main_v122) = (dat7 (VW22 m) c).arrAt 4 cfg7.N :=
  Function.update_self _ _ _
theorem W24_of (c : Dev nD) (r : Ref sig .tc) (h : r ∉ ([main_v123] : List (Ref sig .tc))) : W24 m c (Proc.devRef .tc r) = W23 m c (Proc.devRef .tc r) :=
  Function.update_of_ne (StableHlo.devRef_ne_of_ne (x := r) (y := main_v123) (List.ne_of_not_mem_cons h)) _ _
theorem W24_out (c : Dev nD) : W24 m c (Proc.devRef .tc main_v123) = (dat8 (VW23 m) c).arrAt 2 cfg8.N :=
  Function.update_self _ _ _
def pdats : (p : Fin 9) → (c : Dev nD) → Dat τ (Elt F) Unit ℕ (UR sig nD τ) ℕ (cfgs p) c
  | ⟨0, _⟩ => fun c => dat0 (VW4 m) c
  | ⟨1, _⟩ => fun c => dat1 (VW8 m) c
  | ⟨2, _⟩ => fun c => dat2 (VW9 m) c
  | ⟨3, _⟩ => fun c => dat3 (VW11 m) c
  | ⟨4, _⟩ => fun c => dat4 (VW15 m) c
  | ⟨5, _⟩ => fun c => dat5 (VW16 m) c
  | ⟨6, _⟩ => fun c => dat6 (VW18 m) c
  | ⟨7, _⟩ => fun c => dat7 (VW22 m) c
  | ⟨8, _⟩ => fun c => dat8 (VW23 m) c
  | ⟨_ + 9, h⟩ => absurd h (Nat.not_lt.2 (Nat.le_add_left _ _))

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option maxHeartbeats 1000000 in
theorem hF0 (c : Dev nD) : ∀ w : Fin 3, (dat0 (VW4 m) c).arrAt w cfg0.N = VW5 m c (Pipeline.arrRef spec0 w)
  | 0 => ((dat0 (VW4 m) c).arrAt_in 0 rfl _).trans <| (A_eq0 (VW4 m) c 0).trans
      (Function.update_of_ne (StableHlo.devRef_ne_of_ne (x := main_v18) (y := main_v19) (by decide)) ((dat0 (VW4 m) c).arrAt 2 cfg0.N) (W4 m c)).symm
  | 1 => ((dat0 (VW4 m) c).arrAt_in 1 rfl _).trans <| (A_eq0 (VW4 m) c 1).trans
      (Function.update_of_ne (StableHlo.devRef_ne_of_ne (x := main_arg1) (y := main_v19) (by decide)) ((dat0 (VW4 m) c).arrAt 2 cfg0.N) (W4 m c)).symm
  | 2 => (Function.update_self (Proc.devRef .tc main_v19) ((dat0 (VW4 m) c).arrAt 2 cfg0.N) (W4 m c)).symm
  | ⟨_ + 3, h⟩ => absurd h (Nat.not_lt.2 (Nat.le_add_left _ _))
theorem hrest0 (c : Dev nD) : ∀ b, b ∉ Finset.univ.image (Pipeline.arrRef spec0) → VW5 m c b = VW4 m c b :=
  fun b hb => Function.update_of_ne (StableHlo.devRef_ne_of_ne (x := b) (y := main_v19)
    fun (e : b = main_v19) => hb (Finset.mem_image.mpr ⟨2, Finset.mem_univ _, e.symm⟩)) _ _

set_option maxHeartbeats 1000000 in
theorem hF1 (c : Dev nD) : ∀ w : Fin 5, (dat1 (VW8 m) c).arrAt w cfg1.N = VW9 m c (Pipeline.arrRef spec1 w)
  | 0 => ((dat1 (VW8 m) c).arrAt_in 0 rfl _).trans <| (A_eq1 (VW8 m) c 0).trans
      (Function.update_of_ne (StableHlo.devRef_ne_of_ne (x := main_v48) (y := main_v50) (by decide)) ((dat1 (VW8 m) c).arrAt 4 cfg1.N) (W8 m c)).symm
  | 1 => ((dat1 (VW8 m) c).arrAt_in 1 rfl _).trans <| (A_eq1 (VW8 m) c 1).trans
      (Function.update_of_ne (StableHlo.devRef_ne_of_ne (x := main_v19) (y := main_v50) (by decide)) ((dat1 (VW8 m) c).arrAt 4 cfg1.N) (W8 m c)).symm
  | 2 => ((dat1 (VW8 m) c).arrAt_in 2 rfl _).trans <| (A_eq1 (VW8 m) c 2).trans
      (Function.update_of_ne (StableHlo.devRef_ne_of_ne (x := main_v15) (y := main_v50) (by decide)) ((dat1 (VW8 m) c).arrAt 4 cfg1.N) (W8 m c)).symm
  | 3 => ((dat1 (VW8 m) c).arrAt_in 3 rfl _).trans <| (A_eq1 (VW8 m) c 3).trans
      (Function.update_of_ne (StableHlo.devRef_ne_of_ne (x := main_v49) (y := main_v50) (by decide)) ((dat1 (VW8 m) c).arrAt 4 cfg1.N) (W8 m c)).symm
  | 4 => (Function.update_self (Proc.devRef .tc main_v50) ((dat1 (VW8 m) c).arrAt 4 cfg1.N) (W8 m c)).symm
  | ⟨_ + 5, h⟩ => absurd h (Nat.not_lt.2 (Nat.le_add_left _ _))
theorem hrest1 (c : Dev nD) : ∀ b, b ∉ Finset.univ.image (Pipeline.arrRef spec1) → VW9 m c b = VW8 m c b :=
  fun b hb => Function.update_of_ne (StableHlo.devRef_ne_of_ne (x := b) (y := main_v50)
    fun (e : b = main_v50) => hb (Finset.mem_image.mpr ⟨4, Finset.mem_univ _, e.symm⟩)) _ _

set_option maxHeartbeats 1000000 in
theorem hF2 (c : Dev nD) : ∀ w : Fin 3, (dat2 (VW9 m) c).arrAt w cfg2.N = VW10 m c (Pipeline.arrRef spec2 w)
  | 0 => ((dat2 (VW9 m) c).arrAt_in 0 rfl _).trans <| (A_eq2 (VW9 m) c 0).trans
      (Function.update_of_ne (StableHlo.devRef_ne_of_ne (x := main_v50) (y := main_v51) (by decide)) ((dat2 (VW9 m) c).arrAt 2 cfg2.N) (W9 m c)).symm
  | 1 => ((dat2 (VW9 m) c).arrAt_in 1 rfl _).trans <| (A_eq2 (VW9 m) c 1).trans
      (Function.update_of_ne (StableHlo.devRef_ne_of_ne (x := main_v17) (y := main_v51) (by decide)) ((dat2 (VW9 m) c).arrAt 2 cfg2.N) (W9 m c)).symm
  | 2 => (Function.update_self (Proc.devRef .tc main_v51) ((dat2 (VW9 m) c).arrAt 2 cfg2.N) (W9 m c)).symm
  | ⟨_ + 3, h⟩ => absurd h (Nat.not_lt.2 (Nat.le_add_left _ _))
theorem hrest2 (c : Dev nD) : ∀ b, b ∉ Finset.univ.image (Pipeline.arrRef spec2) → VW10 m c b = VW9 m c b :=
  fun b hb => Function.update_of_ne (StableHlo.devRef_ne_of_ne (x := b) (y := main_v51)
    fun (e : b = main_v51) => hb (Finset.mem_image.mpr ⟨2, Finset.mem_univ _, e.symm⟩)) _ _

set_option maxHeartbeats 1000000 in
theorem hF3 (c : Dev nD) : ∀ w : Fin 3, (dat3 (VW11 m) c).arrAt w cfg3.N = VW12 m c (Pipeline.arrRef spec3 w)
  | 0 => ((dat3 (VW11 m) c).arrAt_in 0 rfl _).trans <| (A_eq3 (VW11 m) c 0).trans
      (Function.update_of_ne (StableHlo.devRef_ne_of_ne (x := main_v50) (y := main_v55) (by decide)) ((dat3 (VW11 m) c).arrAt 2 cfg3.N) (W11 m c)).symm
  | 1 => ((dat3 (VW11 m) c).arrAt_in 1 rfl _).trans <| (A_eq3 (VW11 m) c 1).trans
      (Function.update_of_ne (StableHlo.devRef_ne_of_ne (x := main_arg3) (y := main_v55) (by decide)) ((dat3 (VW11 m) c).arrAt 2 cfg3.N) (W11 m c)).symm
  | 2 => (Function.update_self (Proc.devRef .tc main_v55) ((dat3 (VW11 m) c).arrAt 2 cfg3.N) (W11 m c)).symm
  | ⟨_ + 3, h⟩ => absurd h (Nat.not_lt.2 (Nat.le_add_left _ _))
theorem hrest3 (c : Dev nD) : ∀ b, b ∉ Finset.univ.image (Pipeline.arrRef spec3) → VW12 m c b = VW11 m c b :=
  fun b hb => Function.update_of_ne (StableHlo.devRef_ne_of_ne (x := b) (y := main_v55)
    fun (e : b = main_v55) => hb (Finset.mem_image.mpr ⟨2, Finset.mem_univ _, e.symm⟩)) _ _

set_option maxHeartbeats 1000000 in
theorem hF4 (c : Dev nD) : ∀ w : Fin 5, (dat4 (VW15 m) c).arrAt w cfg4.N = VW16 m c (Pipeline.arrRef spec4 w)
  | 0 => ((dat4 (VW15 m) c).arrAt_in 0 rfl _).trans <| (A_eq4 (VW15 m) c 0).trans
      (Function.update_of_ne (StableHlo.devRef_ne_of_ne (x := main_v84) (y := main_v86) (by decide)) ((dat4 (VW15 m) c).arrAt 4 cfg4.N) (W15 m c)).symm
  | 1 => ((dat4 (VW15 m) c).arrAt_in 1 rfl _).trans <| (A_eq4 (VW15 m) c 1).trans
      (Function.update_of_ne (StableHlo.devRef_ne_of_ne (x := main_v55) (y := main_v86) (by decide)) ((dat4 (VW15 m) c).arrAt 4 cfg4.N) (W15 m c)).symm
  | 2 => ((dat4 (VW15 m) c).arrAt_in 2 rfl _).trans <| (A_eq4 (VW15 m) c 2).trans
      (Function.update_of_ne (StableHlo.devRef_ne_of_ne (x := main_v15) (y := main_v86) (by decide)) ((dat4 (VW15 m) c).arrAt 4 cfg4.N) (W15 m c)).symm
  | 3 => ((dat4 (VW15 m) c).arrAt_in 3 rfl _).trans <| (A_eq4 (VW15 m) c 3).trans
      (Function.update_of_ne (StableHlo.devRef_ne_of_ne (x := main_v85) (y := main_v86) (by decide)) ((dat4 (VW15 m) c).arrAt 4 cfg4.N) (W15 m c)).symm
  | 4 => (Function.update_self (Proc.devRef .tc main_v86) ((dat4 (VW15 m) c).arrAt 4 cfg4.N) (W15 m c)).symm
  | ⟨_ + 5, h⟩ => absurd h (Nat.not_lt.2 (Nat.le_add_left _ _))
theorem hrest4 (c : Dev nD) : ∀ b, b ∉ Finset.univ.image (Pipeline.arrRef spec4) → VW16 m c b = VW15 m c b :=
  fun b hb => Function.update_of_ne (StableHlo.devRef_ne_of_ne (x := b) (y := main_v86)
    fun (e : b = main_v86) => hb (Finset.mem_image.mpr ⟨4, Finset.mem_univ _, e.symm⟩)) _ _

set_option maxHeartbeats 1000000 in
theorem hF5 (c : Dev nD) : ∀ w : Fin 3, (dat5 (VW16 m) c).arrAt w cfg5.N = VW17 m c (Pipeline.arrRef spec5 w)
  | 0 => ((dat5 (VW16 m) c).arrAt_in 0 rfl _).trans <| (A_eq5 (VW16 m) c 0).trans
      (Function.update_of_ne (StableHlo.devRef_ne_of_ne (x := main_v86) (y := main_v87) (by decide)) ((dat5 (VW16 m) c).arrAt 2 cfg5.N) (W16 m c)).symm
  | 1 => ((dat5 (VW16 m) c).arrAt_in 1 rfl _).trans <| (A_eq5 (VW16 m) c 1).trans
      (Function.update_of_ne (StableHlo.devRef_ne_of_ne (x := main_v17) (y := main_v87) (by decide)) ((dat5 (VW16 m) c).arrAt 2 cfg5.N) (W16 m c)).symm
  | 2 => (Function.update_self (Proc.devRef .tc main_v87) ((dat5 (VW16 m) c).arrAt 2 cfg5.N) (W16 m c)).symm
  | ⟨_ + 3, h⟩ => absurd h (Nat.not_lt.2 (Nat.le_add_left _ _))
theorem hrest5 (c : Dev nD) : ∀ b, b ∉ Finset.univ.image (Pipeline.arrRef spec5) → VW17 m c b = VW16 m c b :=
  fun b hb => Function.update_of_ne (StableHlo.devRef_ne_of_ne (x := b) (y := main_v87)
    fun (e : b = main_v87) => hb (Finset.mem_image.mpr ⟨2, Finset.mem_univ _, e.symm⟩)) _ _

set_option maxHeartbeats 1000000 in
theorem hF6 (c : Dev nD) : ∀ w : Fin 3, (dat6 (VW18 m) c).arrAt w cfg6.N = VW19 m c (Pipeline.arrRef spec6 w)
  | 0 => ((dat6 (VW18 m) c).arrAt_in 0 rfl _).trans <| (A_eq6 (VW18 m) c 0).trans
      (Function.update_of_ne (StableHlo.devRef_ne_of_ne (x := main_v86) (y := main_v91) (by decide)) ((dat6 (VW18 m) c).arrAt 2 cfg6.N) (W18 m c)).symm
  | 1 => ((dat6 (VW18 m) c).arrAt_in 1 rfl _).trans <| (A_eq6 (VW18 m) c 1).trans
      (Function.update_of_ne (StableHlo.devRef_ne_of_ne (x := main_arg5) (y := main_v91) (by decide)) ((dat6 (VW18 m) c).arrAt 2 cfg6.N) (W18 m c)).symm
  | 2 => (Function.update_self (Proc.devRef .tc main_v91) ((dat6 (VW18 m) c).arrAt 2 cfg6.N) (W18 m c)).symm
  | ⟨_ + 3, h⟩ => absurd h (Nat.not_lt.2 (Nat.le_add_left _ _))
theorem hrest6 (c : Dev nD) : ∀ b, b ∉ Finset.univ.image (Pipeline.arrRef spec6) → VW19 m c b = VW18 m c b :=
  fun b hb => Function.update_of_ne (StableHlo.devRef_ne_of_ne (x := b) (y := main_v91)
    fun (e : b = main_v91) => hb (Finset.mem_image.mpr ⟨2, Finset.mem_univ _, e.symm⟩)) _ _

set_option maxHeartbeats 1000000 in
theorem hF7 (c : Dev nD) : ∀ w : Fin 5, (dat7 (VW22 m) c).arrAt w cfg7.N = VW23 m c (Pipeline.arrRef spec7 w)
  | 0 => ((dat7 (VW22 m) c).arrAt_in 0 rfl _).trans <| (A_eq7 (VW22 m) c 0).trans
      (Function.update_of_ne (StableHlo.devRef_ne_of_ne (x := main_v120) (y := main_v122) (by decide)) ((dat7 (VW22 m) c).arrAt 4 cfg7.N) (W22 m c)).symm
  | 1 => ((dat7 (VW22 m) c).arrAt_in 1 rfl _).trans <| (A_eq7 (VW22 m) c 1).trans
      (Function.update_of_ne (StableHlo.devRef_ne_of_ne (x := main_v91) (y := main_v122) (by decide)) ((dat7 (VW22 m) c).arrAt 4 cfg7.N) (W22 m c)).symm
  | 2 => ((dat7 (VW22 m) c).arrAt_in 2 rfl _).trans <| (A_eq7 (VW22 m) c 2).trans
      (Function.update_of_ne (StableHlo.devRef_ne_of_ne (x := main_v15) (y := main_v122) (by decide)) ((dat7 (VW22 m) c).arrAt 4 cfg7.N) (W22 m c)).symm
  | 3 => ((dat7 (VW22 m) c).arrAt_in 3 rfl _).trans <| (A_eq7 (VW22 m) c 3).trans
      (Function.update_of_ne (StableHlo.devRef_ne_of_ne (x := main_v121) (y := main_v122) (by decide)) ((dat7 (VW22 m) c).arrAt 4 cfg7.N) (W22 m c)).symm
  | 4 => (Function.update_self (Proc.devRef .tc main_v122) ((dat7 (VW22 m) c).arrAt 4 cfg7.N) (W22 m c)).symm
  | ⟨_ + 5, h⟩ => absurd h (Nat.not_lt.2 (Nat.le_add_left _ _))
theorem hrest7 (c : Dev nD) : ∀ b, b ∉ Finset.univ.image (Pipeline.arrRef spec7) → VW23 m c b = VW22 m c b :=
  fun b hb => Function.update_of_ne (StableHlo.devRef_ne_of_ne (x := b) (y := main_v122)
    fun (e : b = main_v122) => hb (Finset.mem_image.mpr ⟨4, Finset.mem_univ _, e.symm⟩)) _ _

set_option maxHeartbeats 1000000 in
theorem hF8 (c : Dev nD) : ∀ w : Fin 3, (dat8 (VW23 m) c).arrAt w cfg8.N = VW24 m c (Pipeline.arrRef spec8 w)
  | 0 => ((dat8 (VW23 m) c).arrAt_in 0 rfl _).trans <| (A_eq8 (VW23 m) c 0).trans
      (Function.update_of_ne (StableHlo.devRef_ne_of_ne (x := main_v122) (y := main_v123) (by decide)) ((dat8 (VW23 m) c).arrAt 2 cfg8.N) (W23 m c)).symm
  | 1 => ((dat8 (VW23 m) c).arrAt_in 1 rfl _).trans <| (A_eq8 (VW23 m) c 1).trans
      (Function.update_of_ne (StableHlo.devRef_ne_of_ne (x := main_v17) (y := main_v123) (by decide)) ((dat8 (VW23 m) c).arrAt 2 cfg8.N) (W23 m c)).symm
  | 2 => (Function.update_self (Proc.devRef .tc main_v123) ((dat8 (VW23 m) c).arrAt 2 cfg8.N) (W23 m c)).symm
  | ⟨_ + 3, h⟩ => absurd h (Nat.not_lt.2 (Nat.le_add_left _ _))
theorem hrest8 (c : Dev nD) : ∀ b, b ∉ Finset.univ.image (Pipeline.arrRef spec8) → VW24 m c b = VW23 m c b :=
  fun b hb => Function.update_of_ne (StableHlo.devRef_ne_of_ne (x := b) (y := main_v123)
    fun (e : b = main_v123) => hb (Finset.mem_image.mpr ⟨2, Finset.mem_univ _, e.symm⟩)) _ _

set_option backward.isDefEq.respectTransparency.types false in
/-- One record serves all nine regions: region `p` is entered at the contents `Wi` of the buffers and left at `Wo`, and
    differs from the others only in that index and in its own facts, taken here as hypotheses. -/
def mkReg (p : Fin 9) (launch : Pipeline.LaunchFacts (nD := nD) (τ := τ) cfgs p)
    (Vi Vo Wi Wo : Dev nD → Valuation τ sig (Elt F)) (hVi : ∀ c, Vi c = Wi c) (hVo : ∀ c, Vo c = Wo c)
    (hbody : ∀ c, Pipeline.BodyObligation (pdats m p c) (defs₀ (F := F)) Variants.none () Set.univ)
    (hq : ∀ c w, (pdats m p c).q w = fullShare) (howed : ∀ c t, (pdats m p c).owed t = 0)
    (hrec : ∀ c x, x ∈ (pdats m p c).recorded 0)
    (hA : ∀ c w, (pdats m p c).A w = Wi c (Proc.devRef .tc (Pipeline.arrRef (cfgs p).spec w)))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hF : ∀ c w, (pdats m p c).arrAt w (cfgs p).N = Wo c (Proc.devRef .tc (Pipeline.arrRef (cfgs p).spec w)))
    (hrest : ∀ c b, b ∉ Finset.univ.image (Pipeline.arrRef (cfgs p).spec) → Wo c (Proc.devRef .tc b) = Wi c (Proc.devRef .tc b)) :
    Pipeline.RegionSeg (pcfgs (F := F)) adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none, hVi c]
    have hsplit := Pipeline.arrays_of_unscopedBufs (p := p) (pcfgs (F := F)) adm (pdats m) launch.win launch.arr_whole c
      ((pdats m p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    rw [hVo c]
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Wi c (Proc.devRef .tc b)) (fun b => Wo c (Proc.devRef .tc b)) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m) () defs₀ Variants.none L lv 0 :=
  mkReg m 0 launch0 (V4 m) (V5 m (outs m)) (W4 m) (W5 m) (V_eq_W4 m) (V_eq_W5 m) (body_obligation0 (VW4 m))
    (fun _ _ => rfl) (fun _ _ => rfl) (fun _ _ => trivial) (A_eq0 (VW4 m)) (hin0 (VW4 m)) (hout0 (VW4 m)) (hF0 m) (hrest0 m)

set_option backward.isDefEq.respectTransparency.types false in
def reg1 : Pipeline.RegionSeg (pcfgs (F := F)) adm (pdats m) () defs₀ Variants.none L lv 1 :=
  mkReg m 1 launch1 (V8 m (outs m)) (V9 m (outs m)) (W8 m) (W9 m) (V_eq_W8 m) (V_eq_W9 m) (body_obligation1 (VW8 m))
    (fun _ _ => rfl) (fun _ _ => rfl) (fun _ _ => trivial) (A_eq1 (VW8 m)) (hin1 (VW8 m)) (hout1 (VW8 m)) (hF1 m) (hrest1 m)

set_option backward.isDefEq.respectTransparency.types false in
def reg2 : Pipeline.RegionSeg (pcfgs (F := F)) adm (pdats m) () defs₀ Variants.none L lv 2 :=
  mkReg m 2 launch2 (V9 m (outs m)) (V10 m (outs m)) (W9 m) (W10 m) (V_eq_W9 m) (V_eq_W10 m) (body_obligation2 (VW9 m))
    (fun _ _ => rfl) (fun _ _ => rfl) (fun _ _ => trivial) (A_eq2 (VW9 m)) (hin2 (VW9 m)) (hout2 (VW9 m)) (hF2 m) (hrest2 m)

set_option backward.isDefEq.respectTransparency.types false in
def reg3 : Pipeline.RegionSeg (pcfgs (F := F)) adm (pdats m) () defs₀ Variants.none L lv 3 :=
  mkReg m 3 launch3 (V11 m (outs m)) (V12 m (outs m)) (W11 m) (W12 m) (V_eq_W11 m) (V_eq_W12 m) (body_obligation3 (VW11 m))
    (fun _ _ => rfl) (fun _ _ => rfl) (fun _ _ => trivial) (A_eq3 (VW11 m)) (hin3 (VW11 m)) (hout3 (VW11 m)) (hF3 m) (hrest3 m)

set_option backward.isDefEq.respectTransparency.types false in
def reg4 : Pipeline.RegionSeg (pcfgs (F := F)) adm (pdats m) () defs₀ Variants.none L lv 4 :=
  mkReg m 4 launch4 (V15 m (outs m)) (V16 m (outs m)) (W15 m) (W16 m) (V_eq_W15 m) (V_eq_W16 m) (body_obligation4 (VW15 m))
    (fun _ _ => rfl) (fun _ _ => rfl) (fun _ _ => trivial) (A_eq4 (VW15 m)) (hin4 (VW15 m)) (hout4 (VW15 m)) (hF4 m) (hrest4 m)

set_option backward.isDefEq.respectTransparency.types false in
def reg5 : Pipeline.RegionSeg (pcfgs (F := F)) adm (pdats m) () defs₀ Variants.none L lv 5 :=
  mkReg m 5 launch5 (V16 m (outs m)) (V17 m (outs m)) (W16 m) (W17 m) (V_eq_W16 m) (V_eq_W17 m) (body_obligation5 (VW16 m))
    (fun _ _ => rfl) (fun _ _ => rfl) (fun _ _ => trivial) (A_eq5 (VW16 m)) (hin5 (VW16 m)) (hout5 (VW16 m)) (hF5 m) (hrest5 m)

set_option backward.isDefEq.respectTransparency.types false in
def reg6 : Pipeline.RegionSeg (pcfgs (F := F)) adm (pdats m) () defs₀ Variants.none L lv 6 :=
  mkReg m 6 launch6 (V18 m (outs m)) (V19 m (outs m)) (W18 m) (W19 m) (V_eq_W18 m) (V_eq_W19 m) (body_obligation6 (VW18 m))
    (fun _ _ => rfl) (fun _ _ => rfl) (fun _ _ => trivial) (A_eq6 (VW18 m)) (hin6 (VW18 m)) (hout6 (VW18 m)) (hF6 m) (hrest6 m)

set_option backward.isDefEq.respectTransparency.types false in
def reg7 : Pipeline.RegionSeg (pcfgs (F := F)) adm (pdats m) () defs₀ Variants.none L lv 7 :=
  mkReg m 7 launch7 (V22 m (outs m)) (V23 m (outs m)) (W22 m) (W23 m) (V_eq_W22 m) (V_eq_W23 m) (body_obligation7 (VW22 m))
    (fun _ _ => rfl) (fun _ _ => rfl) (fun _ _ => trivial) (A_eq7 (VW22 m)) (hin7 (VW22 m)) (hout7 (VW22 m)) (hF7 m) (hrest7 m)

set_option backward.isDefEq.respectTransparency.types false in
def reg8 : Pipeline.RegionSeg (pcfgs (F := F)) adm (pdats m) () defs₀ Variants.none L lv 8 :=
  mkReg m 8 launch8 (V23 m (outs m)) (V24 m (outs m)) (W23 m) (W24 m) (V_eq_W23 m) (V_eq_W24 m) (body_obligation8 (VW23 m))
    (fun _ _ => rfl) (fun _ _ => rfl) (fun _ _ => trivial) (A_eq8 (VW23 m)) (hin8 (VW23 m)) (hout8 (VW23 m)) (hF8 m) (hrest8 m)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V16 m outs c) ∗ E 5 c) ⊢ R5.pre c)
    (hpost5 : ∀ c : Dev nD, R5.post c ⊢ iprop(StableHlo.held (c : Thread nD τ) (Pipeline.ucRefs τ sig) (V17 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V18 m outs c) ∗ E 6 c) ⊢ R6.pre c)
    (hpost6 : ∀ c : Dev nD, R6.post c ⊢ iprop(StableHlo.held (c : Thread nD τ) (Pipeline.ucRefs τ sig) (V19 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V22 m outs c) ∗ E 7 c) ⊢ R7.pre c)
    (hpost7 : ∀ c : Dev nD, R7.post c ⊢ iprop(StableHlo.held (c : Thread nD τ) (Pipeline.ucRefs τ sig) (V23 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V23 m outs c) ∗ E 8 c) ⊢ R8.pre c)
    (hpost8 : ∀ c : Dev nD, R8.post c ⊢ iprop(StableHlo.held (c : Thread nD τ) (Pipeline.ucRefs τ sig) (V24 m outs c) ∗ E 9 c)) :
    θ_run defs (onTc (τ := τ) (main (F := F))) ⟨m, fun _ => 0, ρ⟩ (fun r => ∀ c : Dev nD,
      r.2.mem ((c.tc : Thread nD τ).loc main_v133) = V25 m outs c main_v133
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          Prog.lift (.customCall (Pipeline.entry 8) ()),
          StableHlo.seq hostOps9 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, .rfl, .rfl, .rfl, hpre0 c, hpost0 c, .rfl, .rfl, hpre1 c, (hpost1 c).trans (hpre2 c), hpost2 c, hpre3 c, hpost3 c, .rfl, .rfl, hpre4 c, (hpost4 c).trans (hpre5 c), hpost5 c, hpre6 c, hpost6 c, .rfl, .rfl, hpre7 c, (hpost7 c).trans (hpre8 c), hpost8 c, sep_mono .rfl (hE9 c)⟩)
    (hinit := ?_) (QY := fun c s => s.mem ((c.tc : Thread nD τ).loc main_v133) = V25 m outs c main_v133 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V25 m outs c) s') $$ [Hh HSI]
    · isplitl [Hh] <;> iassumption
    icases Hr with ⟨%h, HSI⟩
    imodintro
    isplitr
    · ipureintro
      exact ⟨h (Proc.devRef .tc main_v133) (Finset.mem_filter.mpr ⟨StableHlo.devRef_mem_tcRefs main_v133, by decide⟩),
        (h (Proc.devRef .tc main_arg0) (Finset.mem_filter.mpr ⟨StableHlo.devRef_mem_tcRefs main_arg0, by decide⟩)).trans (V25_main_arg0 m outs c),
        (h (Proc.devRef .tc main_arg1) (Finset.mem_filter.mpr ⟨StableHlo.devRef_mem_tcRefs main_arg1, by decide⟩)).trans (V25_main_arg1 m outs c),
        (h (Proc.devRef .tc main_arg2) (Finset.mem_filter.mpr ⟨StableHlo.devRef_mem_tcRefs main_arg2, by decide⟩)).trans (V25_main_arg2 m outs c),
        (h (Proc.devRef .tc main_arg3) (Finset.mem_filter.mpr ⟨StableHlo.devRef_mem_tcRefs main_arg3, by decide⟩)).trans (V25_main_arg3 m outs c),
        (h (Proc.devRef .tc main_arg4) (Finset.mem_filter.mpr ⟨StableHlo.devRef_mem_tcRefs main_arg4, by decide⟩)).trans (V25_main_arg4 m outs c),
        (h (Proc.devRef .tc main_arg5) (Finset.mem_filter.mpr ⟨StableHlo.devRef_mem_tcRefs main_arg5, by decide⟩)).trans (V25_main_arg5 m outs c),
        (h (Proc.devRef .tc main_arg6) (Finset.mem_filter.mpr ⟨StableHlo.devRef_mem_tcRefs main_arg6, by decide⟩)).trans (V25_main_arg6 m outs c),
        (h (Proc.devRef .tc main_arg7) (Finset.mem_filter.mpr ⟨StableHlo.devRef_mem_tcRefs main_arg7, by decide⟩)).trans (V25_main_arg7 m outs c),
        (h (Proc.devRef .tc main_arg8) (Finset.mem_filter.mpr ⟨StableHlo.devRef_mem_tcRefs main_arg8, by decide⟩)).trans (V25_main_arg8 m outs c),
        (h (Proc.devRef .tc main_arg9) (Finset.mem_filter.mpr ⟨StableHlo.devRef_mem_tcRefs main_arg9, by decide⟩)).trans (V25_main_arg9 m outs c)⟩
    · iexact HSI

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v133) = W25 m c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (congrFun (V_eq_W25 m c) (Proc.devRef .tc main_v133)), (h c).2⟩)
    (run_cond m (EP := emb₁) (ι := ()) (𝒱₀ := Variants.none) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R (F := F) c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl))

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.KernelIdeal.Gen

end
-- ==== Proof.RefRun.lean ====
import proofs.«423851_j31086973288655_1_alg».proof.Proof.Gen.ReferenceIdeal
import Idealize.ShloMosaic.Lib.StableHlo.Run
import Idealize.ShloMosaic.Lib.Pipeline.Frame
import Idealize.ShloMosaic.Lib.Pipeline.Regions

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg8 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (addf : (⟨S100000, .f32⟩ : BufTy).Contents (Elt F) → (⟨S100000, .f32⟩ : BufTy).Contents (Elt F) → (⟨S100000, .f32⟩ : BufTy).Contents (Elt F)),
    StableHlo.unary main_v5 main_v6 (Host.rsqrt : (⟨S100000, .f32⟩ : BufTy).Contents (Elt F) → (⟨S100000, .f32⟩ : BufTy).Contents (Elt F)),
    StableHlo.nullary main_cst_2 (constant S_ .f32 0x3F800000#32),
    StableHlo.unary main_cst_2 main_v7 (broadcastInDim S100000 ![] bcast_S_S100000 : (⟨S_, .f32⟩ : BufTy).Contents (Elt F) → (⟨S100000, .f32⟩ : BufTy).Contents (Elt F)),
    StableHlo.nullary main_cst_3 (constant S_ .f32 0x00000000#32),
    StableHlo.unary main_cst_3 main_v8 (broadcastInDim S128 ![] bcast_S_S128 : (⟨S_, .f32⟩ : BufTy).Contents (Elt F) → (⟨S128, .f32⟩ : BufTy).Contents (Elt F)),
    StableHlo.unary main_arg9 main_v9 (broadcastInDim S100000x1 ![0] bcast_S100000_S100000x1_0 : (⟨S100000, .i32⟩ : BufTy).Contents (Elt F) → (⟨S100000x1, .i32⟩ : BufTy).Contents (Elt F)),
    StableHlo.ternary main_v8 main_v9 main_v7 main_v10 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    StableHlo.nullary main_cst_4 (constant S_ .f32 0x3F800000#32),
    StableHlo.unary main_cst_4 main_v11 (broadcastInDim S128 ![] bcast_S_S128 : (⟨S_, .f32⟩ : BufTy).Contents (Elt F) → (⟨S128, .f32⟩ : BufTy).Contents (Elt F)),
    StableHlo.binary main_v10 main_v11 main_v12 (maximumf : (⟨S128, .f32⟩ : BufTy).Contents (Elt F) → (⟨S128, .f32⟩ : BufTy).Contents (Elt F) → (⟨S128, .f32⟩ : BufTy).Contents (Elt F)),
    StableHlo.binary main_arg0 main_arg1 main_v13 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_arg7 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v16 (broadcastInDim S1600000 ![] bcast_S_S1600000 : (⟨S_, .i32⟩ : BufTy).Contents (Elt F) → (⟨S1600000, .i32⟩ : BufTy).Contents (Elt F)),
    StableHlo.binary main_arg7 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_arg7 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v6 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_6 (constantI S_ 32 0#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_arg8 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v23 (broadcastInDim S1600000 ![] bcast_S_S1600000 : (⟨S_, .i32⟩ : BufTy).Contents (Elt F) → (⟨S1600000, .i32⟩ : BufTy).Contents (Elt F)),
    StableHlo.binary main_arg8 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_arg8 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v6 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v27 main_v28 (mulf : (⟨S1600000, .f32⟩ : BufTy).Contents (Elt F) → (⟨S1600000, .f32⟩ : BufTy).Contents (Elt F) → (⟨S1600000, .f32⟩ : BufTy).Contents (Elt F)),
    StableHlo.unary main_v28 main_v29 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v30 (broadcastInDim S1600000 ![] bcast_S_S1600000 : (⟨S_, .i32⟩ : BufTy).Contents (Elt F) → (⟨S1600000, .i32⟩ : BufTy).Contents (Elt F)),
    StableHlo.binary main_arg7 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v32 (broadcastInDim S1600000 ![] bcast_S_S1600000 : (⟨S_, .i32⟩ : BufTy).Contents (Elt F) → (⟨S1600000, .i32⟩ : BufTy).Contents (Elt F)),
    StableHlo.binary main_arg7 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_arg7 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v13 main_v35 main_v36 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v29 main_v37 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v36 main_v37 main_v38 (mulf : (⟨S1600000x32, .f32⟩ : BufTy).Contents (Elt F) → (⟨S1600000x32, .f32⟩ : BufTy).Contents (Elt F) → (⟨S1600000x32, .f32⟩ : BufTy).Contents (Elt F)),
    StableHlo.nullary main_cst_10 (constant S_ .f32 0x00000000#32),
    StableHlo.unary main_cst_10 main_v39 (broadcastInDim S100000x32 ![] bcast_S_S100000x32 : (⟨S_, .f32⟩ : BufTy).Contents (Elt F) → (⟨S100000x32, .f32⟩ : BufTy).Contents (Elt F)),
    StableHlo.unary main_arg8 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v6 main_v6 main_v42 (mulf : (⟨S100000, .f32⟩ : BufTy).Contents (Elt F) → (⟨S100000, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.unary main_v43 main_v44 (broadcastInDim S100000x32 ![0, 1] bcast_S100000x1_S100000x32_0_1 : (⟨S100000x1, .f32⟩ : BufTy).Contents (Elt F) → (⟨S100000x32, .f32⟩ : BufTy).Contents (Elt F)),
    StableHlo.binary main_v13 main_v44 main_v45 (mulf : (⟨S100000x32, .f32⟩ : BufTy).Contents (Elt F) → (⟨S100000x32, .f32⟩ : BufTy).Contents (Elt F) → (⟨S100000x32, .f32⟩ : BufTy).Contents (Elt F)),
    StableHlo.binary main_v41 main_v45 main_v46 (addf : (⟨S100000x32, .f32⟩ : BufTy).Contents (Elt F) → (⟨S100000x32, .f32⟩ : BufTy).Contents (Elt F) → (⟨S100000x32, .f32⟩ : BufTy).Contents (Elt F)) ]

abbrev ops1 : List (HloOp τ sig (Elt F)) :=
  [ StableHlo.unary main_arg2 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v48 main_v49 (addf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3C23D70A#32),
    StableHlo.nullary main_call0_cst (constant S_ .f32 0x00000000#32),
    StableHlo.unary main_call0_cst main_call0_v0 (broadcastInDim S100000x32 ![] bcast_S_S100000x32 : (⟨S_, .f32⟩ : BufTy).Contents (Elt F) → (⟨S100000x32, .f32⟩ : BufTy).Contents (Elt F)),
    StableHlo.binary main_v49 main_call0_v0 main_call0_v1 (cmpf (F := F) .oge : (⟨S100000x32, .f32⟩ : BufTy).Contents (Elt F) → (⟨S100000x32, .f32⟩ : BufTy).Contents (Elt F) → (⟨S100000x32, .i1⟩ : BufTy).Contents (Elt F)),
    StableHlo.unary main_cst_11 main_call0_v2 (id : (⟨S_, .f32⟩ : BufTy).Contents (Elt F) → (⟨S_, .f32⟩ : BufTy).Contents (Elt F)),
    StableHlo.unary main_call0_v2 main_call0_v3 (broadcastInDim S100000x32 ![] bcast_S_S100000x32 : (⟨S_, .f32⟩ : BufTy).Contents (Elt F) → (⟨S100000x32, .f32⟩ : BufTy).Contents (Elt F)),
    StableHlo.binary main_call0_v3 main_v49 main_call0_v4 (mulf : (⟨S100000x32, .f32⟩ : BufTy).Contents (Elt F) → (⟨S100000x32, .f32⟩ : BufTy).Contents (Elt F) → (⟨S100000x32, .f32⟩ : BufTy).Contents (Elt F)),
    StableHlo.ternary main_call0_v1 main_v49 main_call0_v4 main_v50 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x00000000#32),
    StableHlo.unary main_cst_12 main_v51 (broadcastInDim S128x32 ![] bcast_S_S128x32 : (⟨S_, .f32⟩ : BufTy).Contents (Elt F) → (⟨S128x32, .f32⟩ : BufTy).Contents (Elt F)),
    StableHlo.unary main_arg9 main_v52 (broadcastInDim S100000x1 ![0] bcast_S100000_S100000x1_0 : (⟨S100000, .i32⟩ : BufTy).Contents (Elt F) → (⟨S100000x1, .i32⟩ : BufTy).Contents (Elt F)),
    StableHlo.ternary main_v51 main_v52 main_v50 main_v53 ((fun x i u => Host.scatterAdd scatter_S128x32_S100000x1_S100000x32_1_0_0_1 x i u) : (⟨S128x32, .f32⟩ : BufTy).Contents (Elt F) → (⟨S100000x1, .i32⟩ : BufTy).Contents (Elt F) → (⟨S100000x32, .f32⟩ : BufTy).Contents (Elt F) → (⟨S128x32, .f32⟩ : BufTy).Contents (Elt F)),
    StableHlo.unary main_v12 main_v54 (broadcastInDim S128x1 ![0] bcast_S128_S128x1_0 : (⟨S128, .f32⟩ : BufTy).Contents (Elt F) → (⟨S128x1, .f32⟩ : BufTy).Contents (Elt F)),
    StableHlo.unary main_v54 main_v55 (broadcastInDim S128x32 ![0, 1] bcast_S128x1_S128x32_0_1 : (⟨S128x1, .f32⟩ : BufTy).Contents (Elt F) → (⟨S128x32, .f32⟩ : BufTy).Contents (Elt F)),
    StableHlo.binary main_v53 main_v55 main_v56 (Host.divf : (⟨S128x32, .f32⟩ : BufTy).Contents (Elt F) → (⟨S128x32, .f32⟩ : BufTy).Contents (Elt F) → (⟨S128x32, .f32⟩ : BufTy).Contents (Elt F)),
    StableHlo.binary main_v50 main_arg3 main_v57 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_c_13 (constantI S_ 32 0#32),
    StableHlo.unary main_c_13 main_v58 (broadcastInDim S1600000 ![] bcast_S_S1600000 : (⟨S_, .i32⟩ : BufTy).Contents (Elt F) → (⟨S1600000, .i32⟩ : BufTy).Contents (Elt F)),
    StableHlo.binary main_arg7 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v60 (broadcastInDim S1600000 ![] bcast_S_S1600000 : (⟨S_, .i32⟩ : BufTy).Contents (Elt F) → (⟨S1600000, .i32⟩ : BufTy).Contents (Elt F)),
    StableHlo.binary main_arg7 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_arg7 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v6 main_v63 main_v64 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_15 (constantI S_ 32 0#32),
    StableHlo.unary main_c_15 main_v65 (broadcastInDim S1600000 ![] bcast_S_S1600000 : (⟨S_, .i32⟩ : BufTy).Contents (Elt F) → (⟨S1600000, .i32⟩ : BufTy).Contents (Elt F)),
    StableHlo.binary main_arg8 main_v65 main_v66 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v67 (broadcastInDim S1600000 ![] bcast_S_S1600000 : (⟨S_, .i32⟩ : BufTy).Contents (Elt F) → (⟨S1600000, .i32⟩ : BufTy).Contents (Elt F)),
    StableHlo.binary main_arg8 main_v67 main_v68 (addi : (⟨S1600000, .i32⟩ : BufTy).Contents (Elt F) → (⟨S1600000, .i32⟩ : BufTy).Contents (Elt F) → (⟨S1600000, .i32⟩ : BufTy).Contents (Elt F)),
    StableHlo.ternary main_v66 main_v68 main_arg8 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v69 main_v70 (broadcastInDim S1600000x1 ![0] bcast_S1600000_S1600000x1_0 : (⟨S1600000, .i32⟩ : BufTy).Contents (Elt F) → (⟨S1600000x1, .i32⟩ : BufTy).Contents (Elt F)),
    StableHlo.binary main_v6 main_v70 main_v71 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v64 main_v71 main_v72 (mulf : (⟨S1600000, .f32⟩ : BufTy).Contents (Elt F) → (⟨S1600000, .f32⟩ : BufTy).Contents (Elt F) → (⟨S1600000, .f32⟩ : BufTy).Contents (Elt F)),
    StableHlo.unary main_v72 main_v73 (broadcastInDim S1600000x1 ![0] bcast_S1600000_S1600000x1_0 : (⟨S1600000, .f32⟩ : BufTy).Contents (Elt F) → (⟨S1600000x1, .f32⟩ : BufTy).Contents (Elt F)),
    StableHlo.nullary main_c_17 (constantI S_ 32 0#32),
    StableHlo.unary main_c_17 main_v74 (broadcastInDim S1600000 ![] bcast_S_S1600000 : (⟨S_, .i32⟩ : BufTy).Contents (Elt F) → (⟨S1600000, .i32⟩ : BufTy).Contents (Elt F)),
    StableHlo.binary main_arg7 main_v74 main_v75 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v76 (broadcastInDim S1600000 ![] bcast_S_S1600000 : (⟨S_, .i32⟩ : BufTy).Contents (Elt F) → (⟨S1600000, .i32⟩ : BufTy).Contents (Elt F)),
    StableHlo.binary main_arg7 main_v76 main_v77 (addi : (⟨S1600000, .i32⟩ : BufTy).Contents (Elt F) → (⟨S1600000, .i32⟩ : BufTy).Contents (Elt F) → (⟨S1600000, .i32⟩ : BufTy).Contents (Elt F)),
    StableHlo.ternary main_v75 main_v77 main_arg7 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v78 main_v79 (broadcastInDim S1600000x1 ![0] bcast_S1600000_S1600000x1_0 : (⟨S1600000, .i32⟩ : BufTy).Contents (Elt F) → (⟨S1600000x1, .i32⟩ : BufTy).Contents (Elt F)),
    StableHlo.binary main_v57 main_v79 main_v80 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v73 main_v81 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v80 main_v81 main_v82 (mulf : (⟨S1600000x32, .f32⟩ : BufTy).Contents (Elt F) → (⟨S1600000x32, .f32⟩ : BufTy).Contents (Elt F) → (⟨S1600000x32, .f32⟩ : BufTy).Contents (Elt F)),
    StableHlo.nullary main_cst_19 (constant S_ .f32 0x00000000#32),
    StableHlo.unary main_cst_19 main_v83 (broadcastInDim S100000x32 ![] bcast_S_S100000x32 : (⟨S_, .f32⟩ : BufTy).Contents (Elt F) → (⟨S100000x32, .f32⟩ : BufTy).Contents (Elt F)),
    StableHlo.unary main_arg8 main_v84 (broadcastInDim S1600000x1 ![0] bcast_S1600000_S1600000x1_0 : (⟨S1600000, .i32⟩ : BufTy).Contents (Elt F) → (⟨S1600000x1, .i32⟩ : BufTy).Contents (Elt F)),
    StableHlo.ternary main_v83 main_v84 main_v82 main_v85 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v6 main_v6 main_v86 (mulf : (⟨S100000, .f32⟩ : BufTy).Contents (Elt F) → (⟨S100000, .f32⟩ : BufTy).Contents (Elt F) → (⟨S100000, .f32⟩ : BufTy).Contents (Elt F)),
    StableHlo.unary main_v86 main_v87 (broadcastInDim S100000x1 ![0] bcast_S100000_S100000x1_0 : (⟨S100000, .f32⟩ : BufTy).Contents (Elt F) → (⟨S100000x1, .f32⟩ : BufTy).Contents (Elt F)),
    StableHlo.unary main_v87 main_v88 (broadcastInDim S100000x32 ![0, 1] bcast_S100000x1_S100000x32_0_1 : (⟨S100000x1, .f32⟩ : BufTy).Contents (Elt F) → (⟨S100000x32, .f32⟩ : BufTy).Contents (Elt F)),
    StableHlo.binary main_v57 main_v88 main_v89 (mulf : (⟨S100000x32, .f32⟩ : BufTy).Contents (Elt F) → (⟨S100000x32, .f32⟩ : BufTy).Contents (Elt F) → (⟨S100000x32, .f32⟩ : BufTy).Contents (Elt F)),
    StableHlo.binary main_v85 main_v89 main_v90 (addf : (⟨S100000x32, .f32⟩ : BufTy).Contents (Elt F) → (⟨S100000x32, .f32⟩ : BufTy).Contents (Elt F) → (⟨S100000x32, .f32⟩ : BufTy).Contents (Elt F)),
    StableHlo.unary main_arg4 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S100000x32 ![0, 1] bcast_S1x32_S100000x32_0_1 : (⟨S1x32, .f32⟩ : BufTy).Contents (Elt F) → (⟨S100000x32, .f32⟩ : BufTy).Contents (Elt F)),
    StableHlo.binary main_v90 main_v92 main_v93 (addf : (⟨S100000x32, .f32⟩ : BufTy).Contents (Elt F) → (⟨S100000x32, .f32⟩ : BufTy).Contents (Elt F) → (⟨S100000x32, .f32⟩ : BufTy).Contents (Elt F)),
    StableHlo.nullary main_cst_20 (constant S_ .f32 0x3C23D70A#32),
    StableHlo.nullary main_call1_cst (constant S_ .f32 0x00000000#32),
    StableHlo.unary main_call1_cst main_call1_v0 (broadcastInDim S100000x32 ![] bcast_S_S100000x32 : (⟨S_, .f32⟩ : BufTy).Contents (Elt F) → (⟨S100000x32, .f32⟩ : BufTy).Contents (Elt F)),
    StableHlo.binary main_v93 main_call1_v0 main_call1_v1 (cmpf (F := F) .oge : (⟨S100000x32, .f32⟩ : BufTy).Contents (Elt F) → (⟨S100000x32, .f32⟩ : BufTy).Contents (Elt F) → (⟨S100000x32, .i1⟩ : BufTy).Contents (Elt F)),
    StableHlo.unary main_cst_20 main_call1_v2 (id : (⟨S_, .f32⟩ : BufTy).Contents (Elt F) → (⟨S_, .f32⟩ : BufTy).Contents (Elt F)),
    StableHlo.unary main_call1_v2 main_call1_v3 (broadcastInDim S100000x32 ![] bcast_S_S100000x32 : (⟨S_, .f32⟩ : BufTy).Contents (Elt F) → (⟨S100000x32, .f32⟩ : BufTy).Contents (Elt F)),
    StableHlo.binary main_call1_v3 main_v93 main_call1_v4 (mulf : (⟨S100000x32, .f32⟩ : BufTy).Contents (Elt F) → (⟨S100000x32, .f32⟩ : BufTy).Contents (Elt F) → (⟨S100000x32, .f32⟩ : BufTy).Contents (Elt F)),
    StableHlo.ternary main_call1_v1 main_v93 main_call1_v4 main_v94 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.nullary main_cst_21 (constant S_ .f32 0x00000000#32),
    StableHlo.unary main_cst_21 main_v95 (broadcastInDim S128x32 ![] bcast_S_S128x32 : (⟨S_, .f32⟩ : BufTy).Contents (Elt F) → (⟨S128x32, .f32⟩ : BufTy).Contents (Elt F)) ]

abbrev ops2 : List (HloOp τ sig (Elt F)) :=
  [ StableHlo.unary main_arg9 main_v96 (broadcastInDim S100000x1 ![0] bcast_S100000_S100000x1_0 : (⟨S100000, .i32⟩ : BufTy).Contents (Elt F) → (⟨S100000x1, .i32⟩ : BufTy).Contents (Elt F)),
    StableHlo.ternary main_v95 main_v96 main_v94 main_v97 ((fun x i u => Host.scatterAdd scatter_S128x32_S100000x1_S100000x32_1_0_0_1 x i u) : (⟨S128x32, .f32⟩ : BufTy).Contents (Elt F) → (⟨S100000x1, .i32⟩ : BufTy).Contents (Elt F) → (⟨S100000x32, .f32⟩ : BufTy).Contents (Elt F) → (⟨S128x32, .f32⟩ : BufTy).Contents (Elt F)),
    StableHlo.unary main_v12 main_v98 (broadcastInDim S128x1 ![0] bcast_S128_S128x1_0 : (⟨S128, .f32⟩ : BufTy).Contents (Elt F) → (⟨S128x1, .f32⟩ : BufTy).Contents (Elt F)),
    StableHlo.unary main_v98 main_v99 (broadcastInDim S128x32 ![0, 1] bcast_S128x1_S128x32_0_1 : (⟨S128x1, .f32⟩ : BufTy).Contents (Elt F) → (⟨S128x32, .f32⟩ : BufTy).Contents (Elt F)),
    StableHlo.binary main_v97 main_v99 main_v100 (Host.divf : (⟨S128x32, .f32⟩ : BufTy).Contents (Elt F) → (⟨S128x32, .f32⟩ : BufTy).Contents (Elt F) → (⟨S128x32, .f32⟩ : BufTy).Contents (Elt F)),
    StableHlo.binary main_v94 main_arg5 main_v101 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_c_22 (constantI S_ 32 0#32),
    StableHlo.unary main_c_22 main_v102 (broadcastInDim S1600000 ![] bcast_S_S1600000 : (⟨S_, .i32⟩ : BufTy).Contents (Elt F) → (⟨S1600000, .i32⟩ : BufTy).Contents (Elt F)),
    StableHlo.binary main_arg7 main_v102 main_v103 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v104 (broadcastInDim S1600000 ![] bcast_S_S1600000 : (⟨S_, .i32⟩ : BufTy).Contents (Elt F) → (⟨S1600000, .i32⟩ : BufTy).Contents (Elt F)),
    StableHlo.binary main_arg7 main_v104 main_v105 (addi : (⟨S1600000, .i32⟩ : BufTy).Contents (Elt F) → (⟨S1600000, .i32⟩ : BufTy).Contents (Elt F) → (⟨S1600000, .i32⟩ : BufTy).Contents (Elt F)),
    StableHlo.ternary main_v103 main_v105 main_arg7 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v106 main_v107 (broadcastInDim S1600000x1 ![0] bcast_S1600000_S1600000x1_0 : (⟨S1600000, .i32⟩ : BufTy).Contents (Elt F) → (⟨S1600000x1, .i32⟩ : BufTy).Contents (Elt F)),
    StableHlo.binary main_v6 main_v107 main_v108 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_24 (constantI S_ 32 0#32),
    StableHlo.unary main_c_24 main_v109 (broadcastInDim S1600000 ![] bcast_S_S1600000 : (⟨S_, .i32⟩ : BufTy).Contents (Elt F) → (⟨S1600000, .i32⟩ : BufTy).Contents (Elt F)),
    StableHlo.binary main_arg8 main_v109 main_v110 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v111 (broadcastInDim S1600000 ![] bcast_S_S1600000 : (⟨S_, .i32⟩ : BufTy).Contents (Elt F) → (⟨S1600000, .i32⟩ : BufTy).Contents (Elt F)),
    StableHlo.binary main_arg8 main_v111 main_v112 (addi : (⟨S1600000, .i32⟩ : BufTy).Contents (Elt F) → (⟨S1600000, .i32⟩ : BufTy).Contents (Elt F) → (⟨S1600000, .i32⟩ : BufTy).Contents (Elt F)),
    StableHlo.ternary main_v110 main_v112 main_arg8 main_v113 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v113 main_v114 (broadcastInDim S1600000x1 ![0] bcast_S1600000_S1600000x1_0 : (⟨S1600000, .i32⟩ : BufTy).Contents (Elt F) → (⟨S1600000x1, .i32⟩ : BufTy).Contents (Elt F)),
    StableHlo.binary main_v6 main_v114 main_v115 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v108 main_v115 main_v116 (mulf : (⟨S1600000, .f32⟩ : BufTy).Contents (Elt F) → (⟨S1600000, .f32⟩ : BufTy).Contents (Elt F) → (⟨S1600000, .f32⟩ : BufTy).Contents (Elt F)),
    StableHlo.unary main_v116 main_v117 (broadcastInDim S1600000x1 ![0] bcast_S1600000_S1600000x1_0 : (⟨S1600000, .f32⟩ : BufTy).Contents (Elt F) → (⟨S1600000x1, .f32⟩ : BufTy).Contents (Elt F)),
    StableHlo.nullary main_c_26 (constantI S_ 32 0#32),
    StableHlo.unary main_c_26 main_v118 (broadcastInDim S1600000 ![] bcast_S_S1600000 : (⟨S_, .i32⟩ : BufTy).Contents (Elt F) → (⟨S1600000, .i32⟩ : BufTy).Contents (Elt F)),
    StableHlo.binary main_arg7 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v120 (broadcastInDim S1600000 ![] bcast_S_S1600000 : (⟨S_, .i32⟩ : BufTy).Contents (Elt F) → (⟨S1600000, .i32⟩ : BufTy).Contents (Elt F)),
    StableHlo.binary main_arg7 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_arg7 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v101 main_v123 main_v124 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v117 main_v125 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v124 main_v125 main_v126 (mulf : (⟨S1600000x32, .f32⟩ : BufTy).Contents (Elt F) → (⟨S1600000x32, .f32⟩ : BufTy).Contents (Elt F) → (⟨S1600000x32, .f32⟩ : BufTy).Contents (Elt F)),
    StableHlo.nullary main_cst_28 (constant S_ .f32 0x00000000#32),
    StableHlo.unary main_cst_28 main_v127 (broadcastInDim S100000x32 ![] bcast_S_S100000x32 : (⟨S_, .f32⟩ : BufTy).Contents (Elt F) → (⟨S100000x32, .f32⟩ : BufTy).Contents (Elt F)),
    StableHlo.unary main_arg8 main_v128 (broadcastInDim S1600000x1 ![0] bcast_S1600000_S1600000x1_0 : (⟨S1600000, .i32⟩ : BufTy).Contents (Elt F) → (⟨S1600000x1, .i32⟩ : BufTy).Contents (Elt F)),
    StableHlo.ternary main_v127 main_v128 main_v126 main_v129 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v6 main_v6 main_v130 (mulf : (⟨S100000, .f32⟩ : BufTy).Contents (Elt F) → (⟨S100000, .f32⟩ : BufTy).Contents (Elt F) → (⟨S100000, .f32⟩ : BufTy).Contents (Elt F)),
    StableHlo.unary main_v130 main_v131 (broadcastInDim S100000x1 ![0] bcast_S100000_S100000x1_0 : (⟨S100000, .f32⟩ : BufTy).Contents (Elt F) → (⟨S100000x1, .f32⟩ : BufTy).Contents (Elt F)),
    StableHlo.unary main_v131 main_v132 (broadcastInDim S100000x32 ![0, 1] bcast_S100000x1_S100000x32_0_1 : (⟨S100000x1, .f32⟩ : BufTy).Contents (Elt F) → (⟨S100000x32, .f32⟩ : BufTy).Contents (Elt F)),
    StableHlo.binary main_v101 main_v132 main_v133 (mulf : (⟨S100000x32, .f32⟩ : BufTy).Contents (Elt F) → (⟨S100000x32, .f32⟩ : BufTy).Contents (Elt F) → (⟨S100000x32, .f32⟩ : BufTy).Contents (Elt F)),
    StableHlo.binary main_v129 main_v133 main_v134 (addf : (⟨S100000x32, .f32⟩ : BufTy).Contents (Elt F) → (⟨S100000x32, .f32⟩ : BufTy).Contents (Elt F) → (⟨S100000x32, .f32⟩ : BufTy).Contents (Elt F)),
    StableHlo.unary main_arg6 main_v135 (broadcastInDim S1x32 ![1] bcast_S32_S1x32_1 : (⟨S32, .f32⟩ : BufTy).Contents (Elt F) → (⟨S1x32, .f32⟩ : BufTy).Contents (Elt F)),
    StableHlo.unary main_v135 main_v136 (broadcastInDim S100000x32 ![0, 1] bcast_S1x32_S100000x32_0_1 : (⟨S1x32, .f32⟩ : BufTy).Contents (Elt F) → (⟨S100000x32, .f32⟩ : BufTy).Contents (Elt F)),
    StableHlo.binary main_v134 main_v136 main_v137 (addf : (⟨S100000x32, .f32⟩ : BufTy).Contents (Elt F) → (⟨S100000x32, .f32⟩ : BufTy).Contents (Elt F) → (⟨S100000x32, .f32⟩ : BufTy).Contents (Elt F)),
    StableHlo.nullary main_cst_29 (constant S_ .f32 0x3C23D70A#32),
    StableHlo.nullary main_call2_cst (constant S_ .f32 0x00000000#32),
    StableHlo.unary main_call2_cst main_call2_v0 (broadcastInDim S100000x32 ![] bcast_S_S100000x32 : (⟨S_, .f32⟩ : BufTy).Contents (Elt F) → (⟨S100000x32, .f32⟩ : BufTy).Contents (Elt F)),
    StableHlo.binary main_v137 main_call2_v0 main_call2_v1 (cmpf (F := F) .oge : (⟨S100000x32, .f32⟩ : BufTy).Contents (Elt F) → (⟨S100000x32, .f32⟩ : BufTy).Contents (Elt F) → (⟨S100000x32, .i1⟩ : BufTy).Contents (Elt F)),
    StableHlo.unary main_cst_29 main_call2_v2 (id : (⟨S_, .f32⟩ : BufTy).Contents (Elt F) → (⟨S_, .f32⟩ : BufTy).Contents (Elt F)),
    StableHlo.unary main_call2_v2 main_call2_v3 (broadcastInDim S100000x32 ![] bcast_S_S100000x32 : (⟨S_, .f32⟩ : BufTy).Contents (Elt F) → (⟨S100000x32, .f32⟩ : BufTy).Contents (Elt F)),
    StableHlo.binary main_call2_v3 main_v137 main_call2_v4 (mulf : (⟨S100000x32, .f32⟩ : BufTy).Contents (Elt F) → (⟨S100000x32, .f32⟩ : BufTy).Contents (Elt F) → (⟨S100000x32, .f32⟩ : BufTy).Contents (Elt F)),
    StableHlo.ternary main_call2_v1 main_v137 main_call2_v4 main_v138 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.nullary main_cst_30 (constant S_ .f32 0x00000000#32),
    StableHlo.unary main_cst_30 main_v139 (broadcastInDim S128x32 ![] bcast_S_S128x32 : (⟨S_, .f32⟩ : BufTy).Contents (Elt F) → (⟨S128x32, .f32⟩ : BufTy).Contents (Elt F)),
    StableHlo.unary main_arg9 main_v140 (broadcastInDim S100000x1 ![0] bcast_S100000_S100000x1_0 : (⟨S100000, .i32⟩ : BufTy).Contents (Elt F) → (⟨S100000x1, .i32⟩ : BufTy).Contents (Elt F)),
    StableHlo.ternary main_v139 main_v140 main_v138 main_v141 ((fun x i u => Host.scatterAdd scatter_S128x32_S100000x1_S100000x32_1_0_0_1 x i u) : (⟨S128x32, .f32⟩ : BufTy).Contents (Elt F) → (⟨S100000x1, .i32⟩ : BufTy).Contents (Elt F) → (⟨S100000x32, .f32⟩ : BufTy).Contents (Elt F) → (⟨S128x32, .f32⟩ : BufTy).Contents (Elt F)),
    StableHlo.unary main_v12 main_v142 (broadcastInDim S128x1 ![0] bcast_S128_S128x1_0 : (⟨S128, .f32⟩ : BufTy).Contents (Elt F) → (⟨S128x1, .f32⟩ : BufTy).Contents (Elt F)),
    StableHlo.unary main_v142 main_v143 (broadcastInDim S128x32 ![0, 1] bcast_S128x1_S128x32_0_1 : (⟨S128x1, .f32⟩ : BufTy).Contents (Elt F) → (⟨S128x32, .f32⟩ : BufTy).Contents (Elt F)),
    StableHlo.binary main_v141 main_v143 main_v144 (Host.divf : (⟨S128x32, .f32⟩ : BufTy).Contents (Elt F) → (⟨S128x32, .f32⟩ : BufTy).Contents (Elt F) → (⟨S128x32, .f32⟩ : BufTy).Contents (Elt F)),
    StableHlo.unary main_v56 main_v145 (broadcastInDim S1x128x32 ![1, 2] bcast_S128x32_S1x128x32_1_2 : (⟨S128x32, .f32⟩ : BufTy).Contents (Elt F) → (⟨S1x128x32, .f32⟩ : BufTy).Contents (Elt F)),
    StableHlo.unary main_v100 main_v146 (broadcastInDim S1x128x32 ![1, 2] bcast_S128x32_S1x128x32_1_2 : (⟨S128x32, .f32⟩ : BufTy).Contents (Elt F) → (⟨S1x128x32, .f32⟩ : BufTy).Contents (Elt F)) ]

abbrev ops3 : List (HloOp τ sig (Elt F)) :=
  [ StableHlo.unary main_v144 main_v147 (broadcastInDim S1x128x32 ![1, 2] bcast_S128x32_S1x128x32_1_2 : (⟨S128x32, .f32⟩ : BufTy).Contents (Elt F) → (⟨S1x128x32, .f32⟩ : BufTy).Contents (Elt F)),
    StableHlo.nary ![main_v145, main_v146, main_v147] main_v148 (fun u => concatenate S3x128x32 0 [⟨S1x128x32, u 0⟩, ⟨S1x128x32, u 1⟩, ⟨S1x128x32, u 2⟩] concatenates_S1x128x32_S1x128x32_S1x128x32_S3x128x32_d0),
    StableHlo.nullary main_cst_31 (constant S_ .f32 0x00000000#32),
    StableHlo.binary main_v148 main_cst_31 main_v149 ((fun x v => Host.reduceAdd x v reducesTo_S3x128x32_S128x32_d0 h_S_) : (⟨S3x128x32, .f32⟩ : BufTy).Contents (Elt F) → (⟨S_, .f32⟩ : BufTy).Contents (Elt F) → (⟨S128x32, .f32⟩ : BufTy).Contents (Elt F)),
    StableHlo.nullary main_cst_32 (constant S_ .f32 0x40400000#32),
    StableHlo.unary main_cst_32 main_v150 (broadcastInDim S128x32 ![] bcast_S_S128x32 : (⟨S_, .f32⟩ : BufTy).Contents (Elt F) → (⟨S128x32, .f32⟩ : BufTy).Contents (Elt F)),
    StableHlo.binary main_v149 main_v150 main_v151 (Host.divf : (⟨S128x32, .f32⟩ : BufTy).Contents (Elt F) → (⟨S128x32, .f32⟩ : BufTy).Contents (Elt F) → (⟨S128x32, .f32⟩ : BufTy).Contents (Elt F)) ]

abbrev ops : List (HloOp τ sig (Elt F)) := ops0 ++ (ops1 ++ (ops2 ++ ops3))

set_option maxRecDepth 8192 in
set_option maxHeartbeats 4000000 in
theorem main_part0_eq (c : Dev nD) : main_part0 (F := F) c = seq ops0 := by
  chain_rfl

set_option maxRecDepth 8192 in
set_option maxHeartbeats 4000000 in
theorem main_part1_eq (c : Dev nD) : main_part1 (F := F) c = seq ops1 := by
  chain_rfl

set_option maxRecDepth 8192 in
set_option maxHeartbeats 4000000 in
theorem main_part2_eq (c : Dev nD) : main_part2 (F := F) c = seq ops2 := by
  chain_rfl

set_option maxRecDepth 8192 in
set_option maxHeartbeats 4000000 in
theorem main_part3_eq (c : Dev nD) : main_part3 (F := F) c = seq ops3 := by
  chain_rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., binary_bufs_sub .., unary_bufs_sub ..,
    nullary_bufs_sub .., unary_bufs_sub .., nullary_bufs_sub .., unary_bufs_sub .., unary_bufs_sub ..,
    ternary_bufs_sub .., nullary_bufs_sub .., unary_bufs_sub .., binary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., unary_bufs_sub ..,
    binary_bufs_sub .., nullary_bufs_sub .., unary_bufs_sub .., unary_bufs_sub .., ternary_bufs_sub ..,
    binary_bufs_sub .., unary_bufs_sub .., unary_bufs_sub .., binary_bufs_sub .., binary_bufs_sub ..⟩

set_option maxRecDepth 8192 in
theorem ops1_sub : (ops1 : List (HloOp τ sig (Elt F))).Forall fun op => op.bufs ⊆ tcRefs τ sig :=
  ⟨unary_bufs_sub .., unary_bufs_sub .., binary_bufs_sub .., nullary_bufs_sub .., nullary_bufs_sub ..,
    unary_bufs_sub .., binary_bufs_sub .., unary_bufs_sub .., unary_bufs_sub .., binary_bufs_sub ..,
    ternary_bufs_sub .., nullary_bufs_sub .., unary_bufs_sub .., unary_bufs_sub .., ternary_bufs_sub ..,
    unary_bufs_sub .., unary_bufs_sub .., binary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub .., unary_bufs_sub .., nullary_bufs_sub ..,
    unary_bufs_sub .., binary_bufs_sub .., nullary_bufs_sub .., unary_bufs_sub .., binary_bufs_sub ..,
    ternary_bufs_sub .., unary_bufs_sub .., binary_bufs_sub .., unary_bufs_sub .., binary_bufs_sub ..,
    nullary_bufs_sub .., unary_bufs_sub .., unary_bufs_sub .., ternary_bufs_sub .., binary_bufs_sub ..,
    unary_bufs_sub .., unary_bufs_sub .., binary_bufs_sub .., binary_bufs_sub .., unary_bufs_sub ..,
    unary_bufs_sub .., binary_bufs_sub .., nullary_bufs_sub .., nullary_bufs_sub .., unary_bufs_sub ..,
    binary_bufs_sub .., unary_bufs_sub .., unary_bufs_sub .., binary_bufs_sub .., ternary_bufs_sub ..,
    nullary_bufs_sub .., unary_bufs_sub ..⟩

set_option maxRecDepth 8192 in
theorem ops2_sub : (ops2 : List (HloOp τ sig (Elt F))).Forall fun op => op.bufs ⊆ tcRefs τ sig :=
  ⟨unary_bufs_sub .., ternary_bufs_sub .., unary_bufs_sub .., unary_bufs_sub .., binary_bufs_sub ..,
    binary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    unary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., binary_bufs_sub .., nullary_bufs_sub .., unary_bufs_sub .., unary_bufs_sub ..,
    ternary_bufs_sub .., binary_bufs_sub .., unary_bufs_sub .., unary_bufs_sub .., binary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., nullary_bufs_sub .., unary_bufs_sub .., unary_bufs_sub ..,
    ternary_bufs_sub .., unary_bufs_sub .., unary_bufs_sub .., binary_bufs_sub .., unary_bufs_sub ..,
    unary_bufs_sub ..⟩

set_option maxRecDepth 8192 in
theorem ops3_sub : (ops3 : List (HloOp τ sig (Elt F))).Forall fun op => op.bufs ⊆ tcRefs τ sig :=
  ⟨unary_bufs_sub .., nary_bufs_sub .., nullary_bufs_sub .., binary_bufs_sub .., nullary_bufs_sub ..,
    unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl⟩

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

abbrev ops0_W : List (Ref sig .tc) :=
  [main_cst, main_v0, main_cst_0, main_v1, main_v2, main_v3, main_cst_1, main_v4, main_v5, main_v6, main_cst_2,
    main_v7, main_cst_3, main_v8, main_v9, main_v10, main_cst_4, main_v11, main_v12, main_v13, main_c, main_v14,
    main_v15, main_c_5, main_v16, main_v17, main_v18, main_v19, main_v20, main_c_6, main_v21, main_v22, main_c_7,
    main_v23, main_v24, main_v25, main_v26, main_v27, main_v28, main_v29, main_c_8, main_v30, main_v31, main_c_9,
    main_v32, main_v33, main_v34, main_v35, main_v36, main_v37, main_v38, main_cst_10, main_v39, main_v40, main_v41,
    main_v42, main_v43, main_v44, main_v45, main_v46]
set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_⟩ <;>
    (simp only [nullary_writes, unary_writes, binary_writes, ternary_writes, nary_writes,
        Finset.singleton_subset_iff, List.mem_toFinset]
     exact List.mem_map_of_mem (by decide))

abbrev ops1_W : List (Ref sig .tc) :=
  [main_v47, main_v48, main_v49, main_cst_11, main_call0_cst, main_call0_v0, main_call0_v1, main_call0_v2,
    main_call0_v3, main_call0_v4, main_v50, main_cst_12, main_v51, main_v52, main_v53, main_v54, main_v55, main_v56,
    main_v57, main_c_13, main_v58, main_v59, main_c_14, main_v60, main_v61, main_v62, main_v63, main_v64, main_c_15,
    main_v65, main_v66, main_c_16, main_v67, main_v68, main_v69, main_v70, main_v71, main_v72, main_v73, main_c_17,
    main_v74, main_v75, main_c_18, main_v76, main_v77, main_v78, main_v79, main_v80, main_v81, main_v82, main_cst_19,
    main_v83, main_v84, main_v85, main_v86, main_v87, main_v88, main_v89, main_v90, main_v91, main_v92, main_v93,
    main_cst_20, main_call1_cst, main_call1_v0, main_call1_v1, main_call1_v2, main_call1_v3, main_call1_v4, main_v94,
    main_cst_21, main_v95]
set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_⟩ <;>
    (simp only [nullary_writes, unary_writes, binary_writes, ternary_writes, nary_writes,
        Finset.singleton_subset_iff, List.mem_toFinset]
     exact List.mem_map_of_mem (by decide))

abbrev ops2_W : List (Ref sig .tc) :=
  [main_v96, main_v97, main_v98, main_v99, main_v100, main_v101, main_c_22, main_v102, main_v103, main_c_23,
    main_v104, main_v105, main_v106, main_v107, main_v108, main_c_24, main_v109, main_v110, main_c_25, main_v111,
    main_v112, main_v113, main_v114, main_v115, main_v116, main_v117, main_c_26, main_v118, main_v119, main_c_27,
    main_v120, main_v121, main_v122, main_v123, main_v124, main_v125, main_v126, main_cst_28, main_v127, main_v128,
    main_v129, main_v130, main_v131, main_v132, main_v133, main_v134, main_v135, main_v136, main_v137, main_cst_29,
    main_call2_cst, main_call2_v0, main_call2_v1, main_call2_v2, main_call2_v3, main_call2_v4, main_v138,
    main_cst_30, main_v139, main_v140, main_v141, main_v142, main_v143, main_v144, main_v145, main_v146]
set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_⟩ <;>
    (simp only [nullary_writes, unary_writes, binary_writes, ternary_writes, nary_writes,
        Finset.singleton_subset_iff, List.mem_toFinset]
     exact List.mem_map_of_mem (by decide))

abbrev ops3_W : List (Ref sig .tc) :=
  [main_v147, main_v148, main_cst_31, main_v149, main_cst_32, main_v150, main_v151]
set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  refine ⟨?_, ?_, ?_, ?_, ?_, ?_, ?_⟩ <;>
    (simp only [nullary_writes, unary_writes, binary_writes, ternary_writes, nary_writes,
        Finset.singleton_subset_iff, List.mem_toFinset]
     exact List.mem_map_of_mem (by decide))

theorem after_ops0_keep (V : Valuation τ sig (Elt F)) (r : Ref sig .tc) (h : r ∉ ops0_W) :
    after (ops0 : List (HloOp τ sig (Elt F))) V (Proc.devRef .tc r) = V (Proc.devRef .tc r) :=
  after_of_writes_sub ops0 _ ops0_writes h
theorem after_ops1_keep (V : Valuation τ sig (Elt F)) (r : Ref sig .tc) (h : r ∉ ops1_W) :
    after (ops1 : List (HloOp τ sig (Elt F))) V (Proc.devRef .tc r) = V (Proc.devRef .tc r) :=
  after_of_writes_sub ops1 _ ops1_writes h
theorem after_ops2_keep (V : Valuation τ sig (Elt F)) (r : Ref sig .tc) (h : r ∉ ops2_W) :
    after (ops2 : List (HloOp τ sig (Elt F))) V (Proc.devRef .tc r) = V (Proc.devRef .tc r) :=
  after_of_writes_sub ops2 _ ops2_writes h
theorem after_ops3_keep (V : Valuation τ sig (Elt F)) (r : Ref sig .tc) (h : r ∉ ops3_W) :
    after (ops3 : List (HloOp τ sig (Elt F))) V (Proc.devRef .tc r) = V (Proc.devRef .tc r) :=
  after_of_writes_sub ops3 _ ops3_writes h

theorem after_ops (V : Valuation τ sig (Elt F)) :
    after (ops : List (HloOp τ sig (Elt F))) V = after ops3 (after ops2 (after ops1 (after ops0 V))) := by
  simp only [ops, after_append]

theorem after_ops_keep (V : Valuation τ sig (Elt F)) (r : Ref sig .tc)
    (h0 : r ∉ ops0_W) (h1 : r ∉ ops1_W) (h2 : r ∉ ops2_W) (h3 : r ∉ ops3_W) :
    after (ops : List (HloOp τ sig (Elt F))) V (Proc.devRef .tc r) = V (Proc.devRef .tc r) := by
  rw [after_ops, after_ops3_keep _ r h3, after_ops2_keep _ r h2, after_ops1_keep _ r h1, after_ops0_keep _ r h0]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v151) = StableHlo.after ops (fun b => m (c, b)) (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v151,
      (h c main_arg0).trans (after_ops_keep _ main_arg0 (by decide) (by decide) (by decide) (by decide)),
      (h c main_arg1).trans (after_ops_keep _ main_arg1 (by decide) (by decide) (by decide) (by decide)),
      (h c main_arg2).trans (after_ops_keep _ main_arg2 (by decide) (by decide) (by decide) (by decide)),
      (h c main_arg3).trans (after_ops_keep _ main_arg3 (by decide) (by decide) (by decide) (by decide)),
      (h c main_arg4).trans (after_ops_keep _ main_arg4 (by decide) (by decide) (by decide) (by decide)),
      (h c main_arg5).trans (after_ops_keep _ main_arg5 (by decide) (by decide) (by decide) (by decide)),
      (h c main_arg6).trans (after_ops_keep _ main_arg6 (by decide) (by decide) (by decide) (by decide)),
      (h c main_arg7).trans (after_ops_keep _ main_arg7 (by decide) (by decide) (by decide) (by decide)),
      (h c main_arg8).trans (after_ops_keep _ main_arg8 (by decide) (by decide) (by decide) (by decide)),
      (h c main_arg9).trans (after_ops_keep _ main_arg9 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.KI.ValMM.lean ====
import proofs.«423851_j31086973288655_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

def rowsMul {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 ⟨(i 0).val, idx2_lt0 i⟩ k) * W (ix2 k ⟨(i 1).val, idx2_lt1 i⟩)

abbrev realArr {S : Shape} (f : S.Idx → EReal) : S.Idx → EReal := f

theorem sum_block_eq {K : ℕ} (A : (⟨2, ![100352, K]⟩ : Shape).Idx → EReal) (W : (⟨2, ![K, 32]⟩ : Shape).Idx → EReal)
    (x0 : (⟨2, ![2048, K]⟩ : Shape).Idx → EReal) (x1 : (⟨2, ![K, 32]⟩ : Shape).Idx → EReal) (n : ℕ)
    (i : (⟨2, ![100352, 32]⟩ : Shape).Idx) (p : Fin 2048) (q : Fin 32)
    (h0 : ∀ (k : Fin K) (r : Fin 100352), r.val = n * 2048 + p.val → x0 (ix2 p k) = A (ix2 r k))
    (h1 : ∀ k : Fin K, x1 (ix2 k q) = W (ix2 k q))
    (hi0 : (i 0).val = n * 2048 + p.val) (hi1 : (i 1).val = q.val) :
    ∑ k : Fin K, x0 (ix2 p k) * x1 (ix2 k q) = rowsMul A W i := by
  have hq : (⟨(i 1).val, idx2_lt1 i⟩ : Fin 32) = q := Fin.ext hi1
  show _ = ∑ k : Fin K, A (ix2 ⟨(i 0).val, idx2_lt0 i⟩ k) * W (ix2 k ⟨(i 1).val, idx2_lt1 i⟩)
  rw [hq]
  exact Finset.sum_congr rfl fun k _ => by rw [h0 k ⟨(i 0).val, idx2_lt0 i⟩ hi0, h1 k]

theorem mm_hz : (![0, 0] : Fin 2 → Nat) = fun _ => 0 := funext fun a => by fin_cases a <;> rfl

theorem mm64_lhs_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem mm64_lhs_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem mm64_rhs_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem mm64_rhs_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

theorem mm64_apply {φ₁ φ₂ : FTy} (a : FVec Ideal S2048x64 φ₁) (b : FVec Ideal S64x32 φ₂) (p : Fin 2048) (q : Fin 32) :
    FloatOps.matmul dot_S2048x64_S64x32_S2048x32_1_0_0_1_n_n none a b (constant (F := Ideal) S2048x32 .f32 0x00000000#32) (ix2 p q)
      = ∑ k : Fin 64, a (ix2 p k) * b (ix2 k q) := by
  rw [Ideal.matmul_constant_zero_apply,
    ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p q) ((contrEquiv1 dot_S2048x64_S64x32_S2048x32_1_0_0_1_n_n 64 rfl rfl).symm k) = ix2 p k :=
    funext fun a => Fin.ext (by
      match a with
      | ⟨0, _⟩ => exact mm64_lhs_0 _ _
      | ⟨1, _⟩ => exact (mm64_lhs_1 _ _).trans hk)
  have er : dot_S2048x64_S64x32_S2048x32_1_0_0_1_n_n.rhsIdx (ix2 p q) ((contrEquiv1 dot_S2048x64_S64x32_S2048x32_1_0_0_1_n_n 64 rfl rfl).symm k) = ix2 k q :=
    funext fun a => Fin.ext (by
      match a with
      | ⟨0, _⟩ => exact (mm64_rhs_0 _ _).trans hk
      | ⟨1, _⟩ => exact mm64_rhs_1 _ _)
  rw [el, er]

theorem mm32_lhs_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl
theorem mm32_lhs_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
theorem mm32_rhs_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem mm32_rhs_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

theorem mm32_apply {φ₁ φ₂ : FTy} (a : FVec Ideal S2048x32 φ₁) (b : FVec Ideal S32x32 φ₂) (p : Fin 2048) (q : Fin 32) :
    FloatOps.matmul dot_S2048x32_S32x32_S2048x32_1_0_0_1_n_n none a b (constant (F := Ideal) S2048x32 .f32 0x00000000#32) (ix2 p q)
      = ∑ k : Fin 32, a (ix2 p k) * b (ix2 k q) := by
  rw [Ideal.matmul_constant_zero_apply,
    ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 p q) ((contrEquiv1 dot_S2048x32_S32x32_S2048x32_1_0_0_1_n_n 32 rfl rfl).symm k) = ix2 p k :=
    funext fun a => Fin.ext (by
      match a with
      | ⟨0, _⟩ => exact mm32_lhs_0 _ _
      | ⟨1, _⟩ => exact (mm32_lhs_1 _ _).trans hk)
  have er : dot_S2048x32_S32x32_S2048x32_1_0_0_1_n_n.rhsIdx (ix2 p q) ((contrEquiv1 dot_S2048x32_S32x32_S2048x32_1_0_0_1_n_n 32 rfl rfl).symm k) = ix2 k q :=
    funext fun a => Fin.ext (by
      match a with
      | ⟨0, _⟩ => exact (mm32_rhs_0 _ _).trans hk
      | ⟨1, _⟩ => exact mm32_rhs_1 _ _)
  rw [el, er]

section Region0

theorem pay0_apply (x0 : Vec Ideal S2048x64 .f32) (x1 : Vec Ideal S64x32 .f32) (p : Fin 2048) (q : Fin 32) :
    (k0_pay1 (F := Ideal) x0 x1 : S2048x32.Idx → EReal) (ix2 p q) = ∑ k : Fin 64, (x0 (ix2 p k) : EReal) * x1 (ix2 k q) := by
  unfold k0_pay1
  refine (mm64_apply _ _ p q).trans ?_
  refine Finset.sum_congr rfl fun k _ => ?_
  show (shapeCast S2048x64 x0 shapeCasts_S2048x64_S2048x64 (ix2 p k) : EReal) * x1 (ix2 k q) = _
  rw [shapeCast_self]

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lblk0 (c : Dev nD) (t : Fin cfg0.N) (p : Fin 2048) (k : Fin 64) (r : Fin 100352) (hr : r.val = t.val * 2048 + p.val) :
    (iblk0 (F := Ideal) V c 0 t : S2048x64.Idx → EReal) (ix2 p k) = (V c main_v18 : S100352x64.Idx → EReal) (ix2 r k) := by
  obtain ⟨e0, e1, -⟩ := idx_facts0 t
  unfold iblk0
  show (V c main_v18 : S100352x64.Idx → EReal) (((cfg0.win 0).blk t).view.emb (ix2 p k)) = _
  refine congrArg (V c main_v18 : S100352x64.Idx → EReal) (funext fun a => Fin.ext ?_)
  match a with
  | ⟨0, _⟩ => show win0_0.index t (0 : Fin 2) * 2048 + 1 * p.val = r.val; omega
  | ⟨1, _⟩ => show win0_0.index t (1 : Fin 2) * 64 + 1 * k.val = k.val; omega

theorem wblk0 (c : Dev nD) (t : Fin cfg0.N) (k : Fin 64) (q : Fin 32) :
    (iblk0 (F := Ideal) V c 1 t : S64x32.Idx → EReal) (ix2 k q) = (V c main_arg1 : S64x32.Idx → EReal) (ix2 k q) := by
  obtain ⟨-, -, e2, e3, -⟩ := idx_facts0 t
  unfold iblk0
  show (V c main_arg1 : S64x32.Idx → EReal) (((cfg0.win 1).blk t).view.emb (ix2 k q)) = _
  refine congrArg (V c main_arg1 : S64x32.Idx → EReal) (funext fun a => Fin.ext ?_)
  match a with
  | ⟨0, _⟩ => show win0_1.index t (0 : Fin 2) * 64 + 1 * k.val = k.val; omega
  | ⟨1, _⟩ => show win0_1.index t (1 : Fin 2) * 32 + 1 * q.val = q.val; omega

theorem oemb0 (t : Fin cfg0.N) (p : Fin 2048) (q : Fin 32) :
    ((((cfg0.win 2).blk t).view.emb (ix2 p q) : S100352x32.Idx) 0).val = t.val * 2048 + p.val
    ∧ ((((cfg0.win 2).blk t).view.emb (ix2 p q) : S100352x32.Idx) 1).val = q.val := by
  obtain ⟨-, -, -, -, e4, e5⟩ := idx_facts0 t
  constructor
  · show win0_2.index t (0 : Fin 2) * 2048 + 1 * p.val = _; omega
  · show win0_2.index t (1 : Fin 2) * 32 + 1 * q.val = _; omega

theorem out0_apply (x0 : Vec Ideal S2048x64 .f32) (x1 : Vec Ideal S64x32 .f32) (p : Fin 2048) (q : Fin 32) :
    (out0_2 (F := Ideal) x0 x1 : S2048x32.Idx → EReal) (ix2 p q) = ∑ k : Fin 64, (x0 (ix2 p k) : EReal) * x1 (ix2 k q) := by
  unfold out0_2
  rw [View.canon_unit_zero mm_hz]
  simp only [View.ld_unit_zero (S := S2048x64) mm_hz, View.ld_unit_zero (S := S64x32) mm_hz]
  exact pay0_apply x0 x1 p q

theorem flushed0_eq (c : Dev nD) (t : Fin cfg0.N) :
    (dat0 (F := Ideal) V c).flushed 2 t
      = ((cfg0.win 2).blk t).view.read (Elt Ideal)
          (rowsMul (V c main_v18 : S100352x64.Idx → EReal) (V c main_arg1 : S64x32.Idx → EReal)) := by
  show (cfg0.win 2).cut (grid0.coords t) ((dat0 (F := Ideal) V c).after 2 t) = _
  rw [after0_2]
  funext y
  obtain ⟨p, q, rfl⟩ : ∃ (p : Fin 2048) (q : Fin 32), y = ix2 p q := ⟨y 0, y 1, eq_ix2 y⟩
  show (out0_2 (F := Ideal) (iblk0 V c 0 t) (iblk0 V c 1 t) : S2048x32.Idx → EReal) (ix2 p q)
    = rowsMul (V c main_v18 : S100352x64.Idx → EReal) (V c main_arg1 : S64x32.Idx → EReal)
        (((cfg0.win 2).blk t).view.emb (ix2 p q))
  refine (out0_apply (iblk0 V c 0 t) (iblk0 V c 1 t) p q).trans ?_
  exact sum_block_eq (V c main_v18) (V c main_arg1) (iblk0 V c 0 t) (iblk0 V c 1 t) t.val
    (((cfg0.win 2).blk t).view.emb (ix2 p q)) p q
    (fun k r hr => lblk0 V c t p k r hr) (fun k => wblk0 V c t k q) (oemb0 t p q).1 (oemb0 t p q).2

theorem mem_blk0 (t : Fin cfg0.N) (i : S100352x32.Idx) :
    i ∈ ((cfg0.win 2).blk t).view.set ↔ ∀ a : Fin 2, win0_2.index t a * S2048x32.size a ≤ (i a).val
      ∧ (i a).val < win0_2.index t a * S2048x32.size a + S2048x32.size a := by
  show i ∈ ((View.whole main_v19).slice (win0_2.rect t)).set ↔ _
  rw [View.set_slice_whole, Rect.mem_set_unit]
  exact Iff.rfl

theorem cover0 (i : S100352x32.Idx) :
    ∃ t : Fin cfg0.N, (cfg0.win 2).flush t = true ∧ i ∈ ((cfg0.win 2).blk t).view.set := by
  have hi0 : (i 0).val < 100352 := idx2_lt0 i
  have hi1 : (i 1).val < 32 := idx2_lt1 i
  obtain ⟨t, ht⟩ : ∃ t : Fin cfg0.N, t.val = (i 0).val / 2048 :=
    ⟨⟨(i 0).val / 2048, by rw [show cfg0.N = 49 from N_0]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 32 ≤ (i 1).val ∧ (i 1).val < win0_2.index t (1 : Fin 2) * 32 + 32
    omega

theorem arr0_eq (c : Dev nD) :
    (dat0 (F := Ideal) V c).arrAt 2 cfg0.N
      = rowsMul (V c main_v18 : S100352x64.Idx → EReal) (V c main_arg1 : S64x32.Idx → EReal) :=
  (dat0 (F := Ideal) V c).arrAt_eq_of_cover 2
    (rowsMul (V c main_v18 : S100352x64.Idx → EReal) (V c main_arg1 : S64x32.Idx → EReal))
    (fun t _ => flushed0_eq V c t) cover0

theorem arr_mm0 (c : Dev nD) (i : Fin 100352) (j : Fin 32) :
    (dat0 (F := Ideal) V c).arrAt 2 cfg0.N (ix2 i j)
      = ∑ k : Fin 64, realArr (S := S100352x64) (V c main_v18) (ix2 i k) * realArr (S := S64x32) (V c main_arg1) (ix2 k j) :=
  (congrFun (arr0_eq V c) (ix2 i j)).trans rfl

end Region0

end Cert.KernelIdeal.Val

end
-- ==== Proof.KI.ValMM3.lean ====
import proofs.«423851_j31086973288655_1_alg».proof.Proof.KI.Reg3
import proofs.«423851_j31086973288655_1_alg».proof.Proof.KI.ValMM

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

section Region3

theorem pay3_apply (x0 : Vec Ideal S2048x32 .f32) (x1 : Vec Ideal S32x32 .f32) (p : Fin 2048) (q : Fin 32) :
    (k3_pay1 (F := Ideal) x0 x1 : S2048x32.Idx → EReal) (ix2 p q) = ∑ k : Fin 32, (x0 (ix2 p k) : EReal) * x1 (ix2 k q) := by
  unfold k3_pay1
  refine (mm32_apply _ _ p q).trans ?_
  refine Finset.sum_congr rfl fun k _ => ?_
  show (shapeCast S2048x32 x0 shapeCasts_S2048x32_S2048x32 (ix2 p k) : EReal) * x1 (ix2 k q) = _
  rw [shapeCast_self]

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lblk3 (c : Dev nD) (t : Fin cfg3.N) (p : Fin 2048) (k : Fin 32) (r : Fin 100352) (hr : r.val = t.val * 2048 + p.val) :
    (iblk3 (F := Ideal) V c 0 t : S2048x32.Idx → EReal) (ix2 p k) = (V c main_v50 : S100352x32.Idx → EReal) (ix2 r k) := by
  obtain ⟨e0, e1, -⟩ := idx_facts3 t
  unfold iblk3
  show (V c main_v50 : S100352x32.Idx → EReal) (((cfg3.win 0).blk t).view.emb (ix2 p k)) = _
  refine congrArg (V c main_v50 : S100352x32.Idx → EReal) (funext fun a => Fin.ext ?_)
  match a with
  | ⟨0, _⟩ => show win3_0.index t (0 : Fin 2) * 2048 + 1 * p.val = r.val; omega
  | ⟨1, _⟩ => show win3_0.index t (1 : Fin 2) * 32 + 1 * k.val = k.val; omega

theorem wblk3 (c : Dev nD) (t : Fin cfg3.N) (k : Fin 32) (q : Fin 32) :
    (iblk3 (F := Ideal) V c 1 t : S32x32.Idx → EReal) (ix2 k q) = (V c main_arg3 : S32x32.Idx → EReal) (ix2 k q) := by
  obtain ⟨-, -, e2, e3, -⟩ := idx_facts3 t
  unfold iblk3
  show (V c main_arg3 : S32x32.Idx → EReal) (((cfg3.win 1).blk t).view.emb (ix2 k q)) = _
  refine congrArg (V c main_arg3 : S32x32.Idx → EReal) (funext fun a => Fin.ext ?_)
  match a with
  | ⟨0, _⟩ => show win3_1.index t (0 : Fin 2) * 32 + 1 * k.val = k.val; omega
  | ⟨1, _⟩ => show win3_1.index t (1 : Fin 2) * 32 + 1 * q.val = q.val; omega

theorem oemb3 (t : Fin cfg3.N) (p : Fin 2048) (q : Fin 32) :
    ((((cfg3.win 2).blk t).view.emb (ix2 p q) : S100352x32.Idx) 0).val = t.val * 2048 + p.val
    ∧ ((((cfg3.win 2).blk t).view.emb (ix2 p q) : S100352x32.Idx) 1).val = q.val := by
  obtain ⟨-, -, -, -, e4, e5⟩ := idx_facts3 t
  constructor
  · show win3_2.index t (0 : Fin 2) * 2048 + 1 * p.val = _; omega
  · show win3_2.index t (1 : Fin 2) * 32 + 1 * q.val = _; omega

theorem out3_apply (x0 : Vec Ideal S2048x32 .f32) (x1 : Vec Ideal S32x32 .f32) (p : Fin 2048) (q : Fin 32) :
    (out3_2 (F := Ideal) x0 x1 : S2048x32.Idx → EReal) (ix2 p q) = ∑ k : Fin 32, (x0 (ix2 p k) : EReal) * x1 (ix2 k q) := by
  unfold out3_2
  rw [View.canon_unit_zero mm_hz]
  simp only [View.ld_unit_zero (S := S2048x32) mm_hz, View.ld_unit_zero (S := S32x32) mm_hz]
  exact pay3_apply x0 x1 p q

theorem flushed3_eq (c : Dev nD) (t : Fin cfg3.N) :
    (dat3 (F := Ideal) V c).flushed 2 t
      = ((cfg3.win 2).blk t).view.read (Elt Ideal)
          (rowsMul (V c main_v50 : S100352x32.Idx → EReal) (V c main_arg3 : S32x32.Idx → EReal)) := by
  show (cfg3.win 2).cut (grid3.coords t) ((dat3 (F := Ideal) V c).after 2 t) = _
  rw [after3_2]
  funext y
  obtain ⟨p, q, rfl⟩ : ∃ (p : Fin 2048) (q : Fin 32), y = ix2 p q := ⟨y 0, y 1, eq_ix2 y⟩
  show (out3_2 (F := Ideal) (iblk3 V c 0 t) (iblk3 V c 1 t) : S2048x32.Idx → EReal) (ix2 p q)
    = rowsMul (V c main_v50 : S100352x32.Idx → EReal) (V c main_arg3 : S32x32.Idx → EReal)
        (((cfg3.win 2).blk t).view.emb (ix2 p q))
  refine (out3_apply (iblk3 V c 0 t) (iblk3 V c 1 t) p q).trans ?_
  exact sum_block_eq (V c main_v50) (V c main_arg3) (iblk3 V c 0 t) (iblk3 V c 1 t) t.val
    (((cfg3.win 2).blk t).view.emb (ix2 p q)) p q
    (fun k r hr => lblk3 V c t p k r hr) (fun k => wblk3 V c t k q) (oemb3 t p q).1 (oemb3 t p q).2

theorem mem_blk3 (t : Fin cfg3.N) (i : S100352x32.Idx) :
    i ∈ ((cfg3.win 2).blk t).view.set ↔ ∀ a : Fin 2, win3_2.index t a * S2048x32.size a ≤ (i a).val
      ∧ (i a).val < win3_2.index t a * S2048x32.size a + S2048x32.size a := by
  show i ∈ ((View.whole main_v55).slice (win3_2.rect t)).set ↔ _
  rw [View.set_slice_whole, Rect.mem_set_unit]
  exact Iff.rfl

theorem cover3 (i : S100352x32.Idx) :
    ∃ t : Fin cfg3.N, (cfg3.win 2).flush t = true ∧ i ∈ ((cfg3.win 2).blk t).view.set := by
  have hi0 : (i 0).val < 100352 := idx2_lt0 i
  have hi1 : (i 1).val < 32 := idx2_lt1 i
  obtain ⟨t, ht⟩ : ∃ t : Fin cfg3.N, t.val = (i 0).val / 2048 :=
    ⟨⟨(i 0).val / 2048, by rw [show cfg3.N = 49 from N_3]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 2048 ≤ (i 0).val ∧ (i 0).val < win3_2.index t (0 : Fin 2) * 2048 + 2048
    omega
  | ⟨1, _⟩ =>
    show win3_2.index t (1 : Fin 2) * 32 ≤ (i 1).val ∧ (i 1).val < win3_2.index t (1 : Fin 2) * 32 + 32
    omega

theorem arr3_eq (c : Dev nD) :
    (dat3 (F := Ideal) V c).arrAt 2 cfg3.N
      = rowsMul (V c main_v50 : S100352x32.Idx → EReal) (V c main_arg3 : S32x32.Idx → EReal) :=
  (dat3 (F := Ideal) V c).arrAt_eq_of_cover 2
    (rowsMul (V c main_v50 : S100352x32.Idx → EReal) (V c main_arg3 : S32x32.Idx → EReal))
    (fun t _ => flushed3_eq V c t) cover3

theorem arr_mm3 (c : Dev nD) (i : Fin 100352) (j : Fin 32) :
    (dat3 (F := Ideal) V c).arrAt 2 cfg3.N (ix2 i j)
      = ∑ k : Fin 32, realArr (S := S100352x32) (V c main_v50) (ix2 i k) * realArr (S := S32x32) (V c main_arg3) (ix2 k j) :=
  (congrFun (arr3_eq V c) (ix2 i j)).trans rfl

end Region3

end Cert.KernelIdeal.Val

end
-- ==== Proof.KI.ValMM6.lean ====
import proofs.«423851_j31086973288655_1_alg».proof.Proof.KI.Reg6
import proofs.«423851_j31086973288655_1_alg».proof.Proof.KI.ValMM
import proofs.«423851_j31086973288655_1_alg».proof.Proof.KI.ValMM3

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

section Region6

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  idx_facts3

theorem lblk6 (c : Dev nD) (t : Fin cfg6.N) (p : Fin 2048) (k : Fin 32) (r : Fin 100352) (hr : r.val = t.val * 2048 + p.val) :
    (iblk6 (F := Ideal) V c 0 t : S2048x32.Idx → EReal) (ix2 p k) = (V c main_v86 : S100352x32.Idx → EReal) (ix2 r k) := by
  obtain ⟨e0, e1, -⟩ := idx_facts6 t
  unfold iblk6
  show (V c main_v86 : S100352x32.Idx → EReal) (((cfg6.win 0).blk t).view.emb (ix2 p k)) = _
  refine congrArg (V c main_v86 : S100352x32.Idx → EReal) (funext fun a => Fin.ext ?_)
  match a with
  | ⟨0, _⟩ => show win6_0.index t (0 : Fin 2) * 2048 + 1 * p.val = r.val; omega
  | ⟨1, _⟩ => show win6_0.index t (1 : Fin 2) * 32 + 1 * k.val = k.val; omega

theorem wblk6 (c : Dev nD) (t : Fin cfg6.N) (k : Fin 32) (q : Fin 32) :
    (iblk6 (F := Ideal) V c 1 t : S32x32.Idx → EReal) (ix2 k q) = (V c main_arg5 : S32x32.Idx → EReal) (ix2 k q) := by
  obtain ⟨-, -, e2, e3, -⟩ := idx_facts6 t
  unfold iblk6
  show (V c main_arg5 : S32x32.Idx → EReal) (((cfg6.win 1).blk t).view.emb (ix2 k q)) = _
  refine congrArg (V c main_arg5 : S32x32.Idx → EReal) (funext fun a => Fin.ext ?_)
  match a with
  | ⟨0, _⟩ => show win6_1.index t (0 : Fin 2) * 32 + 1 * k.val = k.val; omega
  | ⟨1, _⟩ => show win6_1.index t (1 : Fin 2) * 32 + 1 * q.val = q.val; omega

theorem oemb6 (t : Fin cfg6.N) (p : Fin 2048) (q : Fin 32) :
    ((((cfg6.win 2).blk t).view.emb (ix2 p q) : S100352x32.Idx) 0).val = t.val * 2048 + p.val
    ∧ ((((cfg6.win 2).blk t).view.emb (ix2 p q) : S100352x32.Idx) 1).val = q.val :=
  oemb3 t p q

theorem out6_apply (x0 : Vec Ideal S2048x32 .f32) (x1 : Vec Ideal S32x32 .f32) (p : Fin 2048) (q : Fin 32) :
    (out6_2 (F := Ideal) x0 x1 : S2048x32.Idx → EReal) (ix2 p q) = ∑ k : Fin 32, (x0 (ix2 p k) : EReal) * x1 (ix2 k q) :=
  out3_apply x0 x1 p q

theorem flushed6_eq (c : Dev nD) (t : Fin cfg6.N) :
    (dat6 (F := Ideal) V c).flushed 2 t
      = ((cfg6.win 2).blk t).view.read (Elt Ideal)
          (rowsMul (V c main_v86 : S100352x32.Idx → EReal) (V c main_arg5 : S32x32.Idx → EReal)) := by
  show (cfg6.win 2).cut (grid6.coords t) ((dat6 (F := Ideal) V c).after 2 t) = _
  rw [after6_2]
  funext y
  obtain ⟨p, q, rfl⟩ : ∃ (p : Fin 2048) (q : Fin 32), y = ix2 p q := ⟨y 0, y 1, eq_ix2 y⟩
  show (out6_2 (F := Ideal) (iblk6 V c 0 t) (iblk6 V c 1 t) : S2048x32.Idx → EReal) (ix2 p q)
    = rowsMul (V c main_v86 : S100352x32.Idx → EReal) (V c main_arg5 : S32x32.Idx → EReal)
        (((cfg6.win 2).blk t).view.emb (ix2 p q))
  refine (out6_apply (iblk6 V c 0 t) (iblk6 V c 1 t) p q).trans ?_
  exact sum_block_eq (V c main_v86) (V c main_arg5) (iblk6 V c 0 t) (iblk6 V c 1 t) t.val
    (((cfg6.win 2).blk t).view.emb (ix2 p q)) p q
    (fun k r hr => lblk6 V c t p k r hr) (fun k => wblk6 V c t k q) (oemb6 t p q).1 (oemb6 t p q).2

theorem cover6 (i : S100352x32.Idx) :
    ∃ t : Fin cfg6.N, (cfg6.win 2).flush t = true ∧ i ∈ ((cfg6.win 2).blk t).view.set :=
  cover3 i

theorem arr6_eq (c : Dev nD) :
    (dat6 (F := Ideal) V c).arrAt 2 cfg6.N
      = rowsMul (V c main_v86 : S100352x32.Idx → EReal) (V c main_arg5 : S32x32.Idx → EReal) :=
  (dat6 (F := Ideal) V c).arrAt_eq_of_cover 2
    (rowsMul (V c main_v86 : S100352x32.Idx → EReal) (V c main_arg5 : S32x32.Idx → EReal))
    (fun t _ => flushed6_eq V c t) cover6

theorem arr_mm6 (c : Dev nD) (i : Fin 100352) (j : Fin 32) :
    (dat6 (F := Ideal) V c).arrAt 2 cfg6.N (ix2 i j)
      = ∑ k : Fin 32, realArr (S := S100352x32) (V c main_v86) (ix2 i k) * realArr (S := S32x32) (V c main_arg5) (ix2 k j) :=
  (congrFun (arr6_eq V c) (ix2 i j)).trans rfl

end Region6

end Cert.KernelIdeal.Val

end
-- ==== Proof.KI.ValCBCore.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx

def leakyK (x : EReal) : EReal := if 0 < x then x else Ideal.ofBits .f32 0x3C23D70A#32 * x

theorem leaky_select (x : EReal) :
    Scalar.select (FloatOps.cmpf (F := Ideal) (φ := .f32) .ogt x (Scalar.ofBits .f32 0x00000000#32)) x
        (FloatOps.mulf (F := Ideal) (φ := .f32) (Scalar.ofBits .f32 0x3C23D70A#32) x)
      = leakyK x := by
  have hs : ∀ b : BitVec 32, Scalar.ofBits (F := Ideal) .f32 b = Ideal.ofBits .f32 b := fun _ => rfl
  rw [Ideal.cmpf_def, hs, hs, Ideal.ofBits_zero_f32]
  unfold leakyK Scalar.select Ideal.cmp
  by_cases h : 0 < x
  · rw [if_pos h, decide_eq_true h]; rfl
  · rw [if_neg h, decide_eq_false h]; rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def combineArr {n : ℕ} (agg hlin : (⟨2, ![n, 32]⟩ : Shape).Idx → EReal) (dinv : (⟨2, ![n, 1]⟩ : Shape).Idx → EReal)
    (bias : (⟨2, ![1, 32]⟩ : Shape).Idx → EReal) : (⟨2, ![n, 32]⟩ : Shape).Idx → EReal :=
  fun i => leakyK ((agg i + hlin i * (dinv (ix2 ⟨(i 0).val, idx2_lt0 i⟩ (0 : Fin 1)) * dinv (ix2 ⟨(i 0).val, idx2_lt0 i⟩ (0 : Fin 1))))
    + bias (ix2 (0 : Fin 1) ⟨(i 1).val, idx2_lt1 i⟩))

theorem combineArr_apply {n : ℕ} (agg hlin : (⟨2, ![n, 32]⟩ : Shape).Idx → EReal) (dinv : (⟨2, ![n, 1]⟩ : Shape).Idx → EReal)
    (bias : (⟨2, ![1, 32]⟩ : Shape).Idx → EReal) (p : Fin n) (q : Fin 32) :
    combineArr agg hlin dinv bias (ix2 p q)
      = leakyK ((agg (ix2 p q) + hlin (ix2 p q) * (dinv (ix2 p (0 : Fin 1)) * dinv (ix2 p (0 : Fin 1)))) + bias (ix2 (0 : Fin 1) q)) := rfl

theorem hz : (![0, 0] : Fin 2 → Nat) = fun _ => 0 := funext fun a => by fin_cases a <;> rfl

end Cert.KernelIdeal.Val

end
-- ==== Proof.KI.ValCB1.lean ====
import proofs.«423851_j31086973288655_1_alg».proof.Proof.KI.Reg1
import proofs.«423851_j31086973288655_1_alg».proof.Proof.KI.ValCBCore

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem pay_cb1 (x2 : S2048x1.Idx → EReal) (x1 x0 : S2048x32.Idx → EReal) (x3 : S1x32.Idx → EReal) :
    k1_pay1 (F := Ideal) x2 x1 x0 x3 = combineArr x0 x1 x2 x3 := by
  funext y
  obtain ⟨p, q, rfl⟩ : ∃ (p : Fin 2048) (q : Fin 32), y = ix2 p q := ⟨y 0, y 1, eq_ix2 y⟩
  rw [combineArr_apply]
  unfold k1_pay1
  simp only [shapeCast_self]
  refine Eq.trans ?_ (leaky_select _)
  show Scalar.select _ _ _ = Scalar.select _ _ _
  have hc : broadcastTo S2048x32 (mulf (F := Ideal) (φ := .f32) x2 x2) broadcasts_S2048x1_S2048x32 (ix2 p q)
      = x2 (ix2 p (0 : Fin 1)) * x2 (ix2 p (0 : Fin 1)) :=
    broadcastTo_a1_ab_apply (mulf (F := Ideal) (φ := .f32) x2 x2) broadcasts_S2048x1_S2048x32 p q
  have hr : broadcastTo S2048x32 x3 broadcasts_S1x32_S2048x32 (ix2 p q) = x3 (ix2 (0 : Fin 1) q) :=
    broadcastTo_1b_ab_apply x3 broadcasts_S1x32_S2048x32 p q
  simp only [select_apply, cmpf_apply, mulf_apply, addf_apply, broadcast_apply, hc, hr]
  rfl

abbrev agg_cb1 (c : Dev nD) : S100352x32.Idx → EReal := V c main_v48
abbrev hlin_cb1 (c : Dev nD) : S100352x32.Idx → EReal := V c main_v19
abbrev dinv_cb1 (c : Dev nD) : S100352x1.Idx → EReal := V c main_v15
abbrev bias_cb1 (c : Dev nD) : S1x32.Idx → EReal := V c main_v49

abbrev aggB_cb1 (c : Dev nD) (t : Fin cfg1.N) : S2048x32.Idx → EReal := iblk1 V c 0 t
abbrev hlinB_cb1 (c : Dev nD) (t : Fin cfg1.N) : S2048x32.Idx → EReal := iblk1 V c 1 t
abbrev dinvB_cb1 (c : Dev nD) (t : Fin cfg1.N) : S2048x1.Idx → EReal := iblk1 V c 2 t
abbrev biasB_cb1 (c : Dev nD) (t : Fin cfg1.N) : S1x32.Idx → EReal := iblk1 V c 3 t

abbrev G_cb1 (c : Dev nD) : S100352x32.Idx → EReal :=
  combineArr (agg_cb1 V c) (hlin_cb1 V c) (dinv_cb1 V c) (bias_cb1 V c)

theorem idx_cb1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem aggB_apply_cb1 (c : Dev nD) (t : Fin cfg1.N) (p : Fin 2048) (q : Fin 32) (r : Fin 100352)
    (hr : r.val = 2048 * t.val + p.val) : aggB_cb1 V c t (ix2 p q) = agg_cb1 V c (ix2 r q) := by
  obtain ⟨e0, e1, -⟩ := idx_cb1 t
  show V c main_v48 (((cfg1.win 0).blk t).view.emb (ix2 p q)) = V c main_v48 (ix2 r q)
  refine congrArg (V c main_v48) (funext fun a => Fin.ext ?_)
  match a with
  | ⟨0, _⟩ => show win1_0.index t (0 : Fin 2) * 2048 + 1 * p.val = r.val; rw [e0, hr]; omega
  | ⟨1, _⟩ => show win1_0.index t (1 : Fin 2) * 32 + 1 * q.val = q.val; rw [e1]; omega

theorem hlinB_apply_cb1 (c : Dev nD) (t : Fin cfg1.N) (p : Fin 2048) (q : Fin 32) (r : Fin 100352)
    (hr : r.val = 2048 * t.val + p.val) : hlinB_cb1 V c t (ix2 p q) = hlin_cb1 V c (ix2 r q) := by
  obtain ⟨-, -, e0, e1, -⟩ := idx_cb1 t
  show V c main_v19 (((cfg1.win 1).blk t).view.emb (ix2 p q)) = V c main_v19 (ix2 r q)
  refine congrArg (V c main_v19) (funext fun a => Fin.ext ?_)
  match a with
  | ⟨0, _⟩ => show win1_1.index t (0 : Fin 2) * 2048 + 1 * p.val = r.val; rw [e0, hr]; omega
  | ⟨1, _⟩ => show win1_1.index t (1 : Fin 2) * 32 + 1 * q.val = q.val; rw [e1]; omega

theorem dinvB_apply_cb1 (c : Dev nD) (t : Fin cfg1.N) (p : Fin 2048) (r : Fin 100352)
    (hr : r.val = 2048 * t.val + p.val) :
    dinvB_cb1 V c t (ix2 p (0 : Fin 1)) = dinv_cb1 V c (ix2 r (0 : Fin 1)) := by
  obtain ⟨-, -, -, -, e0, e1, -⟩ := idx_cb1 t
  show V c main_v15 (((cfg1.win 2).blk t).view.emb (ix2 p (0 : Fin 1))) = V c main_v15 (ix2 r (0 : Fin 1))
  refine congrArg (V c main_v15) (funext fun a => Fin.ext ?_)
  match a with
  | ⟨0, _⟩ => show win1_2.index t (0 : Fin 2) * 2048 + 1 * p.val = r.val; rw [e0, hr]; omega
  | ⟨1, _⟩ => show win1_2.index t (1 : Fin 2) * 1 + 1 * 0 = 0; rw [e1]

theorem biasB_apply_cb1 (c : Dev nD) (t : Fin cfg1.N) (q : Fin 32) :
    biasB_cb1 V c t (ix2 (0 : Fin 1) q) = bias_cb1 V c (ix2 (0 : Fin 1) q) := by
  obtain ⟨-, -, -, -, -, -, e0, e1, -⟩ := idx_cb1 t
  show V c main_v49 (((cfg1.win 3).blk t).view.emb (ix2 (0 : Fin 1) q)) = V c main_v49 (ix2 (0 : Fin 1) q)
  refine congrArg (V c main_v49) (funext fun a => Fin.ext ?_)
  match a with
  | ⟨0, _⟩ => show win1_3.index t (0 : Fin 2) * 1 + 1 * 0 = 0; rw [e0]
  | ⟨1, _⟩ => show win1_3.index t (1 : Fin 2) * 32 + 1 * q.val = q.val; rw [e1]; omega

theorem emb_cb1 (t : Fin cfg1.N) (p : Fin 2048) (q : Fin 32) (r : Fin 100352) (hr : r.val = 2048 * t.val + p.val) :
    ((cfg1.win 4).blk t).view.emb (ix2 p q) = (ix2 r q : S100352x32.Idx) := by
  obtain ⟨-, -, -, -, -, -, -, -, e0, e1⟩ := idx_cb1 t
  refine funext fun a => Fin.ext ?_
  match a with
  | ⟨0, _⟩ => show win1_4.index t (0 : Fin 2) * 2048 + 1 * p.val = r.val; rw [e0, hr]; omega
  | ⟨1, _⟩ => show win1_4.index t (1 : Fin 2) * 32 + 1 * q.val = q.val; rw [e1]; omega

theorem flushed_cb1 (c : Dev nD) (t : Fin cfg1.N) :
    (dat1 (F := Ideal) V c).flushed 4 t = ((cfg1.win 4).blk t).view.read (Elt Ideal) (G_cb1 V c) := by
  show (cfg1.win 4).cut (grid1.coords t) ((dat1 (F := Ideal) V c).after 4 t) = _
  rw [after1_4]
  unfold out1_4
  rw [View.canon_unit_zero hz]
  simp only [View.ld_unit_zero (S := S2048x32) hz, View.ld_unit_zero (S := S2048x1) hz, View.ld_unit_zero (S := S1x32) hz]
  have ht : t.val < 49 := lt_of_lt_of_eq t.isLt N_1
  refine funext fun (y : S2048x32.Idx) => ?_
  obtain ⟨p, q, rfl⟩ : ∃ (p : Fin 2048) (q : Fin 32), y = ix2 p q := ⟨y 0, y 1, eq_ix2 y⟩
  obtain ⟨r, hr⟩ : ∃ r : Fin 100352, r.val = 2048 * t.val + p.val := ⟨⟨2048 * t.val + p.val, by have := p.isLt; omega⟩, rfl⟩
  show k1_pay1 (F := Ideal) (dinvB_cb1 V c t) (hlinB_cb1 V c t) (aggB_cb1 V c t) (biasB_cb1 V c t) (ix2 p q)
      = G_cb1 V c (((cfg1.win 4).blk t).view.emb (ix2 p q))
  refine (congrFun (pay_cb1 (dinvB_cb1 V c t) (hlinB_cb1 V c t) (aggB_cb1 V c t) (biasB_cb1 V c t)) (ix2 p q)).trans ?_
  refine Eq.trans ?_ (congrArg (combineArr (agg_cb1 V c) (hlin_cb1 V c) (dinv_cb1 V c) (bias_cb1 V c)) (emb_cb1 t p q r hr).symm)
  rw [combineArr_apply, combineArr_apply, aggB_apply_cb1 V c t p q r hr, hlinB_apply_cb1 V c t p q r hr,
    dinvB_apply_cb1 V c t p r hr, biasB_apply_cb1 V c t q]

theorem mem_blk_cb1 (t : Fin cfg1.N) (i : S100352x32.Idx) :
    i ∈ ((cfg1.win 4).blk t).view.set ↔ ∀ a : Fin 2, win1_4.index t a * S2048x32.size a ≤ (i a).val
      ∧ (i a).val < win1_4.index t a * S2048x32.size a + S2048x32.size a := by
  show i ∈ ((View.whole main_v50).slice (win1_4.rect t)).set ↔ _
  rw [View.set_slice_whole, Rect.mem_set_unit]
  exact Iff.rfl

theorem cover_cb1 (i : S100352x32.Idx) :
    ∃ t : Fin cfg1.N, (cfg1.win 4).flush t = true ∧ i ∈ ((cfg1.win 4).blk t).view.set := by
  have hi0 : (i 0).val < 100352 := idx2_lt0 i
  have hi1 : (i 1).val < 32 := idx2_lt1 i
  have hN : cfg1.N = 49 := N_1
  obtain ⟨t, ht⟩ : ∃ t : Fin cfg1.N, t.val = (i 0).val / 2048 := ⟨⟨(i 0).val / 2048, by rw [hN]; omega⟩, rfl⟩
  obtain ⟨-, -, -, -, -, -, -, -, e0, e1⟩ := idx_cb1 t
  refine ⟨t, flush1_4 t, ?_⟩
  rw [mem_blk_cb1]
  intro a
  match a with
  | ⟨0, _⟩ =>
    show win1_4.index t (0 : Fin 2) * 2048 ≤ (i 0).val ∧ (i 0).val < win1_4.index t (0 : Fin 2) * 2048 + 2048
    rw [e0, ht]; omega
  | ⟨1, _⟩ =>
    show win1_4.index t (1 : Fin 2) * 32 ≤ (i 1).val ∧ (i 1).val < win1_4.index t (1 : Fin 2) * 32 + 32
    rw [e1]; omega

theorem arrAt_cb1 (c : Dev nD) : (dat1 (F := Ideal) V c).arrAt 4 cfg1.N = G_cb1 V c :=
  (dat1 (F := Ideal) V c).arrAt_eq_of_cover 4 (G_cb1 V c) (fun t _ => flushed_cb1 V c t) cover_cb1

theorem arr_cb1 (c : Dev nD) (i : Fin 100352) (j : Fin 32) :
    ((dat1 (F := Ideal) V c).arrAt 4 cfg1.N : S100352x32.Idx → EReal) (ix2 i j)
      = leakyK ((agg_cb1 V c (ix2 i j) + hlin_cb1 V c (ix2 i j) * (dinv_cb1 V c (ix2 i (0 : Fin 1)) * dinv_cb1 V c (ix2 i (0 : Fin 1))))
          + bias_cb1 V c (ix2 (0 : Fin 1) j)) :=
  (congrFun (arrAt_cb1 V c) (ix2 i j)).trans (combineArr_apply _ _ _ _ i j)

end Cert.KernelIdeal.Val

end
-- ==== Proof.KI.ValCB4.lean ====
import proofs.«423851_j31086973288655_1_alg».proof.Proof.KI.Reg4
import proofs.«423851_j31086973288655_1_alg».proof.Proof.KI.ValCBCore
import proofs.«423851_j31086973288655_1_alg».proof.Proof.KI.ValCB1

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem pay_cb4 (x2 : S2048x1.Idx → EReal) (x1 x0 : S2048x32.Idx → EReal) (x3 : S1x32.Idx → EReal) :
    k4_pay1 (F := Ideal) x2 x1 x0 x3 = combineArr x0 x1 x2 x3 :=
  pay_cb1 x2 x1 x0 x3

abbrev agg_cb4 (c : Dev nD) : S100352x32.Idx → EReal := V c main_v84
abbrev hlin_cb4 (c : Dev nD) : S100352x32.Idx → EReal := V c main_v55
abbrev dinv_cb4 (c : Dev nD) : S100352x1.Idx → EReal := V c main_v15
abbrev bias_cb4 (c : Dev nD) : S1x32.Idx → EReal := V c main_v85

abbrev aggB_cb4 (c : Dev nD) (t : Fin cfg4.N) : S2048x32.Idx → EReal := iblk4 V c 0 t
abbrev hlinB_cb4 (c : Dev nD) (t : Fin cfg4.N) : S2048x32.Idx → EReal := iblk4 V c 1 t
abbrev dinvB_cb4 (c : Dev nD) (t : Fin cfg4.N) : S2048x1.Idx → EReal := iblk4 V c 2 t
abbrev biasB_cb4 (c : Dev nD) (t : Fin cfg4.N) : S1x32.Idx → EReal := iblk4 V c 3 t

abbrev G_cb4 (c : Dev nD) : S100352x32.Idx → EReal :=
  combineArr (agg_cb4 V c) (hlin_cb4 V c) (dinv_cb4 V c) (bias_cb4 V c)

theorem idx_cb4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  idx_cb1

theorem aggB_apply_cb4 (c : Dev nD) (t : Fin cfg4.N) (p : Fin 2048) (q : Fin 32) (r : Fin 100352)
    (hr : r.val = 2048 * t.val + p.val) : aggB_cb4 V c t (ix2 p q) = agg_cb4 V c (ix2 r q) := by
  obtain ⟨e0, e1, -⟩ := idx_cb4 t
  show V c main_v84 (((cfg4.win 0).blk t).view.emb (ix2 p q)) = V c main_v84 (ix2 r q)
  refine congrArg (V c main_v84) (funext fun a => Fin.ext ?_)
  match a with
  | ⟨0, _⟩ => show win4_0.index t (0 : Fin 2) * 2048 + 1 * p.val = r.val; rw [e0, hr]; omega
  | ⟨1, _⟩ => show win4_0.index t (1 : Fin 2) * 32 + 1 * q.val = q.val; rw [e1]; omega

theorem hlinB_apply_cb4 (c : Dev nD) (t : Fin cfg4.N) (p : Fin 2048) (q : Fin 32) (r : Fin 100352)
    (hr : r.val = 2048 * t.val + p.val) : hlinB_cb4 V c t (ix2 p q) = hlin_cb4 V c (ix2 r q) := by
  obtain ⟨-, -, e0, e1, -⟩ := idx_cb4 t
  show V c main_v55 (((cfg4.win 1).blk t).view.emb (ix2 p q)) = V c main_v55 (ix2 r q)
  refine congrArg (V c main_v55) (funext fun a => Fin.ext ?_)
  match a with
  | ⟨0, _⟩ => show win4_1.index t (0 : Fin 2) * 2048 + 1 * p.val = r.val; rw [e0, hr]; omega
  | ⟨1, _⟩ => show win4_1.index t (1 : Fin 2) * 32 + 1 * q.val = q.val; rw [e1]; omega

theorem dinvB_apply_cb4 (c : Dev nD) (t : Fin cfg4.N) (p : Fin 2048) (r : Fin 100352)
    (hr : r.val = 2048 * t.val + p.val) :
    dinvB_cb4 V c t (ix2 p (0 : Fin 1)) = dinv_cb4 V c (ix2 r (0 : Fin 1)) := by
  obtain ⟨-, -, -, -, e0, e1, -⟩ := idx_cb4 t
  show V c main_v15 (((cfg4.win 2).blk t).view.emb (ix2 p (0 : Fin 1))) = V c main_v15 (ix2 r (0 : Fin 1))
  refine congrArg (V c main_v15) (funext fun a => Fin.ext ?_)
  match a with
  | ⟨0, _⟩ => show win4_2.index t (0 : Fin 2) * 2048 + 1 * p.val = r.val; rw [e0, hr]; omega
  | ⟨1, _⟩ => show win4_2.index t (1 : Fin 2) * 1 + 1 * 0 = 0; rw [e1]

theorem biasB_apply_cb4 (c : Dev nD) (t : Fin cfg4.N) (q : Fin 32) :
    biasB_cb4 V c t (ix2 (0 : Fin 1) q) = bias_cb4 V c (ix2 (0 : Fin 1) q) := by
  obtain ⟨-, -, -, -, -, -, e0, e1, -⟩ := idx_cb4 t
  show V c main_v85 (((cfg4.win 3).blk t).view.emb (ix2 (0 : Fin 1) q)) = V c main_v85 (ix2 (0 : Fin 1) q)
  refine congrArg (V c main_v85) (funext fun a => Fin.ext ?_)
  match a with
  | ⟨0, _⟩ => show win4_3.index t (0 : Fin 2) * 1 + 1 * 0 = 0; rw [e0]
  | ⟨1, _⟩ => show win4_3.index t (1 : Fin 2) * 32 + 1 * q.val = q.val; rw [e1]; omega

theorem emb_cb4 (t : Fin cfg4.N) (p : Fin 2048) (q : Fin 32) (r : Fin 100352) (hr : r.val = 2048 * t.val + p.val) :
    ((cfg4.win 4).blk t).view.emb (ix2 p q) = (ix2 r q : S100352x32.Idx) :=
  emb_cb1 t p q r hr

theorem flushed_cb4 (c : Dev nD) (t : Fin cfg4.N) :
    (dat4 (F := Ideal) V c).flushed 4 t = ((cfg4.win 4).blk t).view.read (Elt Ideal) (G_cb4 V c) := by
  show (cfg4.win 4).cut (grid4.coords t) ((dat4 (F := Ideal) V c).after 4 t) = _
  rw [after4_4]
  unfold out4_4
  rw [View.canon_unit_zero hz]
  simp only [View.ld_unit_zero (S := S2048x32) hz, View.ld_unit_zero (S := S2048x1) hz, View.ld_unit_zero (S := S1x32) hz]
  have ht : t.val < 49 := lt_of_lt_of_eq t.isLt N_4
  refine funext fun (y : S2048x32.Idx) => ?_
  obtain ⟨p, q, rfl⟩ : ∃ (p : Fin 2048) (q : Fin 32), y = ix2 p q := ⟨y 0, y 1, eq_ix2 y⟩
  obtain ⟨r, hr⟩ : ∃ r : Fin 100352, r.val = 2048 * t.val + p.val := ⟨⟨2048 * t.val + p.val, by have := p.isLt; omega⟩, rfl⟩
  show k4_pay1 (F := Ideal) (dinvB_cb4 V c t) (hlinB_cb4 V c t) (aggB_cb4 V c t) (biasB_cb4 V c t) (ix2 p q)
      = G_cb4 V c (((cfg4.win 4).blk t).view.emb (ix2 p q))
  refine (congrFun (pay_cb4 (dinvB_cb4 V c t) (hlinB_cb4 V c t) (aggB_cb4 V c t) (biasB_cb4 V c t)) (ix2 p q)).trans ?_
  refine Eq.trans ?_ (congrArg (combineArr (agg_cb4 V c) (hlin_cb4 V c) (dinv_cb4 V c) (bias_cb4 V c)) (emb_cb4 t p q r hr).symm)
  rw [combineArr_apply, combineArr_apply, aggB_apply_cb4 V c t p q r hr, hlinB_apply_cb4 V c t p q r hr,
    dinvB_apply_cb4 V c t p r hr, biasB_apply_cb4 V c t q]

theorem cover_cb4 (i : S100352x32.Idx) :
    ∃ t : Fin cfg4.N, (cfg4.win 4).flush t = true ∧ i ∈ ((cfg4.win 4).blk t).view.set :=
  cover_cb1 i

theorem arrAt_cb4 (c : Dev nD) : (dat4 (F := Ideal) V c).arrAt 4 cfg4.N = G_cb4 V c :=
  (dat4 (F := Ideal) V c).arrAt_eq_of_cover 4 (G_cb4 V c) (fun t _ => flushed_cb4 V c t) cover_cb4

theorem arr_cb4 (c : Dev nD) (i : Fin 100352) (j : Fin 32) :
    ((dat4 (F := Ideal) V c).arrAt 4 cfg4.N : S100352x32.Idx → EReal) (ix2 i j)
      = leakyK ((agg_cb4 V c (ix2 i j) + hlin_cb4 V c (ix2 i j) * (dinv_cb4 V c (ix2 i (0 : Fin 1)) * dinv_cb4 V c (ix2 i (0 : Fin 1))))
          + bias_cb4 V c (ix2 (0 : Fin 1) j)) :=
  (congrFun (arrAt_cb4 V c) (ix2 i j)).trans (combineArr_apply _ _ _ _ i j)

end Cert.KernelIdeal.Val

end
-- ==== Proof.KI.ValCB7.lean ====
import proofs.«423851_j31086973288655_1_alg».proof.Proof.KI.Reg7
import proofs.«423851_j31086973288655_1_alg».proof.Proof.KI.ValCBCore
import proofs.«423851_j31086973288655_1_alg».proof.Proof.KI.ValCB1

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem pay_cb7 (x2 : S2048x1.Idx → EReal) (x1 x0 : S2048x32.Idx → EReal) (x3 : S1x32.Idx → EReal) :
    k7_pay1 (F := Ideal) x2 x1 x0 x3 = combineArr x0 x1 x2 x3 :=
  pay_cb1 x2 x1 x0 x3

abbrev agg_cb7 (c : Dev nD) : S100352x32.Idx → EReal := V c main_v120
abbrev hlin_cb7 (c : Dev nD) : S100352x32.Idx → EReal := V c main_v91
abbrev dinv_cb7 (c : Dev nD) : S100352x1.Idx → EReal := V c main_v15
abbrev bias_cb7 (c : Dev nD) : S1x32.Idx → EReal := V c main_v121

abbrev aggB_cb7 (c : Dev nD) (t : Fin cfg7.N) : S2048x32.Idx → EReal := iblk7 V c 0 t
abbrev hlinB_cb7 (c : Dev nD) (t : Fin cfg7.N) : S2048x32.Idx → EReal := iblk7 V c 1 t
abbrev dinvB_cb7 (c : Dev nD) (t : Fin cfg7.N) : S2048x1.Idx → EReal := iblk7 V c 2 t
abbrev biasB_cb7 (c : Dev nD) (t : Fin cfg7.N) : S1x32.Idx → EReal := iblk7 V c 3 t

abbrev G_cb7 (c : Dev nD) : S100352x32.Idx → EReal :=
  combineArr (agg_cb7 V c) (hlin_cb7 V c) (dinv_cb7 V c) (bias_cb7 V c)

theorem idx_cb7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  idx_cb1

theorem aggB_apply_cb7 (c : Dev nD) (t : Fin cfg7.N) (p : Fin 2048) (q : Fin 32) (r : Fin 100352)
    (hr : r.val = 2048 * t.val + p.val) : aggB_cb7 V c t (ix2 p q) = agg_cb7 V c (ix2 r q) := by
  obtain ⟨e0, e1, -⟩ := idx_cb7 t
  show V c main_v120 (((cfg7.win 0).blk t).view.emb (ix2 p q)) = V c main_v120 (ix2 r q)
  refine congrArg (V c main_v120) (funext fun a => Fin.ext ?_)
  match a with
  | ⟨0, _⟩ => show win7_0.index t (0 : Fin 2) * 2048 + 1 * p.val = r.val; rw [e0, hr]; omega
  | ⟨1, _⟩ => show win7_0.index t (1 : Fin 2) * 32 + 1 * q.val = q.val; rw [e1]; omega

theorem hlinB_apply_cb7 (c : Dev nD) (t : Fin cfg7.N) (p : Fin 2048) (q : Fin 32) (r : Fin 100352)
    (hr : r.val = 2048 * t.val + p.val) : hlinB_cb7 V c t (ix2 p q) = hlin_cb7 V c (ix2 r q) := by
  obtain ⟨-, -, e0, e1, -⟩ := idx_cb7 t
  show V c main_v91 (((cfg7.win 1).blk t).view.emb (ix2 p q)) = V c main_v91 (ix2 r q)
  refine congrArg (V c main_v91) (funext fun a => Fin.ext ?_)
  match a with
  | ⟨0, _⟩ => show win7_1.index t (0 : Fin 2) * 2048 + 1 * p.val = r.val; rw [e0, hr]; omega
  | ⟨1, _⟩ => show win7_1.index t (1 : Fin 2) * 32 + 1 * q.val = q.val; rw [e1]; omega

theorem dinvB_apply_cb7 (c : Dev nD) (t : Fin cfg7.N) (p : Fin 2048) (r : Fin 100352)
    (hr : r.val = 2048 * t.val + p.val) :
    dinvB_cb7 V c t (ix2 p (0 : Fin 1)) = dinv_cb7 V c (ix2 r (0 : Fin 1)) := by
  obtain ⟨-, -, -, -, e0, e1, -⟩ := idx_cb7 t
  show V c main_v15 (((cfg7.win 2).blk t).view.emb (ix2 p (0 : Fin 1))) = V c main_v15 (ix2 r (0 : Fin 1))
  refine congrArg (V c main_v15) (funext fun a => Fin.ext ?_)
  match a with
  | ⟨0, _⟩ => show win7_2.index t (0 : Fin 2) * 2048 + 1 * p.val = r.val; rw [e0, hr]; omega
  | ⟨1, _⟩ => show win7_2.index t (1 : Fin 2) * 1 + 1 * 0 = 0; rw [e1]

theorem biasB_apply_cb7 (c : Dev nD) (t : Fin cfg7.N) (q : Fin 32) :
    biasB_cb7 V c t (ix2 (0 : Fin 1) q) = bias_cb7 V c (ix2 (0 : Fin 1) q) := by
  obtain ⟨-, -, -, -, -, -, e0, e1, -⟩ := idx_cb7 t
  show V c main_v121 (((cfg7.win 3).blk t).view.emb (ix2 (0 : Fin 1) q)) = V c main_v121 (ix2 (0 : Fin 1) q)
  refine congrArg (V c main_v121) (funext fun a => Fin.ext ?_)
  match a with
  | ⟨0, _⟩ => show win7_3.index t (0 : Fin 2) * 1 + 1 * 0 = 0; rw [e0]
  | ⟨1, _⟩ => show win7_3.index t (1 : Fin 2) * 32 + 1 * q.val = q.val; rw [e1]; omega

theorem emb_cb7 (t : Fin cfg7.N) (p : Fin 2048) (q : Fin 32) (r : Fin 100352) (hr : r.val = 2048 * t.val + p.val) :
    ((cfg7.win 4).blk t).view.emb (ix2 p q) = (ix2 r q : S100352x32.Idx) :=
  emb_cb1 t p q r hr

theorem flushed_cb7 (c : Dev nD) (t : Fin cfg7.N) :
    (dat7 (F := Ideal) V c).flushed 4 t = ((cfg7.win 4).blk t).view.read (Elt Ideal) (G_cb7 V c) := by
  show (cfg7.win 4).cut (grid7.coords t) ((dat7 (F := Ideal) V c).after 4 t) = _
  rw [after7_4]
  unfold out7_4
  rw [View.canon_unit_zero hz]
  simp only [View.ld_unit_zero (S := S2048x32) hz, View.ld_unit_zero (S := S2048x1) hz, View.ld_unit_zero (S := S1x32) hz]
  have ht : t.val < 49 := lt_of_lt_of_eq t.isLt N_7
  refine funext fun (y : S2048x32.Idx) => ?_
  obtain ⟨p, q, rfl⟩ : ∃ (p : Fin 2048) (q : Fin 32), y = ix2 p q := ⟨y 0, y 1, eq_ix2 y⟩
  obtain ⟨r, hr⟩ : ∃ r : Fin 100352, r.val = 2048 * t.val + p.val := ⟨⟨2048 * t.val + p.val, by have := p.isLt; omega⟩, rfl⟩
  show k7_pay1 (F := Ideal) (dinvB_cb7 V c t) (hlinB_cb7 V c t) (aggB_cb7 V c t) (biasB_cb7 V c t) (ix2 p q)
      = G_cb7 V c (((cfg7.win 4).blk t).view.emb (ix2 p q))
  refine (congrFun (pay_cb7 (dinvB_cb7 V c t) (hlinB_cb7 V c t) (aggB_cb7 V c t) (biasB_cb7 V c t)) (ix2 p q)).trans ?_
  refine Eq.trans ?_ (congrArg (combineArr (agg_cb7 V c) (hlin_cb7 V c) (dinv_cb7 V c) (bias_cb7 V c)) (emb_cb7 t p q r hr).symm)
  rw [combineArr_apply, combineArr_apply, aggB_apply_cb7 V c t p q r hr, hlinB_apply_cb7 V c t p q r hr,
    dinvB_apply_cb7 V c t p r hr, biasB_apply_cb7 V c t q]

theorem cover_cb7 (i : S100352x32.Idx) :
    ∃ t : Fin cfg7.N, (cfg7.win 4).flush t = true ∧ i ∈ ((cfg7.win 4).blk t).view.set :=
  cover_cb1 i

theorem arrAt_cb7 (c : Dev nD) : (dat7 (F := Ideal) V c).arrAt 4 cfg7.N = G_cb7 V c :=
  (dat7 (F := Ideal) V c).arrAt_eq_of_cover 4 (G_cb7 V c) (fun t _ => flushed_cb7 V c t) cover_cb7

theorem arr_cb7 (c : Dev nD) (i : Fin 100352) (j : Fin 32) :
    ((dat7 (F := Ideal) V c).arrAt 4 cfg7.N : S100352x32.Idx → EReal) (ix2 i j)
      = leakyK ((agg_cb7 V c (ix2 i j) + hlin_cb7 V c (ix2 i j) * (dinv_cb7 V c (ix2 i (0 : Fin 1)) * dinv_cb7 V c (ix2 i (0 : Fin 1))))
          + bias_cb7 V c (ix2 (0 : Fin 1) j)) :=
  (congrFun (arrAt_cb7 V c) (ix2 i j)).trans (combineArr_apply _ _ _ _ i j)

end Cert.KernelIdeal.Val

end
-- ==== Proof.KI.ValCB.lean ====
import proofs.«423851_j31086973288655_1_alg».proof.Proof.KI.ValCB1
import proofs.«423851_j31086973288655_1_alg».proof.Proof.KI.ValCB4
import proofs.«423851_j31086973288655_1_alg».proof.Proof.KI.ValCB7
-- ==== Proof.KI.ValPoolCore.lean ====
import proofs.«423851_j31086973288655_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Idealize.ShloMosaic Idealize.ShloMosaic.ValueIdx
open scoped BigOperators

theorem onehot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : IntOp.cmpi .eq x y = 1#1 := by
      show BitVec.ofBool (x == y) = 1#1
      rw [beq_iff_eq.mpr h]; rfl
    have e2 : ((1#1 : BitVec 1).setWidth 32).toInt = 1 := by decide
    rw [if_pos h, e, e2, Int.cast_one, EReal.coe_one]
  · have e : IntOp.cmpi .eq x y = 0#1 := by
      show BitVec.ofBool (x == y) = 0#1
      rw [beq_eq_false_iff_ne.mpr h]; rfl
    have e2 : ((0#1 : BitVec 1).setWidth 32).toInt = 0 := by decide
    rw [if_neg h, e, e2, Int.cast_zero, EReal.coe_zero]

theorem lhs_pool_0 (i : S128x32.Idx) (q : dot_S128x2048_S2048x32_S128x32_1_0_0_1_n_n.contr.Idx) :
    (dot_S128x2048_S2048x32_S128x32_1_0_0_1_n_n.lhsIdx i q 0).val = (i 0).val := by
  unfold DotDims.lhsIdx
  rw [dif_neg (show ¬(0 : Fin S128x2048.rank) ∈ dot_S128x2048_S2048x32_S128x32_1_0_0_1_n_n.lhsBatch by decide),
    dif_pos (show (0 : Fin S128x2048.rank) ∈ dot_S128x2048_S2048x32_S128x32_1_0_0_1_n_n.lhsNonContracting by decide)]
  rfl

theorem lhs_pool_1 (i : S128x32.Idx) (q : dot_S128x2048_S2048x32_S128x32_1_0_0_1_n_n.contr.Idx) :
    (dot_S128x2048_S2048x32_S128x32_1_0_0_1_n_n.lhsIdx i q 1).val = (q ⟨0, by decide⟩).val :=
  dot_S128x2048_S2048x32_S128x32_1_0_0_1_n_n.lhsIdx_val_of_single rfl i q

theorem rhs_pool_0 (i : S128x32.Idx) (q : dot_S128x2048_S2048x32_S128x32_1_0_0_1_n_n.contr.Idx) :
    (dot_S128x2048_S2048x32_S128x32_1_0_0_1_n_n.rhsIdx i q 0).val = (q ⟨0, by decide⟩).val :=
  dot_S128x2048_S2048x32_S128x32_1_0_0_1_n_n.rhsIdx_val_of_single rfl i q

theorem rhs_pool_1 (i : S128x32.Idx) (q : dot_S128x2048_S2048x32_S128x32_1_0_0_1_n_n.contr.Idx) :
    (dot_S128x2048_S2048x32_S128x32_1_0_0_1_n_n.rhsIdx i q 1).val = (i 1).val := by
  unfold DotDims.rhsIdx
  rw [dif_neg (show ¬(1 : Fin S2048x32.rank) ∈ dot_S128x2048_S2048x32_S128x32_1_0_0_1_n_n.rhsBatch by decide),
    dif_pos (show (1 : Fin S2048x32.rank) ∈ dot_S128x2048_S2048x32_S128x32_1_0_0_1_n_n.rhsNonContracting by decide)]
  rfl

theorem pool_matmul_apply {φ₁ φ₂ : FTy} (A : FVec Ideal S128x2048 φ₁) (B : FVec Ideal S2048x32 φ₂) (g : Fin 128) (j : Fin 32) :
    matmul (F := Ideal) dot_S128x2048_S2048x32_S128x32_1_0_0_1_n_n none A B (constant (F := Ideal) S128x32 .f32 0x00000000#32) (ix2 g j)
      = ∑ r : Fin 2048, A (ix2 g r) * B (ix2 r j) := by
  show FloatOps.matmul dot_S128x2048_S2048x32_S128x32_1_0_0_1_n_n none A B (constant (F := Ideal) S128x32 .f32 0x00000000#32) (ix2 g j) = _
  rw [Ideal.matmul_constant_zero_apply,
    ← Equiv.sum_comp (contrEquiv1 dot_S128x2048_S2048x32_S128x32_1_0_0_1_n_n 2048 rfl rfl).symm]
  refine Finset.sum_congr rfl fun k _ => ?_
  have hk := contrEquiv1_symm_val dot_S128x2048_S2048x32_S128x32_1_0_0_1_n_n 2048 rfl rfl k
  have el : dot_S128x2048_S2048x32_S128x32_1_0_0_1_n_n.lhsIdx (ix2 g j)
      ((contrEquiv1 dot_S128x2048_S2048x32_S128x32_1_0_0_1_n_n 2048 rfl rfl).symm k) = ix2 g k := funext fun a => Fin.ext (by
    match a with
    | ⟨0, _⟩ => exact lhs_pool_0 _ _
    | ⟨1, _⟩ => exact (lhs_pool_1 _ _).trans hk)
  have er : dot_S128x2048_S2048x32_S128x32_1_0_0_1_n_n.rhsIdx (ix2 g j)
      ((contrEquiv1 dot_S128x2048_S2048x32_S128x32_1_0_0_1_n_n 2048 rfl rfl).symm k) = ix2 k j := funext fun a => Fin.ext (by
    match a with
    | ⟨0, _⟩ => exact (rhs_pool_0 _ _).trans hk
    | ⟨1, _⟩ => exact rhs_pool_1 _ _)
  rw [el, er]

theorem onehot_apply (v4 : Vec Ideal S1x2048 .i32) (g : Fin 128) (r : Fin 2048) :
    (sitofp (F := Ideal) .f32 (extui 32 (cmpi .eq (iota .tc S128x2048 32 [0] iota_S128x2048_d0_w32)
        (broadcastTo S128x2048 v4 broadcasts_S1x2048_S128x2048)) natLt_1_32) : FVec Ideal S128x2048 .f32) (ix2 g r)
      = if v4 (ix2 (0 : Fin 1) r) = BitVec.ofNat 32 g.val then 1 else 0 := by
  show FloatOps.sitofp (F := Ideal) .f32 ((IntOp.cmpi .eq (iota .tc S128x2048 32 [0] iota_S128x2048_d0_w32 (ix2 g r))
      (broadcastTo S128x2048 v4 broadcasts_S1x2048_S128x2048 (ix2 g r))).setWidth 32) = _
  rw [iota_single_apply, broadcastTo_1b_ab_apply, onehot_word]
  exact if_congr eq_comm rfl rfl

theorem pool_pay_apply (v4 : Vec Ideal S1x2048 .i32) (v11 : Vec Ideal S2048x32 .f32) (v14 : Vec Ideal S128x32 .f32)
    (g : Fin 128) (j : Fin 32) :
    k2_pay2 (F := Ideal) v4 v11 v14 (ix2 g j)
      = v14 (ix2 g j) + ∑ r : Fin 2048, (if v4 (ix2 (0 : Fin 1) r) = BitVec.ofNat 32 g.val then (1 : EReal) else 0) * v11 (ix2 r j) := by
  unfold k2_pay2
  simp only [shapeCast_self]
  refine (addf_apply _ _ _).trans ?_
  congr 1
  refine (pool_matmul_apply _ _ g j).trans ?_
  refine Finset.sum_congr rfl fun r _ => ?_
  refine congrArg (· * v11 (ix2 r j)) ?_
  exact onehot_apply v4 g r

theorem pool_zero_apply (i : S128x32.Idx) : k2_pay1 (F := Ideal) i = 0 := by
  unfold k2_pay1
  simp only [shapeCast_self]
  exact Ideal.ofBits_zero_f32

theorem pool_acc_apply
    (P2 : Vec Ideal S1x2048 .i32 → Vec Ideal S2048x32 .f32 → Vec Ideal S128x32 .f32 → Vec Ideal S128x32 .f32)
    (P1 : Vec Ideal S128x32 .f32) (hP2 : P2 = k2_pay2 (F := Ideal)) (hP1 : P1 = k2_pay1 (F := Ideal)) {N : ℕ}
    (bat : (n : ℕ) → n < N → Vec Ideal S1x2048 .i32) (hb : (n : ℕ) → n < N → Vec Ideal S2048x32 .f32)
    (acc : (n : ℕ) → n < N → Vec Ideal S128x32 .f32)
    (hzero : ∀ h0 : 0 < N, acc 0 h0 = P2 (bat 0 h0) (hb 0 h0) P1)
    (hsucc : ∀ (n : ℕ) (h : n + 1 < N), acc (n + 1) h = P2 (bat (n + 1) h) (hb (n + 1) h) (acc n (Nat.lt_of_succ_lt h)))
    (g : Fin 128) (j : Fin 32) :
    ∀ (n : ℕ) (hn : n < N), acc n hn (ix2 g j)
      = ∑ t : Fin (n + 1), ∑ r : Fin 2048,
          (if bat t.val (Nat.lt_of_le_of_lt (Nat.le_of_lt_succ t.isLt) hn) (ix2 (0 : Fin 1) r) = BitVec.ofNat 32 g.val then (1 : EReal) else 0)
            * hb t.val (Nat.lt_of_le_of_lt (Nat.le_of_lt_succ t.isLt) hn) (ix2 r j)
  | 0, hn => by
    subst hP2 hP1
    rw [hzero hn, pool_pay_apply, pool_zero_apply, zero_add, Fin.sum_univ_one]
    rfl
  | n + 1, hn => by
    have ih := pool_acc_apply P2 P1 hP2 hP1 bat hb acc hzero hsucc g j n (Nat.lt_of_succ_lt hn)
    subst hP2 hP1
    rw [hsucc n hn, pool_pay_apply, ih]
    refine Eq.trans ?_ (Fin.sum_univ_castSucc _).symm
    rfl

def rowEquiv : Fin 49 × Fin 2048 ≃ Fin 100352 where
  toFun p := ⟨2048 * p.1.val + p.2.val, by have := p.1.isLt; have := p.2.isLt; omega⟩
  invFun n := (⟨n.val / 2048, by have := n.isLt; omega⟩, ⟨n.val % 2048, by omega⟩)
  left_inv p := by
    rcases p with ⟨t, r⟩
    have ht := t.isLt
    have hr := r.isLt
    refine Prod.ext (Fin.ext ?_) (Fin.ext ?_)
    · show (2048 * t.val + r.val) / 2048 = t.val
      omega
    · show (2048 * t.val + r.val) % 2048 = r.val
      omega
  right_inv n := Fin.ext (by
    show 2048 * (n.val / 2048) + n.val % 2048 = n.val
    omega)

theorem rowEquiv_val (t : Fin 49) (r : Fin 2048) : (rowEquiv (t, r)).val = 2048 * t.val + r.val := rfl

theorem sum_rows {M : Type*} [AddCommMonoid M] (f : Fin 100352 → M) :
    ∑ n : Fin 100352, f n = ∑ t : Fin 49, ∑ r : Fin 2048, f (rowEquiv (t, r)) := by
  rw [← Equiv.sum_comp rowEquiv f, Fintype.sum_prod_type]

end Cert.KernelIdeal.Val

end
-- ==== Proof.KI.ValPool2.lean ====
import proofs.«423851_j31086973288655_1_alg».proof.Proof.KI.Reg2
import proofs.«423851_j31086973288655_1_alg».proof.Proof.KI.ValPoolCore

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem idx_pool2 : ∀ t : Fin cfg2.N, win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0 :=
  (by decide +kernel : ∀ t : Fin grid2.N, _)

theorem hblk2_apply (c : Dev nD) (t : Fin cfg2.N) (r : Fin 2048) (j : Fin 32) (n : Fin 100352)
    (hn : n.val = 2048 * t.val + r.val) :
    (iblk2 V c 0 t : Vec Ideal S2048x32 .f32) (ix2 r j) = (V c main_v50 : S100352x32.Idx → EReal) (ix2 n j) := by
  obtain ⟨e0, e1, -, -, -, -⟩ := idx_pool2 t
  unfold iblk2
  rw [View.read_apply]
  show V c main_v50 _ = V c main_v50 _
  congr 1
  funext a
  apply Fin.ext
  match a with
  | ⟨0, _⟩ => show win2_0.index t (0 : Fin 2) * 2048 + 1 * r.val = n.val; rw [e0, hn]; omega
  | ⟨1, _⟩ => show win2_0.index t (1 : Fin 2) * 32 + 1 * j.val = j.val; rw [e1]; omega

theorem bblk2_apply (c : Dev nD) (t : Fin cfg2.N) (r : Fin 2048) (n : Fin 100352)
    (hn : n.val = 2048 * t.val + r.val) :
    (iblk2 V c 1 t : Vec Ideal S1x2048 .i32) (ix2 (0 : Fin 1) r) = (V c main_v17 : S1x100352.Idx → BitVec 32) (ix2 (0 : Fin 1) n) := by
  obtain ⟨-, -, e2, e3, -, -⟩ := idx_pool2 t
  unfold iblk2
  rw [View.read_apply]
  show V c main_v17 _ = V c main_v17 _
  congr 1
  funext a
  apply Fin.ext
  match a with
  | ⟨0, _⟩ => show win2_1.index t (0 : Fin 2) * 1 + 1 * 0 = 0; rw [e2]
  | ⟨1, _⟩ => show win2_1.index t (1 : Fin 2) * 2048 + 1 * r.val = n.val; rw [e3, hn]; omega

def pool2 (c : Dev nD) : S128x32.Idx → EReal := fun i =>
  ∑ n : Fin 100352, (if (V c main_v17 : S1x100352.Idx → BitVec 32) (ix2 (0 : Fin 1) n) = BitVec.ofNat 32 (i 0).val then (1 : EReal) else 0)
    * (V c main_v50 : S100352x32.Idx → EReal) (ix2 n (i 1))

theorem acc2_apply (c : Dev nD) (g : Fin 128) (j : Fin 32) (n : ℕ) (hn : n < cfg2.N) :
    acc2 V c n hn (ix2 g j)
      = ∑ t : Fin (n + 1), ∑ r : Fin 2048,
          (if (iblk2 V c 1 ⟨t.val, Nat.lt_of_le_of_lt (Nat.le_of_lt_succ t.isLt) hn⟩ : Vec Ideal S1x2048 .i32) (ix2 (0 : Fin 1) r) = BitVec.ofNat 32 g.val then (1 : EReal) else 0)
            * (iblk2 V c 0 ⟨t.val, Nat.lt_of_le_of_lt (Nat.le_of_lt_succ t.isLt) hn⟩ : Vec Ideal S2048x32 .f32) (ix2 r j) :=
  pool_acc_apply (k2_pay2 (F := Ideal)) (k2_pay1 (F := Ideal)) rfl rfl
    (fun n h => iblk2 V c 1 ⟨n, h⟩) (fun n h => iblk2 V c 0 ⟨n, h⟩) (acc2 V c)
    (fun h0 => acc2_zero V c h0) (fun n h => acc2_succ V c n h) g j n hn

theorem acc2_last (c : Dev nD) (h48 : 48 < cfg2.N) : acc2 V c 48 h48 = pool2 V c := by
  funext i
  obtain ⟨g, j, rfl⟩ : ∃ (g : Fin 128) (j : Fin 32), i = ix2 g j := ⟨i 0, i 1, eq_ix2 i⟩
  rw [acc2_apply]
  show _ = ∑ n : Fin 100352, (if (V c main_v17 : S1x100352.Idx → BitVec 32) (ix2 (0 : Fin 1) n) = BitVec.ofNat 32 g.val then (1 : EReal) else 0)
    * (V c main_v50 : S100352x32.Idx → EReal) (ix2 n j)
  rw [sum_rows]
  refine Finset.sum_congr rfl fun t _ => Finset.sum_congr rfl fun r _ => ?_
  have hb := bblk2_apply V c ⟨t.val, Nat.lt_of_le_of_lt (Nat.le_of_lt_succ t.isLt) h48⟩ r (rowEquiv (t, r)) (rowEquiv_val t r)
  have hh := hblk2_apply V c ⟨t.val, Nat.lt_of_le_of_lt (Nat.le_of_lt_succ t.isLt) h48⟩ r j (rowEquiv (t, r)) (rowEquiv_val t r)
  exact congrArg₂ (fun (a : BitVec 32) (b : EReal) => (if a = BitVec.ofNat 32 g.val then (1 : EReal) else 0) * b) hb hh

theorem read_blk2_2 (t : Fin cfg2.N) (G : S128x32.Idx → EReal) :
    (((cfg2.win 2).blk t).view.read (Elt Ideal) G : S128x32.Idx → EReal) = G := by
  obtain ⟨-, -, -, -, e4, e5⟩ := idx_pool2 t
  funext y
  rw [View.read_apply]
  show G (((cfg2.win 2).blk t).view.emb y) = G y
  congr 1
  funext a
  apply Fin.ext
  match a with
  | ⟨0, _⟩ => show win2_2.index t (0 : Fin 2) * 128 + 1 * (y 0).val = (y 0).val; rw [e4]; omega
  | ⟨1, _⟩ => show win2_2.index t (1 : Fin 2) * 32 + 1 * (y 1).val = (y 1).val; rw [e5]; omega

theorem flushed2_eq (c : Dev nD) (t : Fin cfg2.N) (hf : (cfg2.win 2).flush t = true) :
    (dat2 V c).flushed 2 t = ((cfg2.win 2).blk t).view.read (Elt Ideal) (pool2 V c) := by
  have hN : cfg2.N = 49 := N_2
  have h48 : t.val = 48 := by
    have h1 := (flush2_2 t).mp hf
    have h2 := t.isLt
    omega
  show (cfg2.win 2).cut (grid2.coords t) ((dat2 V c).after 2 t) = _
  rw [after2_2_last V c t h48]
  refine Eq.trans ?_ (read_blk2_2 t (pool2 V c)).symm
  exact acc2_last V c _

theorem mem_blk2_2 (t : Fin cfg2.N) (i : S128x32.Idx) :
    i ∈ ((cfg2.win 2).blk t).view.set ↔ ∀ a : Fin 2, win2_2.index t a * S128x32.size a ≤ (i a).val ∧ (i a).val < win2_2.index t a * S128x32.size a + S128x32.size a := by
  show i ∈ ((View.whole main_v51).slice (win2_2.rect t)).set ↔ _
  rw [View.set_slice_whole, Rect.mem_set_unit]
  exact Iff.rfl

theorem cover2 (i : S128x32.Idx) : ∃ t : Fin cfg2.N, (cfg2.win 2).flush t = true ∧ i ∈ ((cfg2.win 2).blk t).view.set := by
  have h48 : 48 < cfg2.N := by rw [show cfg2.N = 49 from N_2]; decide
  obtain ⟨-, -, -, -, e4, e5⟩ := idx_pool2 ⟨48, h48⟩
  have h0 := idx2_lt0 i
  have h1 := idx2_lt1 i
  refine ⟨⟨48, h48⟩, (flush2_2 _).mpr rfl, ?_⟩
  rw [mem_blk2_2]
  intro a
  match a with
  | ⟨0, _⟩ =>
    show win2_2.index ⟨48, h48⟩ (0 : Fin 2) * 128 ≤ (i 0).val ∧ (i 0).val < win2_2.index ⟨48, h48⟩ (0 : Fin 2) * 128 + 128
    rw [e4]; omega
  | ⟨1, _⟩ =>
    show win2_2.index ⟨48, h48⟩ (1 : Fin 2) * 32 ≤ (i 1).val ∧ (i 1).val < win2_2.index ⟨48, h48⟩ (1 : Fin 2) * 32 + 32
    rw [e5]; omega

theorem final2 (c : Dev nD) : ((dat2 V c).arrAt 2 cfg2.N : S128x32.Idx → EReal) = pool2 V c :=
  (dat2 V c).arrAt_eq_of_cover 2 (pool2 V c) (fun t hf => flushed2_eq V c t hf) cover2

theorem arr_pool2 (c : Dev nD) (g : Fin 128) (j : Fin 32) :
    ((dat2 (F := Ideal) V c).arrAt 2 cfg2.N : S128x32.Idx → EReal) (ix2 g j)
      = ∑ n : Fin 100352, (if (V c main_v17 : S1x100352.Idx → BitVec 32) (ix2 (0 : Fin 1) n) = BitVec.ofNat 32 g.val then (1 : EReal) else 0)
          * (V c main_v50 : S100352x32.Idx → EReal) (ix2 n j) :=
  congrFun (final2 V c) (ix2 g j)

end Cert.KernelIdeal.Val

end
-- ==== Proof.KI.ValPool5.lean ====
import proofs.«423851_j31086973288655_1_alg».proof.Proof.KI.Reg5
import proofs.«423851_j31086973288655_1_alg».proof.Proof.KI.ValPoolCore
import proofs.«423851_j31086973288655_1_alg».proof.Proof.KI.ValPool2

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem idx_pool5 : ∀ t : Fin cfg5.N, win5_0.index t (0 : Fin 2) = t.val ∧ win5_0.index t (1 : Fin 2) = 0
    ∧ win5_1.index t (0 : Fin 2) = 0 ∧ win5_1.index t (1 : Fin 2) = t.val
    ∧ win5_2.index t (0 : Fin 2) = 0 ∧ win5_2.index t (1 : Fin 2) = 0 :=
  idx_pool2

theorem hblk5_apply (c : Dev nD) (t : Fin cfg5.N) (r : Fin 2048) (j : Fin 32) (n : Fin 100352)
    (hn : n.val = 2048 * t.val + r.val) :
    (iblk5 V c 0 t : Vec Ideal S2048x32 .f32) (ix2 r j) = (V c main_v86 : S100352x32.Idx → EReal) (ix2 n j) := by
  obtain ⟨e0, e1, -, -, -, -⟩ := idx_pool5 t
  unfold iblk5
  rw [View.read_apply]
  show V c main_v86 _ = V c main_v86 _
  congr 1
  funext a
  apply Fin.ext
  match a with
  | ⟨0, _⟩ => show win5_0.index t (0 : Fin 2) * 2048 + 1 * r.val = n.val; rw [e0, hn]; omega
  | ⟨1, _⟩ => show win5_0.index t (1 : Fin 2) * 32 + 1 * j.val = j.val; rw [e1]; omega

theorem bblk5_apply (c : Dev nD) (t : Fin cfg5.N) (r : Fin 2048) (n : Fin 100352)
    (hn : n.val = 2048 * t.val + r.val) :
    (iblk5 V c 1 t : Vec Ideal S1x2048 .i32) (ix2 (0 : Fin 1) r) = (V c main_v17 : S1x100352.Idx → BitVec 32) (ix2 (0 : Fin 1) n) := by
  obtain ⟨-, -, e2, e3, -, -⟩ := idx_pool5 t
  unfold iblk5
  rw [View.read_apply]
  show V c main_v17 _ = V c main_v17 _
  congr 1
  funext a
  apply Fin.ext
  match a with
  | ⟨0, _⟩ => show win5_1.index t (0 : Fin 2) * 1 + 1 * 0 = 0; rw [e2]
  | ⟨1, _⟩ => show win5_1.index t (1 : Fin 2) * 2048 + 1 * r.val = n.val; rw [e3, hn]; omega

def pool5 (c : Dev nD) : S128x32.Idx → EReal := fun i =>
  ∑ n : Fin 100352, (if (V c main_v17 : S1x100352.Idx → BitVec 32) (ix2 (0 : Fin 1) n) = BitVec.ofNat 32 (i 0).val then (1 : EReal) else 0)
    * (V c main_v86 : S100352x32.Idx → EReal) (ix2 n (i 1))

theorem acc5_apply (c : Dev nD) (g : Fin 128) (j : Fin 32) (n : ℕ) (hn : n < cfg5.N) :
    acc5 V c n hn (ix2 g j)
      = ∑ t : Fin (n + 1), ∑ r : Fin 2048,
          (if (iblk5 V c 1 ⟨t.val, Nat.lt_of_le_of_lt (Nat.le_of_lt_succ t.isLt) hn⟩ : Vec Ideal S1x2048 .i32) (ix2 (0 : Fin 1) r) = BitVec.ofNat 32 g.val then (1 : EReal) else 0)
            * (iblk5 V c 0 ⟨t.val, Nat.lt_of_le_of_lt (Nat.le_of_lt_succ t.isLt) hn⟩ : Vec Ideal S2048x32 .f32) (ix2 r j) :=
  pool_acc_apply (k5_pay2 (F := Ideal)) (k5_pay1 (F := Ideal)) rfl rfl
    (fun n h => iblk5 V c 1 ⟨n, h⟩) (fun n h => iblk5 V c 0 ⟨n, h⟩) (acc5 V c)
    (fun h0 => acc5_zero V c h0) (fun n h => acc5_succ V c n h) g j n hn

theorem acc5_last (c : Dev nD) (h48 : 48 < cfg5.N) : acc5 V c 48 h48 = pool5 V c := by
  funext i
  obtain ⟨g, j, rfl⟩ : ∃ (g : Fin 128) (j : Fin 32), i = ix2 g j := ⟨i 0, i 1, eq_ix2 i⟩
  rw [acc5_apply]
  show _ = ∑ n : Fin 100352, (if (V c main_v17 : S1x100352.Idx → BitVec 32) (ix2 (0 : Fin 1) n) = BitVec.ofNat 32 g.val then (1 : EReal) else 0)
    * (V c main_v86 : S100352x32.Idx → EReal) (ix2 n j)
  rw [sum_rows]
  refine Finset.sum_congr rfl fun t _ => Finset.sum_congr rfl fun r _ => ?_
  have hb := bblk5_apply V c ⟨t.val, Nat.lt_of_le_of_lt (Nat.le_of_lt_succ t.isLt) h48⟩ r (rowEquiv (t, r)) (rowEquiv_val t r)
  have hh := hblk5_apply V c ⟨t.val, Nat.lt_of_le_of_lt (Nat.le_of_lt_succ t.isLt) h48⟩ r j (rowEquiv (t, r)) (rowEquiv_val t r)
  exact congrArg₂ (fun (a : BitVec 32) (b : EReal) => (if a = BitVec.ofNat 32 g.val then (1 : EReal) else 0) * b) hb hh

theorem read_blk5_2 (t : Fin cfg5.N) (G : S128x32.Idx → EReal) :
    (((cfg5.win 2).blk t).view.read (Elt Ideal) G : S128x32.Idx → EReal) = G :=
  read_blk2_2 t G

theorem flushed5_eq (c : Dev nD) (t : Fin cfg5.N) (hf : (cfg5.win 2).flush t = true) :
    (dat5 V c).flushed 2 t = ((cfg5.win 2).blk t).view.read (Elt Ideal) (pool5 V c) := by
  have hN : cfg5.N = 49 := N_5
  have h48 : t.val = 48 := by
    have h1 := (flush5_2 t).mp hf
    have h2 := t.isLt
    omega
  show (cfg5.win 2).cut (grid5.coords t) ((dat5 V c).after 2 t) = _
  rw [after5_2_last V c t h48]
  refine Eq.trans ?_ (read_blk5_2 t (pool5 V c)).symm
  exact acc5_last V c _

theorem cover5 (i : S128x32.Idx) : ∃ t : Fin cfg5.N, (cfg5.win 2).flush t = true ∧ i ∈ ((cfg5.win 2).blk t).view.set :=
  cover2 i

theorem final5 (c : Dev nD) : ((dat5 V c).arrAt 2 cfg5.N : S128x32.Idx → EReal) = pool5 V c :=
  (dat5 V c).arrAt_eq_of_cover 2 (pool5 V c) (fun t hf => flushed5_eq V c t hf) cover5

theorem arr_pool5 (c : Dev nD) (g : Fin 128) (j : Fin 32) :
    ((dat5 (F := Ideal) V c).arrAt 2 cfg5.N : S128x32.Idx → EReal) (ix2 g j)
      = ∑ n : Fin 100352, (if (V c main_v17 : S1x100352.Idx → BitVec 32) (ix2 (0 : Fin 1) n) = BitVec.ofNat 32 g.val then (1 : EReal) else 0)
          * (V c main_v86 : S100352x32.Idx → EReal) (ix2 n j) :=
  congrFun (final5 V c) (ix2 g j)

end Cert.KernelIdeal.Val

end
-- ==== Proof.KI.ValPool8.lean ====
import proofs.«423851_j31086973288655_1_alg».proof.Proof.KI.Reg8
import proofs.«423851_j31086973288655_1_alg».proof.Proof.KI.ValPoolCore
import proofs.«423851_j31086973288655_1_alg».proof.Proof.KI.ValPool2

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem idx_pool8 : ∀ t : Fin cfg8.N, win8_0.index t (0 : Fin 2) = t.val ∧ win8_0.index t (1 : Fin 2) = 0
    ∧ win8_1.index t (0 : Fin 2) = 0 ∧ win8_1.index t (1 : Fin 2) = t.val
    ∧ win8_2.index t (0 : Fin 2) = 0 ∧ win8_2.index t (1 : Fin 2) = 0 :=
  idx_pool2

theorem hblk8_apply (c : Dev nD) (t : Fin cfg8.N) (r : Fin 2048) (j : Fin 32) (n : Fin 100352)
    (hn : n.val = 2048 * t.val + r.val) :
    (iblk8 V c 0 t : Vec Ideal S2048x32 .f32) (ix2 r j) = (V c main_v122 : S100352x32.Idx → EReal) (ix2 n j) := by
  obtain ⟨e0, e1, -, -, -, -⟩ := idx_pool8 t
  unfold iblk8
  rw [View.read_apply]
  show V c main_v122 _ = V c main_v122 _
  congr 1
  funext a
  apply Fin.ext
  match a with
  | ⟨0, _⟩ => show win8_0.index t (0 : Fin 2) * 2048 + 1 * r.val = n.val; rw [e0, hn]; omega
  | ⟨1, _⟩ => show win8_0.index t (1 : Fin 2) * 32 + 1 * j.val = j.val; rw [e1]; omega

theorem bblk8_apply (c : Dev nD) (t : Fin cfg8.N) (r : Fin 2048) (n : Fin 100352)
    (hn : n.val = 2048 * t.val + r.val) :
    (iblk8 V c 1 t : Vec Ideal S1x2048 .i32) (ix2 (0 : Fin 1) r) = (V c main_v17 : S1x100352.Idx → BitVec 32) (ix2 (0 : Fin 1) n) := by
  obtain ⟨-, -, e2, e3, -, -⟩ := idx_pool8 t
  unfold iblk8
  rw [View.read_apply]
  show V c main_v17 _ = V c main_v17 _
  congr 1
  funext a
  apply Fin.ext
  match a with
  | ⟨0, _⟩ => show win8_1.index t (0 : Fin 2) * 1 + 1 * 0 = 0; rw [e2]
  | ⟨1, _⟩ => show win8_1.index t (1 : Fin 2) * 2048 + 1 * r.val = n.val; rw [e3, hn]; omega

def pool8 (c : Dev nD) : S128x32.Idx → EReal := fun i =>
  ∑ n : Fin 100352, (if (V c main_v17 : S1x100352.Idx → BitVec 32) (ix2 (0 : Fin 1) n) = BitVec.ofNat 32 (i 0).val then (1 : EReal) else 0)
    * (V c main_v122 : S100352x32.Idx → EReal) (ix2 n (i 1))

theorem acc8_apply (c : Dev nD) (g : Fin 128) (j : Fin 32) (n : ℕ) (hn : n < cfg8.N) :
    acc8 V c n hn (ix2 g j)
      = ∑ t : Fin (n + 1), ∑ r : Fin 2048,
          (if (iblk8 V c 1 ⟨t.val, Nat.lt_of_le_of_lt (Nat.le_of_lt_succ t.isLt) hn⟩ : Vec Ideal S1x2048 .i32) (ix2 (0 : Fin 1) r) = BitVec.ofNat 32 g.val then (1 : EReal) else 0)
            * (iblk8 V c 0 ⟨t.val, Nat.lt_of_le_of_lt (Nat.le_of_lt_succ t.isLt) hn⟩ : Vec Ideal S2048x32 .f32) (ix2 r j) :=
  pool_acc_apply (k8_pay2 (F := Ideal)) (k8_pay1 (F := Ideal)) rfl rfl
    (fun n h => iblk8 V c 1 ⟨n, h⟩) (fun n h => iblk8 V c 0 ⟨n, h⟩) (acc8 V c)
    (fun h0 => acc8_zero V c h0) (fun n h => acc8_succ V c n h) g j n hn

theorem acc8_last (c : Dev nD) (h48 : 48 < cfg8.N) : acc8 V c 48 h48 = pool8 V c := by
  funext i
  obtain ⟨g, j, rfl⟩ : ∃ (g : Fin 128) (j : Fin 32), i = ix2 g j := ⟨i 0, i 1, eq_ix2 i⟩
  rw [acc8_apply]
  show _ = ∑ n : Fin 100352, (if (V c main_v17 : S1x100352.Idx → BitVec 32) (ix2 (0 : Fin 1) n) = BitVec.ofNat 32 g.val then (1 : EReal) else 0)
    * (V c main_v122 : S100352x32.Idx → EReal) (ix2 n j)
  rw [sum_rows]
  refine Finset.sum_congr rfl fun t _ => Finset.sum_congr rfl fun r _ => ?_
  have hb := bblk8_apply V c ⟨t.val, Nat.lt_of_le_of_lt (Nat.le_of_lt_succ t.isLt) h48⟩ r (rowEquiv (t, r)) (rowEquiv_val t r)
  have hh := hblk8_apply V c ⟨t.val, Nat.lt_of_le_of_lt (Nat.le_of_lt_succ t.isLt) h48⟩ r j (rowEquiv (t, r)) (rowEquiv_val t r)
  exact congrArg₂ (fun (a : BitVec 32) (b : EReal) => (if a = BitVec.ofNat 32 g.val then (1 : EReal) else 0) * b) hb hh

theorem read_blk8_2 (t : Fin cfg8.N) (G : S128x32.Idx → EReal) :
    (((cfg8.win 2).blk t).view.read (Elt Ideal) G : S128x32.Idx → EReal) = G :=
  read_blk2_2 t G

theorem flushed8_eq (c : Dev nD) (t : Fin cfg8.N) (hf : (cfg8.win 2).flush t = true) :
    (dat8 V c).flushed 2 t = ((cfg8.win 2).blk t).view.read (Elt Ideal) (pool8 V c) := by
  have hN : cfg8.N = 49 := N_8
  have h48 : t.val = 48 := by
    have h1 := (flush8_2 t).mp hf
    have h2 := t.isLt
    omega
  show (cfg8.win 2).cut (grid8.coords t) ((dat8 V c).after 2 t) = _
  rw [after8_2_last V c t h48]
  refine Eq.trans ?_ (read_blk8_2 t (pool8 V c)).symm
  exact acc8_last V c _

theorem cover8 (i : S128x32.Idx) : ∃ t : Fin cfg8.N, (cfg8.win 2).flush t = true ∧ i ∈ ((cfg8.win 2).blk t).view.set :=
  cover2 i

theorem final8 (c : Dev nD) : ((dat8 V c).arrAt 2 cfg8.N : S128x32.Idx → EReal) = pool8 V c :=
  (dat8 V c).arrAt_eq_of_cover 2 (pool8 V c) (fun t hf => flushed8_eq V c t hf) cover8

theorem arr_pool8 (c : Dev nD) (g : Fin 128) (j : Fin 32) :
    ((dat8 (F := Ideal) V c).arrAt 2 cfg8.N : S128x32.Idx → EReal) (ix2 g j)
      = ∑ n : Fin 100352, (if (V c main_v17 : S1x100352.Idx → BitVec 32) (ix2 (0 : Fin 1) n) = BitVec.ofNat 32 g.val then (1 : EReal) else 0)
          * (V c main_v122 : S100352x32.Idx → EReal) (ix2 n j) :=
  congrFun (final8 V c) (ix2 g j)

end Cert.KernelIdeal.Val

end
-- ==== Proof.KI.ValPool.lean ====
import proofs.«423851_j31086973288655_1_alg».proof.Proof.KI.ValPool2
import proofs.«423851_j31086973288655_1_alg».proof.Proof.KI.ValPool5
import proofs.«423851_j31086973288655_1_alg».proof.Proof.KI.ValPool8
-- ==== Proof.Bridge.KHost.lean ====
import proofs.«423851_j31086973288655_1_alg».proof.Proof.Gen.KernelIdeal.Launch
import Idealize.ShloMosaic.Lib.StableHlo.Run
import Idealize.ShloMosaic.PureOps.Ideal

set_option maxRecDepth 1488

noncomputable section

namespace Cert.Bridge

open Idealize.ShloMosaic Idealize.ShloMosaic.TcCoe

theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open Cert.KernelIdeal Cert.KernelIdeal.Gen

section Generic

variable {F : FTy → Type} [FloatOps F]

def dinvG (dst : IVec S1600000 32) : FVec F S100000 .f32 :=
  Host.rsqrt
    (addf
      (Host.scatterAdd scatter_S100000_S1600000x1_S1600000_n_0_0_1
        (broadcastInDim S100000 ![] bcast_S_S100000 (constant (F := F) S_ .f32 0x00000000#32))
        (broadcastInDim S1600000x1 ![0] bcast_S1600000_S1600000x1_0 dst)
        (broadcastInDim S1600000 ![] bcast_S_S1600000 (constant (F := F) S_ .f32 0x3F800000#32)))
      (broadcastInDim S100000 ![] bcast_S_S100000 (constant (F := F) S_ .f32 0x3F800000#32)))

def countsG (batch : IVec S100000 32) : FVec F S128 .f32 :=
  maximumf
    (Host.scatterAdd scatter_S128_S100000x1_S100000_n_0_0_1
      (broadcastInDim S128 ![] bcast_S_S128 (constant (F := F) S_ .f32 0x00000000#32))
      (broadcastInDim S100000x1 ![0] bcast_S100000_S100000x1_0 batch)
      (broadcastInDim S100000 ![] bcast_S_S100000 (constant (F := F) S_ .f32 0x3F800000#32)))
    (broadcastInDim S128 ![] bcast_S_S128 (constant (F := F) S_ .f32 0x3F800000#32))

def dinvColG (dinv : FVec F S100000 .f32) : FVec F S100352x1 .f32 :=
  shapeCast S100352x1
    (concatenate S100352 0
      [⟨S100000, dinv⟩, ⟨S352, broadcastInDim S352 ![] bcast_S_S352 (constant (F := F) S_ .f32 0x3F800000#32)⟩]
      concatenates_S100000_S352_S100352_d0)
    shapeCasts_S100352_S100352x1

def aggG (hlin : FVec F S100352x32 .f32) (dinv : FVec F S100000 .f32) (src dst : IVec S1600000 32) :
    FVec F S100000x32 .f32 :=
  Host.scatterAdd scatter_S100000x32_S1600000x1_S1600000x32_1_0_0_1
    (broadcastInDim S100000x32 ![] bcast_S_S100000x32 (constant (F := F) S_ .f32 0x00000000#32))
    (broadcastInDim S1600000x1 ![0] bcast_S1600000_S1600000x1_0 dst)
    (mulf
      (Host.gather gather_S100352x32_S1600000x1_S1600000x32_1_0_n_n_0_1_132 hlin
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100352#32)))
            src)))
      (broadcastInDim S1600000x32 ![0, 1] bcast_S1600000x1_S1600000x32_0_1
        (broadcastInDim S1600000x1 ![0] bcast_S1600000_S1600000x1_0
          (mulf
            (Host.gather gather_S100000_S1600000x1_S1600000_n_0_n_n_0_1_1 dinv
              (broadcastInDim S1600000x1 ![0] bcast_S1600000_S1600000x1_0
                (select
                  (cmpi .slt src (broadcastInDim S1600000 ![] bcast_S_S1600000 (constantI S_ 32 0#32)))
                  (addi src (broadcastInDim S1600000 ![] bcast_S_S1600000 (constantI S_ 32 100000#32)))
                  src)))
            (Host.gather gather_S100000_S1600000x1_S1600000_n_0_n_n_0_1_1 dinv
              (broadcastInDim S1600000x1 ![0] bcast_S1600000_S1600000x1_0
                (select
                  (cmpi .slt dst (broadcastInDim S1600000 ![] bcast_S_S1600000 (constantI S_ 32 0#32)))
                  (addi dst (broadcastInDim S1600000 ![] bcast_S_S1600000 (constantI S_ 32 100000#32)))
                  dst)))))))

def padRowsG (a : FVec F S100000x32 .f32) (z : IVec S_ 32) : FVec F S100352x32 .f32 :=
  pad S100352x32 ![0, 0] ![352, 0] ![0, 0] a (sitofp (F := F) .f32 z) pads_S100000x32_S100352x32_03520_000 h_S_

def padXG (x : FVec F S100000x64 .f32) (z : IVec S_ 32) : FVec F S100352x64 .f32 :=
  pad S100352x64 ![0, 0] ![352, 0] ![0, 0] x (sitofp (F := F) .f32 z) pads_S100000x64_S100352x64_03520_000 h_S_

def featG (pool : FVec F S128x32 .f32) (counts : FVec F S128 .f32) : FVec F S128x32 .f32 :=
  Host.divf pool
    (broadcastInDim S128x32 ![0, 1] bcast_S128x1_S128x32_0_1 (broadcastInDim S128x1 ![0] bcast_S128_S128x1_0 counts))

def tailG (f1 f2 p3 : FVec F S128x32 .f32) (counts : FVec F S128 .f32) : FVec F S128x32 .f32 :=
  Host.divf
    (Host.reduceAdd
      (concatenate S3x128x32 0
        [⟨S1x128x32, broadcastInDim S1x128x32 ![1, 2] bcast_S128x32_S1x128x32_1_2 f1⟩,
         ⟨S1x128x32, broadcastInDim S1x128x32 ![1, 2] bcast_S128x32_S1x128x32_1_2 f2⟩,
         ⟨S1x128x32, broadcastInDim S1x128x32 ![1, 2] bcast_S128x32_S1x128x32_1_2
            (Host.divf p3
              (broadcastInDim S128x32 ![0, 1] bcast_S128x1_S128x32_0_1
                (broadcastInDim S128x1 ![0] bcast_S128_S128x1_0 counts)))⟩]
        concatenates_S1x128x32_S1x128x32_S1x128x32_S3x128x32_d0)
      (constant (F := F) S_ .f32 0x00000000#32) reducesTo_S3x128x32_S128x32_d0 h_S_)
    (broadcastInDim S128x32 ![] bcast_S_S128x32 (constant (F := F) S_ .f32 0x40400000#32))

variable (Vv : Valuation τ sig (Elt F))

theorem hostOps0_v6G :
    (StableHlo.after hostOps0 Vv (Proc.devRef .tc main_v6) : FVec F S100000 .f32)
      = dinvG (Vv (Proc.devRef .tc main_arg8)) := by
  show StableHlo.after hostOps0 Vv (Proc.devRef .tc main_v6) = _; after_results; rfl

theorem hostOps0_v12G :
    (StableHlo.after hostOps0 Vv (Proc.devRef .tc main_v12) : FVec F S128 .f32)
      = countsG (Vv (Proc.devRef .tc main_arg9)) := by
  show StableHlo.after hostOps0 Vv (Proc.devRef .tc main_v12) = _; after_results; rfl

theorem hostOps0_v15G :
    (StableHlo.after hostOps0 Vv (Proc.devRef .tc main_v15) : FVec F S100352x1 .f32)
      = dinvColG (dinvG (Vv (Proc.devRef .tc main_arg8))) := by
  show StableHlo.after hostOps0 Vv (Proc.devRef .tc main_v15) = _; after_results; rfl

theorem hostOps0_cG :
    (StableHlo.after hostOps0 Vv (Proc.devRef .tc main_c) : IVec S_ 32) = constantI S_ 32 4294967295#32 := by
  show StableHlo.after hostOps0 Vv (Proc.devRef .tc main_c) = _; after_results

theorem hostOps0_1_v16G :
    (StableHlo.after hostOps0_1 Vv (Proc.devRef .tc main_v16) : IVec S100352 32)
      = pad S100352 ![0] ![352] ![0] (Vv (Proc.devRef .tc main_arg9) : IVec S100000 32)
          (Vv (Proc.devRef .tc main_c) : IVec S_ 32) pads_S100000_S100352_03520 h_S_ := by
  show StableHlo.after hostOps0_1 Vv (Proc.devRef .tc main_v16) = _
  after_results
  (try simp only [StableHlo.TRef.ofBuf, StableHlo.TRef.toBuf, cast_eq])
  rfl

theorem hostOps0_2_v17G :
    (StableHlo.after hostOps0_2 Vv (Proc.devRef .tc main_v17) : IVec S1x100352 32)
      = shapeCast S1x100352 (Vv (Proc.devRef .tc main_v16) : IVec S100352 32) shapeCasts_S100352_S1x100352 := by
  show StableHlo.after hostOps0_2 Vv (Proc.devRef .tc main_v17) = _; after_results; rfl

theorem hostOps0_2_c6G :
    (StableHlo.after hostOps0_2 Vv (Proc.devRef .tc main_c_6) : IVec S_ 32) = constantI S_ 32 0#32 := by
  show StableHlo.after hostOps0_2 Vv (Proc.devRef .tc main_c_6) = _; after_results

theorem hostOps0_3_v18G :
    (StableHlo.after hostOps0_3 Vv (Proc.devRef .tc main_v18) : FVec F S100352x64 .f32)
      = padXG (Vv (Proc.devRef .tc main_arg0)) (Vv (Proc.devRef .tc main_c_6)) := by
  show StableHlo.after hostOps0_3 Vv (Proc.devRef .tc main_v18) = _
  after_results
  (try simp only [StableHlo.TRef.ofBuf, StableHlo.TRef.toBuf, cast_eq])
  rfl

set_option maxHeartbeats 1000000 in
theorem hostOps1_v47G :
    (StableHlo.after hostOps1 Vv (Proc.devRef .tc main_v47) : FVec F S100000x32 .f32)
      = aggG (Vv (Proc.devRef .tc main_v19)) (Vv (Proc.devRef .tc main_v6))
          (Vv (Proc.devRef .tc main_arg7)) (Vv (Proc.devRef .tc main_arg8)) := by
  show StableHlo.after hostOps1 Vv (Proc.devRef .tc main_v47) = _; after_results_simp; rfl

theorem hostOps1_c14G :
    (StableHlo.after hostOps1 Vv (Proc.devRef .tc main_c_14) : IVec S_ 32) = constantI S_ 32 0#32 := by
  show StableHlo.after hostOps1 Vv (Proc.devRef .tc main_c_14) = _; after_results_simp

theorem hostOps1_1_v48G :
    (StableHlo.after hostOps1_1 Vv (Proc.devRef .tc main_v48) : FVec F S100352x32 .f32)
      = padRowsG (Vv (Proc.devRef .tc main_v47)) (Vv (Proc.devRef .tc main_c_14)) := by
  show StableHlo.after hostOps1_1 Vv (Proc.devRef .tc main_v48) = _
  after_results
  (try simp only [StableHlo.TRef.ofBuf, StableHlo.TRef.toBuf, cast_eq])
  rfl

theorem hostOps1_2_v49G :
    (StableHlo.after hostOps1_2 Vv (Proc.devRef .tc main_v49) : FVec F S1x32 .f32)
      = shapeCast S1x32 (Vv (Proc.devRef .tc main_arg2) : FVec F S32 .f32) shapeCasts_S32_S1x32 := by
  show StableHlo.after hostOps1_2 Vv (Proc.devRef .tc main_v49) = _; after_results; rfl

theorem hostOps3_v54G :
    (StableHlo.after hostOps3 Vv (Proc.devRef .tc main_v54) : FVec F S128x32 .f32)
      = featG (Vv (Proc.devRef .tc main_v51)) (Vv (Proc.devRef .tc main_v12)) := by
  show StableHlo.after hostOps3 Vv (Proc.devRef .tc main_v54) = _; after_results; rfl

set_option maxHeartbeats 1000000 in
theorem hostOps4_v83G :
    (StableHlo.after hostOps4 Vv (Proc.devRef .tc main_v83) : FVec F S100000x32 .f32)
      = aggG (Vv (Proc.devRef .tc main_v55)) (Vv (Proc.devRef .tc main_v6))
          (Vv (Proc.devRef .tc main_arg7)) (Vv (Proc.devRef .tc main_arg8)) := by
  show StableHlo.after hostOps4 Vv (Proc.devRef .tc main_v83) = _; after_results_simp; rfl

theorem hostOps4_c22G :
    (StableHlo.after hostOps4 Vv (Proc.devRef .tc main_c_22) : IVec S_ 32) = constantI S_ 32 0#32 := by
  show StableHlo.after hostOps4 Vv (Proc.devRef .tc main_c_22) = _; after_results_simp

theorem hostOps4_1_v84G :
    (StableHlo.after hostOps4_1 Vv (Proc.devRef .tc main_v84) : FVec F S100352x32 .f32)
      = padRowsG (Vv (Proc.devRef .tc main_v83)) (Vv (Proc.devRef .tc main_c_22)) := by
  show StableHlo.after hostOps4_1 Vv (Proc.devRef .tc main_v84) = _
  after_results
  (try simp only [StableHlo.TRef.ofBuf, StableHlo.TRef.toBuf, cast_eq])
  rfl

theorem hostOps4_2_v85G :
    (StableHlo.after hostOps4_2 Vv (Proc.devRef .tc main_v85) : FVec F S1x32 .f32)
      = shapeCast S1x32 (Vv (Proc.devRef .tc main_arg4) : FVec F S32 .f32) shapeCasts_S32_S1x32 := by
  show StableHlo.after hostOps4_2 Vv (Proc.devRef .tc main_v85) = _; after_results; rfl

theorem hostOps6_v90G :
    (StableHlo.after hostOps6 Vv (Proc.devRef .tc main_v90) : FVec F S128x32 .f32)
      = featG (Vv (Proc.devRef .tc main_v87)) (Vv (Proc.devRef .tc main_v12)) := by
  show StableHlo.after hostOps6 Vv (Proc.devRef .tc main_v90) = _; after_results; rfl

set_option maxHeartbeats 1000000 in
theorem hostOps7_v119G :
    (StableHlo.after hostOps7 Vv (Proc.devRef .tc main_v119) : FVec F S100000x32 .f32)
      = aggG (Vv (Proc.devRef .tc main_v91)) (Vv (Proc.devRef .tc main_v6))
          (Vv (Proc.devRef .tc main_arg7)) (Vv (Proc.devRef .tc main_arg8)) := by
  show StableHlo.after hostOps7 Vv (Proc.devRef .tc main_v119) = _; after_results_simp; rfl

theorem hostOps7_c30G :
    (StableHlo.after hostOps7 Vv (Proc.devRef .tc main_c_30) : IVec S_ 32) = constantI S_ 32 0#32 := by
  show StableHlo.after hostOps7 Vv (Proc.devRef .tc main_c_30) = _; after_results_simp

theorem hostOps7_1_v120G :
    (StableHlo.after hostOps7_1 Vv (Proc.devRef .tc main_v120) : FVec F S100352x32 .f32)
      = padRowsG (Vv (Proc.devRef .tc main_v119)) (Vv (Proc.devRef .tc main_c_30)) := by
  show StableHlo.after hostOps7_1 Vv (Proc.devRef .tc main_v120) = _
  after_results
  (try simp only [StableHlo.TRef.ofBuf, StableHlo.TRef.toBuf, cast_eq])
  rfl

theorem hostOps7_2_v121G :
    (StableHlo.after hostOps7_2 Vv (Proc.devRef .tc main_v121) : FVec F S1x32 .f32)
      = shapeCast S1x32 (Vv (Proc.devRef .tc main_arg6) : FVec F S32 .f32) shapeCasts_S32_S1x32 := by
  show StableHlo.after hostOps7_2 Vv (Proc.devRef .tc main_v121) = _; after_results; rfl

theorem hostOps9_v133G :
    (StableHlo.after hostOps9 Vv (Proc.devRef .tc main_v133) : FVec F S128x32 .f32)
      = tailG (Vv (Proc.devRef .tc main_v54)) (Vv (Proc.devRef .tc main_v90))
          (Vv (Proc.devRef .tc main_v123)) (Vv (Proc.devRef .tc main_v12)) := by
  show StableHlo.after hostOps9 Vv (Proc.devRef .tc main_v133) = _
  simp only [StableHlo.after_cons, StableHlo.after_nil]
  repeat (first
    | rw [nary3_result] | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

end Generic

def dinvK (dst : IVec S1600000 32) : S100000.Idx → EReal := dinvG (F := Ideal) dst

def countsK (batch : IVec S100000 32) : S128.Idx → EReal := countsG (F := Ideal) batch

def dinvColK (dinv : S100000.Idx → EReal) : S100352x1.Idx → EReal := dinvColG (F := Ideal) dinv

def aggK (hlin : S100352x32.Idx → EReal) (dinv : S100000.Idx → EReal) (src dst : IVec S1600000 32) :
    S100000x32.Idx → EReal := aggG (F := Ideal) hlin dinv src dst

def padRowsK (a : S100000x32.Idx → EReal) (z : IVec S_ 32) : S100352x32.Idx → EReal := padRowsG (F := Ideal) a z

def padXK (x : S100000x64.Idx → EReal) (z : IVec S_ 32) : S100352x64.Idx → EReal := padXG (F := Ideal) x z

def featK (pool : S128x32.Idx → EReal) (counts : S128.Idx → EReal) : S128x32.Idx → EReal :=
  featG (F := Ideal) pool counts

def tailK (f1 f2 p3 : S128x32.Idx → EReal) (counts : S128.Idx → EReal) : S128x32.Idx → EReal :=
  tailG (F := Ideal) f1 f2 p3 counts

variable (Vv : Valuation τ sig (Elt Ideal))

theorem hostOps0_v6 :
    (StableHlo.after hostOps0 Vv (Proc.devRef .tc main_v6) : S100000.Idx → EReal)
      = dinvK (Vv (Proc.devRef .tc main_arg8)) := hostOps0_v6G Vv
theorem hostOps0_v12 :
    (StableHlo.after hostOps0 Vv (Proc.devRef .tc main_v12) : S128.Idx → EReal)
      = countsK (Vv (Proc.devRef .tc main_arg9)) := hostOps0_v12G Vv
theorem hostOps0_v15 :
    (StableHlo.after hostOps0 Vv (Proc.devRef .tc main_v15) : S100352x1.Idx → EReal)
      = dinvColK (dinvK (Vv (Proc.devRef .tc main_arg8))) := hostOps0_v15G Vv
theorem hostOps0_c :
    (StableHlo.after hostOps0 Vv (Proc.devRef .tc main_c) : IVec S_ 32) = constantI S_ 32 4294967295#32 :=
  hostOps0_cG Vv
theorem hostOps0_1_v16 :
    (StableHlo.after hostOps0_1 Vv (Proc.devRef .tc main_v16) : IVec S100352 32)
      = pad S100352 ![0] ![352] ![0] (Vv (Proc.devRef .tc main_arg9) : IVec S100000 32)
          (Vv (Proc.devRef .tc main_c) : IVec S_ 32) pads_S100000_S100352_03520 h_S_ := hostOps0_1_v16G Vv
theorem hostOps0_2_v17 :
    (StableHlo.after hostOps0_2 Vv (Proc.devRef .tc main_v17) : IVec S1x100352 32)
      = shapeCast S1x100352 (Vv (Proc.devRef .tc main_v16) : IVec S100352 32) shapeCasts_S100352_S1x100352 :=
  hostOps0_2_v17G Vv
theorem hostOps0_2_c6 :
    (StableHlo.after hostOps0_2 Vv (Proc.devRef .tc main_c_6) : IVec S_ 32) = constantI S_ 32 0#32 :=
  hostOps0_2_c6G Vv
theorem hostOps0_3_v18 :
    (StableHlo.after hostOps0_3 Vv (Proc.devRef .tc main_v18) : S100352x64.Idx → EReal)
      = padXK (Vv (Proc.devRef .tc main_arg0)) (Vv (Proc.devRef .tc main_c_6)) := hostOps0_3_v18G Vv
theorem hostOps1_v47 :
    (StableHlo.after hostOps1 Vv (Proc.devRef .tc main_v47) : S100000x32.Idx → EReal)
      = aggK (Vv (Proc.devRef .tc main_v19)) (Vv (Proc.devRef .tc main_v6))
          (Vv (Proc.devRef .tc main_arg7)) (Vv (Proc.devRef .tc main_arg8)) := hostOps1_v47G Vv
theorem hostOps1_c14 :
    (StableHlo.after hostOps1 Vv (Proc.devRef .tc main_c_14) : IVec S_ 32) = constantI S_ 32 0#32 :=
  hostOps1_c14G Vv
theorem hostOps1_1_v48 :
    (StableHlo.after hostOps1_1 Vv (Proc.devRef .tc main_v48) : S100352x32.Idx → EReal)
      = padRowsK (Vv (Proc.devRef .tc main_v47)) (Vv (Proc.devRef .tc main_c_14)) := hostOps1_1_v48G Vv
theorem hostOps1_2_v49 :
    (StableHlo.after hostOps1_2 Vv (Proc.devRef .tc main_v49) : S1x32.Idx → EReal)
      = shapeCast S1x32 (Vv (Proc.devRef .tc main_arg2) : S32.Idx → EReal) shapeCasts_S32_S1x32 :=
  hostOps1_2_v49G Vv
theorem hostOps3_v54 :
    (StableHlo.after hostOps3 Vv (Proc.devRef .tc main_v54) : S128x32.Idx → EReal)
      = featK (Vv (Proc.devRef .tc main_v51)) (Vv (Proc.devRef .tc main_v12)) := hostOps3_v54G Vv
theorem hostOps4_v83 :
    (StableHlo.after hostOps4 Vv (Proc.devRef .tc main_v83) : S100000x32.Idx → EReal)
      = aggK (Vv (Proc.devRef .tc main_v55)) (Vv (Proc.devRef .tc main_v6))
          (Vv (Proc.devRef .tc main_arg7)) (Vv (Proc.devRef .tc main_arg8)) := hostOps4_v83G Vv
theorem hostOps4_c22 :
    (StableHlo.after hostOps4 Vv (Proc.devRef .tc main_c_22) : IVec S_ 32) = constantI S_ 32 0#32 :=
  hostOps4_c22G Vv
theorem hostOps4_1_v84 :
    (StableHlo.after hostOps4_1 Vv (Proc.devRef .tc main_v84) : S100352x32.Idx → EReal)
      = padRowsK (Vv (Proc.devRef .tc main_v83)) (Vv (Proc.devRef .tc main_c_22)) := hostOps4_1_v84G Vv
theorem hostOps4_2_v85 :
    (StableHlo.after hostOps4_2 Vv (Proc.devRef .tc main_v85) : S1x32.Idx → EReal)
      = shapeCast S1x32 (Vv (Proc.devRef .tc main_arg4) : S32.Idx → EReal) shapeCasts_S32_S1x32 :=
  hostOps4_2_v85G Vv
theorem hostOps6_v90 :
    (StableHlo.after hostOps6 Vv (Proc.devRef .tc main_v90) : S128x32.Idx → EReal)
      = featK (Vv (Proc.devRef .tc main_v87)) (Vv (Proc.devRef .tc main_v12)) := hostOps6_v90G Vv
theorem hostOps7_v119 :
    (StableHlo.after hostOps7 Vv (Proc.devRef .tc main_v119) : S100000x32.Idx → EReal)
      = aggK (Vv (Proc.devRef .tc main_v91)) (Vv (Proc.devRef .tc main_v6))
          (Vv (Proc.devRef .tc main_arg7)) (Vv (Proc.devRef .tc main_arg8)) := hostOps7_v119G Vv
theorem hostOps7_c30 :
    (StableHlo.after hostOps7 Vv (Proc.devRef .tc main_c_30) : IVec S_ 32) = constantI S_ 32 0#32 :=
  hostOps7_c30G Vv
theorem hostOps7_1_v120 :
    (StableHlo.after hostOps7_1 Vv (Proc.devRef .tc main_v120) : S100352x32.Idx → EReal)
      = padRowsK (Vv (Proc.devRef .tc main_v119)) (Vv (Proc.devRef .tc main_c_30)) := hostOps7_1_v120G Vv
theorem hostOps7_2_v121 :
    (StableHlo.after hostOps7_2 Vv (Proc.devRef .tc main_v121) : S1x32.Idx → EReal)
      = shapeCast S1x32 (Vv (Proc.devRef .tc main_arg6) : S32.Idx → EReal) shapeCasts_S32_S1x32 :=
  hostOps7_2_v121G Vv
theorem hostOps9_v133 :
    (StableHlo.after hostOps9 Vv (Proc.devRef .tc main_v133) : S128x32.Idx → EReal)
      = tailK (Vv (Proc.devRef .tc main_v54)) (Vv (Proc.devRef .tc main_v90))
          (Vv (Proc.devRef .tc main_v123)) (Vv (Proc.devRef .tc main_v12)) := hostOps9_v133G Vv

end Cert.Bridge
-- ==== Proof.Bridge.Entry.lean ====
import proofs.«423851_j31086973288655_1_alg».proof.Proof.KI.Chain
import proofs.«423851_j31086973288655_1_alg».proof.Proof.Bridge.KHost

set_option maxRecDepth 16384

noncomputable section

namespace Cert.Bridge

open Idealize.ShloMosaic Idealize.ShloMosaic.TcCoe
open Cert.KernelIdeal Cert.KernelIdeal.Gen

variable (m : (ℓ : Loc nD τ sig) → Buf (Elt Ideal) ℓ) (c : Dev nD)

theorem arg0_at3 :
    W3 m c (Proc.devRef .tc main_arg0) = W0 m c (Proc.devRef .tc main_arg0) :=
  (W3_of m c main_arg0 (by decide)).trans <| (W2_of m c main_arg0 (by decide)).trans <|
    W1_of m c main_arg0 (by decide)

theorem arg1_at4 :
    W4 m c (Proc.devRef .tc main_arg1) = W0 m c (Proc.devRef .tc main_arg1) :=
  (W4_of m c main_arg1 (by decide)).trans <| (W3_of m c main_arg1 (by decide)).trans <|
    (W2_of m c main_arg1 (by decide)).trans <| W1_of m c main_arg1 (by decide)

theorem arg2_at7 :
    W7 m c (Proc.devRef .tc main_arg2) = W0 m c (Proc.devRef .tc main_arg2) :=
  (W7_of m c main_arg2 (by decide)).trans <| (W6_of m c main_arg2 (by decide)).trans <|
    (W5_of m c main_arg2 (by decide)).trans <| (W4_of m c main_arg2 (by decide)).trans <|
    (W3_of m c main_arg2 (by decide)).trans <| (W2_of m c main_arg2 (by decide)).trans <|
    W1_of m c main_arg2 (by decide)

theorem arg3_at11 :
    W11 m c (Proc.devRef .tc main_arg3) = W0 m c (Proc.devRef .tc main_arg3) :=
  (W11_of m c main_arg3 (by decide)).trans <| (W10_of m c main_arg3 (by decide)).trans <|
    (W9_of m c main_arg3 (by decide)).trans <| (W8_of m c main_arg3 (by decide)).trans <|
    (W7_of m c main_arg3 (by decide)).trans <| (W6_of m c main_arg3 (by decide)).trans <|
    (W5_of m c main_arg3 (by decide)).trans <| (W4_of m c main_arg3 (by decide)).trans <|
    (W3_of m c main_arg3 (by decide)).trans <| (W2_of m c main_arg3 (by decide)).trans <|
    W1_of m c main_arg3 (by decide)

theorem arg4_at14 :
    W14 m c (Proc.devRef .tc main_arg4) = W0 m c (Proc.devRef .tc main_arg4) :=
  (W14_of m c main_arg4 (by decide)).trans <| (W13_of m c main_arg4 (by decide)).trans <|
    (W12_of m c main_arg4 (by decide)).trans <| (W11_of m c main_arg4 (by decide)).trans <|
    (W10_of m c main_arg4 (by decide)).trans <| (W9_of m c main_arg4 (by decide)).trans <|
    (W8_of m c main_arg4 (by decide)).trans <| (W7_of m c main_arg4 (by decide)).trans <|
    (W6_of m c main_arg4 (by decide)).trans <| (W5_of m c main_arg4 (by decide)).trans <|
    (W4_of m c main_arg4 (by decide)).trans <| (W3_of m c main_arg4 (by decide)).trans <|
    (W2_of m c main_arg4 (by decide)).trans <| W1_of m c main_arg4 (by decide)

theorem arg5_at18 :
    W18 m c (Proc.devRef .tc main_arg5) = W0 m c (Proc.devRef .tc main_arg5) :=
  (W18_of m c main_arg5 (by decide)).trans <| (W17_of m c main_arg5 (by decide)).trans <|
    (W16_of m c main_arg5 (by decide)).trans <| (W15_of m c main_arg5 (by decide)).trans <|
    (W14_of m c main_arg5 (by decide)).trans <| (W13_of m c main_arg5 (by decide)).trans <|
    (W12_of m c main_arg5 (by decide)).trans <| (W11_of m c main_arg5 (by decide)).trans <|
    (W10_of m c main_arg5 (by decide)).trans <| (W9_of m c main_arg5 (by decide)).trans <|
    (W8_of m c main_arg5 (by decide)).trans <| (W7_of m c main_arg5 (by decide)).trans <|
    (W6_of m c main_arg5 (by decide)).trans <| (W5_of m c main_arg5 (by decide)).trans <|
    (W4_of m c main_arg5 (by decide)).trans <| (W3_of m c main_arg5 (by decide)).trans <|
    (W2_of m c main_arg5 (by decide)).trans <| W1_of m c main_arg5 (by decide)

theorem arg6_at21 :
    W21 m c (Proc.devRef .tc main_arg6) = W0 m c (Proc.devRef .tc main_arg6) :=
  (W21_of m c main_arg6 (by decide)).trans <| (W20_of m c main_arg6 (by decide)).trans <|
    (W19_of m c main_arg6 (by decide)).trans <| (W18_of m c main_arg6 (by decide)).trans <|
    (W17_of m c main_arg6 (by decide)).trans <| (W16_of m c main_arg6 (by decide)).trans <|
    (W15_of m c main_arg6 (by decide)).trans <| (W14_of m c main_arg6 (by decide)).trans <|
    (W13_of m c main_arg6 (by decide)).trans <| (W12_of m c main_arg6 (by decide)).trans <|
    (W11_of m c main_arg6 (by decide)).trans <| (W10_of m c main_arg6 (by decide)).trans <|
    (W9_of m c main_arg6 (by decide)).trans <| (W8_of m c main_arg6 (by decide)).trans <|
    (W7_of m c main_arg6 (by decide)).trans <| (W6_of m c main_arg6 (by decide)).trans <|
    (W5_of m c main_arg6 (by decide)).trans <| (W4_of m c main_arg6 (by decide)).trans <|
    (W3_of m c main_arg6 (by decide)).trans <| (W2_of m c main_arg6 (by decide)).trans <|
    W1_of m c main_arg6 (by decide)

theorem arg7_at5 :
    W5 m c (Proc.devRef .tc main_arg7) = W0 m c (Proc.devRef .tc main_arg7) :=
  (W5_of m c main_arg7 (by decide)).trans <| (W4_of m c main_arg7 (by decide)).trans <|
    (W3_of m c main_arg7 (by decide)).trans <| (W2_of m c main_arg7 (by decide)).trans <|
    W1_of m c main_arg7 (by decide)

theorem arg7_at12 :
    W12 m c (Proc.devRef .tc main_arg7) = W0 m c (Proc.devRef .tc main_arg7) :=
  ((W12_of m c main_arg7 (by decide)).trans <| (W11_of m c main_arg7 (by decide)).trans <|
    (W10_of m c main_arg7 (by decide)).trans <| (W9_of m c main_arg7 (by decide)).trans <|
    (W8_of m c main_arg7 (by decide)).trans <| (W7_of m c main_arg7 (by decide)).trans <|
    W6_of m c main_arg7 (by decide)).trans
    (arg7_at5 m c)

theorem arg7_at19 :
    W19 m c (Proc.devRef .tc main_arg7) = W0 m c (Proc.devRef .tc main_arg7) :=
  ((W19_of m c main_arg7 (by decide)).trans <| (W18_of m c main_arg7 (by decide)).trans <|
    (W17_of m c main_arg7 (by decide)).trans <| (W16_of m c main_arg7 (by decide)).trans <|
    (W15_of m c main_arg7 (by decide)).trans <| (W14_of m c main_arg7 (by decide)).trans <|
    W13_of m c main_arg7 (by decide)).trans
    (arg7_at12 m c)

theorem arg8_at5 :
    W5 m c (Proc.devRef .tc main_arg8) = W0 m c (Proc.devRef .tc main_arg8) :=
  (W5_of m c main_arg8 (by decide)).trans <| (W4_of m c main_arg8 (by decide)).trans <|
    (W3_of m c main_arg8 (by decide)).trans <| (W2_of m c main_arg8 (by decide)).trans <|
    W1_of m c main_arg8 (by decide)

theorem arg8_at12 :
    W12 m c (Proc.devRef .tc main_arg8) = W0 m c (Proc.devRef .tc main_arg8) :=
  ((W12_of m c main_arg8 (by decide)).trans <| (W11_of m c main_arg8 (by decide)).trans <|
    (W10_of m c main_arg8 (by decide)).trans <| (W9_of m c main_arg8 (by decide)).trans <|
    (W8_of m c main_arg8 (by decide)).trans <| (W7_of m c main_arg8 (by decide)).trans <|
    W6_of m c main_arg8 (by decide)).trans
    (arg8_at5 m c)

theorem arg8_at19 :
    W19 m c (Proc.devRef .tc main_arg8) = W0 m c (Proc.devRef .tc main_arg8) :=
  ((W19_of m c main_arg8 (by decide)).trans <| (W18_of m c main_arg8 (by decide)).trans <|
    (W17_of m c main_arg8 (by decide)).trans <| (W16_of m c main_arg8 (by decide)).trans <|
    (W15_of m c main_arg8 (by decide)).trans <| (W14_of m c main_arg8 (by decide)).trans <|
    W13_of m c main_arg8 (by decide)).trans
    (arg8_at12 m c)

theorem arg9_at1 :
    W1 m c (Proc.devRef .tc main_arg9) = W0 m c (Proc.devRef .tc main_arg9) :=
  W1_of m c main_arg9 (by decide)

theorem dinv_at1 :
    (W1 m c (Proc.devRef .tc main_v6) : S100000.Idx → EReal) = dinvK (W0 m c (Proc.devRef .tc main_arg8)) :=
  hostOps0_v6 (W0 m c)

theorem dinv_at5 :
    (W5 m c (Proc.devRef .tc main_v6) : S100000.Idx → EReal) = dinvK (W0 m c (Proc.devRef .tc main_arg8)) :=
  ((W5_of m c main_v6 (by decide)).trans <| (W4_of m c main_v6 (by decide)).trans <|
    (W3_of m c main_v6 (by decide)).trans <| W2_of m c main_v6 (by decide)).trans
    (dinv_at1 m c)

theorem dinv_at12 :
    (W12 m c (Proc.devRef .tc main_v6) : S100000.Idx → EReal) = dinvK (W0 m c (Proc.devRef .tc main_arg8)) :=
  ((W12_of m c main_v6 (by decide)).trans <| (W11_of m c main_v6 (by decide)).trans <|
    (W10_of m c main_v6 (by decide)).trans <| (W9_of m c main_v6 (by decide)).trans <|
    (W8_of m c main_v6 (by decide)).trans <| (W7_of m c main_v6 (by decide)).trans <| W6_of m c main_v6 (by decide)).trans
    (dinv_at5 m c)

theorem dinv_at19 :
    (W19 m c (Proc.devRef .tc main_v6) : S100000.Idx → EReal) = dinvK (W0 m c (Proc.devRef .tc main_arg8)) :=
  ((W19_of m c main_v6 (by decide)).trans <| (W18_of m c main_v6 (by decide)).trans <|
    (W17_of m c main_v6 (by decide)).trans <| (W16_of m c main_v6 (by decide)).trans <|
    (W15_of m c main_v6 (by decide)).trans <| (W14_of m c main_v6 (by decide)).trans <|
    W13_of m c main_v6 (by decide)).trans
    (dinv_at12 m c)

theorem counts_at1 :
    (W1 m c (Proc.devRef .tc main_v12) : S128.Idx → EReal) = countsK (W0 m c (Proc.devRef .tc main_arg9)) :=
  hostOps0_v12 (W0 m c)

theorem counts_at10 :
    (W10 m c (Proc.devRef .tc main_v12) : S128.Idx → EReal) = countsK (W0 m c (Proc.devRef .tc main_arg9)) :=
  ((W10_of m c main_v12 (by decide)).trans <| (W9_of m c main_v12 (by decide)).trans <|
    (W8_of m c main_v12 (by decide)).trans <| (W7_of m c main_v12 (by decide)).trans <|
    (W6_of m c main_v12 (by decide)).trans <| (W5_of m c main_v12 (by decide)).trans <|
    (W4_of m c main_v12 (by decide)).trans <| (W3_of m c main_v12 (by decide)).trans <|
    W2_of m c main_v12 (by decide)).trans
    (counts_at1 m c)

theorem counts_at17 :
    (W17 m c (Proc.devRef .tc main_v12) : S128.Idx → EReal) = countsK (W0 m c (Proc.devRef .tc main_arg9)) :=
  ((W17_of m c main_v12 (by decide)).trans <| (W16_of m c main_v12 (by decide)).trans <|
    (W15_of m c main_v12 (by decide)).trans <| (W14_of m c main_v12 (by decide)).trans <|
    (W13_of m c main_v12 (by decide)).trans <| (W12_of m c main_v12 (by decide)).trans <|
    W11_of m c main_v12 (by decide)).trans
    (counts_at10 m c)

theorem counts_at24 :
    (W24 m c (Proc.devRef .tc main_v12) : S128.Idx → EReal) = countsK (W0 m c (Proc.devRef .tc main_arg9)) :=
  ((W24_of m c main_v12 (by decide)).trans <| (W23_of m c main_v12 (by decide)).trans <|
    (W22_of m c main_v12 (by decide)).trans <| (W21_of m c main_v12 (by decide)).trans <|
    (W20_of m c main_v12 (by decide)).trans <| (W19_of m c main_v12 (by decide)).trans <|
    W18_of m c main_v12 (by decide)).trans
    (counts_at17 m c)

theorem dcol_at1 :
    (W1 m c (Proc.devRef .tc main_v15) : S100352x1.Idx → EReal) = dinvColK (dinvK (W0 m c (Proc.devRef .tc main_arg8))) :=
  hostOps0_v15 (W0 m c)

theorem dcol_at8 :
    (W8 m c (Proc.devRef .tc main_v15) : S100352x1.Idx → EReal) = dinvColK (dinvK (W0 m c (Proc.devRef .tc main_arg8))) :=
  ((W8_of m c main_v15 (by decide)).trans <| (W7_of m c main_v15 (by decide)).trans <|
    (W6_of m c main_v15 (by decide)).trans <| (W5_of m c main_v15 (by decide)).trans <|
    (W4_of m c main_v15 (by decide)).trans <| (W3_of m c main_v15 (by decide)).trans <|
    W2_of m c main_v15 (by decide)).trans
    (dcol_at1 m c)

theorem dcol_at15 :
    (W15 m c (Proc.devRef .tc main_v15) : S100352x1.Idx → EReal) = dinvColK (dinvK (W0 m c (Proc.devRef .tc main_arg8))) :=
  ((W15_of m c main_v15 (by decide)).trans <| (W14_of m c main_v15 (by decide)).trans <|
    (W13_of m c main_v15 (by decide)).trans <| (W12_of m c main_v15 (by decide)).trans <|
    (W11_of m c main_v15 (by decide)).trans <| (W10_of m c main_v15 (by decide)).trans <|
    W9_of m c main_v15 (by decide)).trans
    (dcol_at8 m c)

theorem dcol_at22 :
    (W22 m c (Proc.devRef .tc main_v15) : S100352x1.Idx → EReal) = dinvColK (dinvK (W0 m c (Proc.devRef .tc main_arg8))) :=
  ((W22_of m c main_v15 (by decide)).trans <| (W21_of m c main_v15 (by decide)).trans <|
    (W20_of m c main_v15 (by decide)).trans <| (W19_of m c main_v15 (by decide)).trans <|
    (W18_of m c main_v15 (by decide)).trans <| (W17_of m c main_v15 (by decide)).trans <|
    W16_of m c main_v15 (by decide)).trans
    (dcol_at15 m c)

theorem brow_at3 :
    (W3 m c (Proc.devRef .tc main_v17) : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 := by
  have e9 : (W1 m c (Proc.devRef .tc main_arg9) : IVec S100000 32) = W0 m c (Proc.devRef .tc main_arg9) := arg9_at1 m c
  have ec : (W1 m c (Proc.devRef .tc main_c) : IVec S_ 32) = constantI S_ 32 4294967295#32 := hostOps0_c (W0 m c)
  have e16 : (W2 m c (Proc.devRef .tc main_v16) : IVec S100352 32)
        = pad S100352 ![0] ![352] ![0] (W1 m c (Proc.devRef .tc main_arg9) : IVec S100000 32) (W1 m c (Proc.devRef .tc main_c) : IVec S_ 32)
            pads_S100000_S100352_03520 h_S_ := hostOps0_1_v16 (W1 m c)
  refine (hostOps0_2_v17 (W2 m c)).trans ?_
  rw [e16, e9, ec]

theorem brow_at9 :
    (W9 m c (Proc.devRef .tc main_v17) : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  ((W9_of m c main_v17 (by decide)).trans <| (W8_of m c main_v17 (by decide)).trans <|
    (W7_of m c main_v17 (by decide)).trans <| (W6_of m c main_v17 (by decide)).trans <|
    (W5_of m c main_v17 (by decide)).trans <| W4_of m c main_v17 (by decide)).trans
    (brow_at3 m c)

theorem brow_at16 :
    (W16 m c (Proc.devRef .tc main_v17) : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  ((W16_of m c main_v17 (by decide)).trans <| (W15_of m c main_v17 (by decide)).trans <|
    (W14_of m c main_v17 (by decide)).trans <| (W13_of m c main_v17 (by decide)).trans <|
    (W12_of m c main_v17 (by decide)).trans <| (W11_of m c main_v17 (by decide)).trans <|
    W10_of m c main_v17 (by decide)).trans
    (brow_at9 m c)

theorem brow_at23 :
    (W23 m c (Proc.devRef .tc main_v17) : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  ((W23_of m c main_v17 (by decide)).trans <| (W22_of m c main_v17 (by decide)).trans <|
    (W21_of m c main_v17 (by decide)).trans <| (W20_of m c main_v17 (by decide)).trans <|
    (W19_of m c main_v17 (by decide)).trans <| (W18_of m c main_v17 (by decide)).trans <|
    W17_of m c main_v17 (by decide)).trans
    (brow_at16 m c)

theorem entry_v18 :
    (W4 m c (Proc.devRef .tc main_v18) : S100352x64.Idx → EReal)
      = padXK (W0 m c (Proc.devRef .tc main_arg0)) (constantI S_ 32 0#32) := by
  have e0 : (W3 m c (Proc.devRef .tc main_arg0) : S100000x64.Idx → EReal) = W0 m c (Proc.devRef .tc main_arg0) := arg0_at3 m c
  have ec : (W3 m c (Proc.devRef .tc main_c_6) : IVec S_ 32) = constantI S_ 32 0#32 := hostOps0_2_c6 (W2 m c)
  refine (hostOps0_3_v18 (W3 m c)).trans ?_
  rw [e0, ec]

theorem entry_w0 :
    W4 m c (Proc.devRef .tc main_arg1) = W0 m c (Proc.devRef .tc main_arg1) :=
  arg1_at4 m c

theorem entry_w3 :
    W11 m c (Proc.devRef .tc main_arg3) = W0 m c (Proc.devRef .tc main_arg3) :=
  arg3_at11 m c

theorem entry_w6 :
    W18 m c (Proc.devRef .tc main_arg5) = W0 m c (Proc.devRef .tc main_arg5) :=
  arg5_at18 m c

theorem agg1 :
    (W8 m c (Proc.devRef .tc main_v48) : S100352x32.Idx → EReal)
      = padRowsK
          (aggK (W5 m c (Proc.devRef .tc main_v19)) (dinvK (W0 m c (Proc.devRef .tc main_arg8)))
            (W0 m c (Proc.devRef .tc main_arg7)) (W0 m c (Proc.devRef .tc main_arg8)))
          (constantI S_ 32 0#32) := by
  have e47 : (W6 m c (Proc.devRef .tc main_v47) : S100000x32.Idx → EReal)
        = aggK (W5 m c (Proc.devRef .tc main_v19)) (W5 m c (Proc.devRef .tc main_v6))
            (W5 m c (Proc.devRef .tc main_arg7)) (W5 m c (Proc.devRef .tc main_arg8)) := hostOps1_v47 (W5 m c)
  have ec : (W6 m c (Proc.devRef .tc main_c_14) : IVec S_ 32) = constantI S_ 32 0#32 := hostOps1_c14 (W5 m c)
  have e48 : (W7 m c (Proc.devRef .tc main_v48) : S100352x32.Idx → EReal)
        = padRowsK (W6 m c (Proc.devRef .tc main_v47)) (W6 m c (Proc.devRef .tc main_c_14)) := hostOps1_1_v48 (W6 m c)
  refine (W8_of m c main_v48 (by decide)).trans ?_
  rw [e48, e47, ec, dinv_at5 m c, arg7_at5 m c, arg8_at5 m c]

theorem hlin1_keep :
    W8 m c (Proc.devRef .tc main_v19) = W5 m c (Proc.devRef .tc main_v19) :=
  (W8_of m c main_v19 (by decide)).trans <| (W7_of m c main_v19 (by decide)).trans <|
    W6_of m c main_v19 (by decide)

theorem bias1 :
    (W8 m c (Proc.devRef .tc main_v49) : S1x32.Idx → EReal)
      = shapeCast S1x32 (W0 m c (Proc.devRef .tc main_arg2) : S32.Idx → EReal) shapeCasts_S32_S1x32 := by
  have e : (W7 m c (Proc.devRef .tc main_arg2) : S32.Idx → EReal) = W0 m c (Proc.devRef .tc main_arg2) := arg2_at7 m c
  refine (hostOps1_2_v49 (W7 m c)).trans ?_
  rw [e]

theorem h1_keep11 :
    W11 m c (Proc.devRef .tc main_v50) = W9 m c (Proc.devRef .tc main_v50) :=
  (W11_of m c main_v50 (by decide)).trans <| W10_of m c main_v50 (by decide)

theorem feat1 :
    (W24 m c (Proc.devRef .tc main_v54) : S128x32.Idx → EReal)
      = featK (W10 m c (Proc.devRef .tc main_v51)) (countsK (W0 m c (Proc.devRef .tc main_arg9))) := by
  have e : (W11 m c (Proc.devRef .tc main_v54) : S128x32.Idx → EReal)
        = featK (W10 m c (Proc.devRef .tc main_v51)) (W10 m c (Proc.devRef .tc main_v12)) := hostOps3_v54 (W10 m c)
  refine ((W24_of m c main_v54 (by decide)).trans <| (W23_of m c main_v54 (by decide)).trans <|
      (W22_of m c main_v54 (by decide)).trans <| (W21_of m c main_v54 (by decide)).trans <|
      (W20_of m c main_v54 (by decide)).trans <| (W19_of m c main_v54 (by decide)).trans <|
      (W18_of m c main_v54 (by decide)).trans <| (W17_of m c main_v54 (by decide)).trans <|
      (W16_of m c main_v54 (by decide)).trans <| (W15_of m c main_v54 (by decide)).trans <|
      (W14_of m c main_v54 (by decide)).trans <| (W13_of m c main_v54 (by decide)).trans <|
      W12_of m c main_v54 (by decide)).trans ?_
  rw [e, counts_at10 m c]

theorem agg2 :
    (W15 m c (Proc.devRef .tc main_v84) : S100352x32.Idx → EReal)
      = padRowsK
          (aggK (W12 m c (Proc.devRef .tc main_v55)) (dinvK (W0 m c (Proc.devRef .tc main_arg8)))
            (W0 m c (Proc.devRef .tc main_arg7)) (W0 m c (Proc.devRef .tc main_arg8)))
          (constantI S_ 32 0#32) := by
  have e47 : (W13 m c (Proc.devRef .tc main_v83) : S100000x32.Idx → EReal)
        = aggK (W12 m c (Proc.devRef .tc main_v55)) (W12 m c (Proc.devRef .tc main_v6))
            (W12 m c (Proc.devRef .tc main_arg7)) (W12 m c (Proc.devRef .tc main_arg8)) := hostOps4_v83 (W12 m c)
  have ec : (W13 m c (Proc.devRef .tc main_c_22) : IVec S_ 32) = constantI S_ 32 0#32 := hostOps4_c22 (W12 m c)
  have e48 : (W14 m c (Proc.devRef .tc main_v84) : S100352x32.Idx → EReal)
        = padRowsK (W13 m c (Proc.devRef .tc main_v83)) (W13 m c (Proc.devRef .tc main_c_22)) := hostOps4_1_v84 (W13 m c)
  refine (W15_of m c main_v84 (by decide)).trans ?_
  rw [e48, e47, ec, dinv_at12 m c, arg7_at12 m c, arg8_at12 m c]

theorem hlin2_keep :
    W15 m c (Proc.devRef .tc main_v55) = W12 m c (Proc.devRef .tc main_v55) :=
  (W15_of m c main_v55 (by decide)).trans <| (W14_of m c main_v55 (by decide)).trans <|
    W13_of m c main_v55 (by decide)

theorem bias2 :
    (W15 m c (Proc.devRef .tc main_v85) : S1x32.Idx → EReal)
      = shapeCast S1x32 (W0 m c (Proc.devRef .tc main_arg4) : S32.Idx → EReal) shapeCasts_S32_S1x32 := by
  have e : (W14 m c (Proc.devRef .tc main_arg4) : S32.Idx → EReal) = W0 m c (Proc.devRef .tc main_arg4) := arg4_at14 m c
  refine (hostOps4_2_v85 (W14 m c)).trans ?_
  rw [e]

theorem h2_keep18 :
    W18 m c (Proc.devRef .tc main_v86) = W16 m c (Proc.devRef .tc main_v86) :=
  (W18_of m c main_v86 (by decide)).trans <| W17_of m c main_v86 (by decide)

theorem feat2 :
    (W24 m c (Proc.devRef .tc main_v90) : S128x32.Idx → EReal)
      = featK (W17 m c (Proc.devRef .tc main_v87)) (countsK (W0 m c (Proc.devRef .tc main_arg9))) := by
  have e : (W18 m c (Proc.devRef .tc main_v90) : S128x32.Idx → EReal)
        = featK (W17 m c (Proc.devRef .tc main_v87)) (W17 m c (Proc.devRef .tc main_v12)) := hostOps6_v90 (W17 m c)
  refine ((W24_of m c main_v90 (by decide)).trans <| (W23_of m c main_v90 (by decide)).trans <|
      (W22_of m c main_v90 (by decide)).trans <| (W21_of m c main_v90 (by decide)).trans <|
      (W20_of m c main_v90 (by decide)).trans <| W19_of m c main_v90 (by decide)).trans ?_
  rw [e, counts_at17 m c]

theorem agg3 :
    (W22 m c (Proc.devRef .tc main_v120) : S100352x32.Idx → EReal)
      = padRowsK
          (aggK (W19 m c (Proc.devRef .tc main_v91)) (dinvK (W0 m c (Proc.devRef .tc main_arg8)))
            (W0 m c (Proc.devRef .tc main_arg7)) (W0 m c (Proc.devRef .tc main_arg8)))
          (constantI S_ 32 0#32) := by
  have e47 : (W20 m c (Proc.devRef .tc main_v119) : S100000x32.Idx → EReal)
        = aggK (W19 m c (Proc.devRef .tc main_v91)) (W19 m c (Proc.devRef .tc main_v6))
            (W19 m c (Proc.devRef .tc main_arg7)) (W19 m c (Proc.devRef .tc main_arg8)) := hostOps7_v119 (W19 m c)
  have ec : (W20 m c (Proc.devRef .tc main_c_30) : IVec S_ 32) = constantI S_ 32 0#32 := hostOps7_c30 (W19 m c)
  have e48 : (W21 m c (Proc.devRef .tc main_v120) : S100352x32.Idx → EReal)
        = padRowsK (W20 m c (Proc.devRef .tc main_v119)) (W20 m c (Proc.devRef .tc main_c_30)) := hostOps7_1_v120 (W20 m c)
  refine (W22_of m c main_v120 (by decide)).trans ?_
  rw [e48, e47, ec, dinv_at19 m c, arg7_at19 m c, arg8_at19 m c]

theorem hlin3_keep :
    W22 m c (Proc.devRef .tc main_v91) = W19 m c (Proc.devRef .tc main_v91) :=
  (W22_of m c main_v91 (by decide)).trans <| (W21_of m c main_v91 (by decide)).trans <|
    W20_of m c main_v91 (by decide)

theorem bias3 :
    (W22 m c (Proc.devRef .tc main_v121) : S1x32.Idx → EReal)
      = shapeCast S1x32 (W0 m c (Proc.devRef .tc main_arg6) : S32.Idx → EReal) shapeCasts_S32_S1x32 := by
  have e : (W21 m c (Proc.devRef .tc main_arg6) : S32.Idx → EReal) = W0 m c (Proc.devRef .tc main_arg6) := arg6_at21 m c
  refine (hostOps7_2_v121 (W21 m c)).trans ?_
  rw [e]

theorem result_tail :
    (W25 m c (Proc.devRef .tc main_v133) : S128x32.Idx → EReal)
      = tailK (W24 m c (Proc.devRef .tc main_v54)) (W24 m c (Proc.devRef .tc main_v90))
          (W24 m c (Proc.devRef .tc main_v123)) (countsK (W0 m c (Proc.devRef .tc main_arg9))) := by
  refine (hostOps9_v133 (W24 m c)).trans ?_
  rw [counts_at24 m c]

theorem entry_v18_V :
    (VW4 m c main_v18 : S100352x64.Idx → EReal)
      = padXK (W0 m c (Proc.devRef .tc main_arg0)) (constantI S_ 32 0#32) :=
  entry_v18 m c

theorem entry_w0_V :
    VW4 m c main_arg1 = W0 m c (Proc.devRef .tc main_arg1) :=
  entry_w0 m c

theorem entry_w3_V :
    VW11 m c main_arg3 = W0 m c (Proc.devRef .tc main_arg3) :=
  entry_w3 m c

theorem entry_w6_V :
    VW18 m c main_arg5 = W0 m c (Proc.devRef .tc main_arg5) :=
  entry_w6 m c

theorem dcol_at8_V :
    (VW8 m c main_v15 : S100352x1.Idx → EReal) = dinvColK (dinvK (W0 m c (Proc.devRef .tc main_arg8))) :=
  dcol_at8 m c

theorem dcol_at15_V :
    (VW15 m c main_v15 : S100352x1.Idx → EReal) = dinvColK (dinvK (W0 m c (Proc.devRef .tc main_arg8))) :=
  dcol_at15 m c

theorem dcol_at22_V :
    (VW22 m c main_v15 : S100352x1.Idx → EReal) = dinvColK (dinvK (W0 m c (Proc.devRef .tc main_arg8))) :=
  dcol_at22 m c

theorem brow_at9_V :
    (VW9 m c main_v17 : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  brow_at9 m c

theorem brow_at16_V :
    (VW16 m c main_v17 : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  brow_at16 m c

theorem brow_at23_V :
    (VW23 m c main_v17 : IVec S1x100352 32)
      = shapeCast S1x100352
        (pad S100352 ![0] ![352] ![0] (W0 m c (Proc.devRef .tc main_arg9) : IVec S100000 32) (constantI S_ 32 4294967295#32)
          pads_S100000_S100352_03520 h_S_)
        shapeCasts_S100352_S1x100352 :=
  brow_at23 m c

theorem agg1_V :
    (VW8 m c main_v48 : S100352x32.Idx → EReal)
      = padRowsK (aggK (VW5 m c main_v19) (dinvK (W0 m c (Proc.devRef .tc main_arg8))) (W0 m c (Proc.devRef .tc main_arg7)) (W0 m c (Proc.devRef .tc main_arg8))) (constantI S_ 32 0#32) :=
  agg1 m c

theorem hlin1_keep_V :
    VW8 m c main_v19 = VW5 m c main_v19 :=
  hlin1_keep m c

theorem bias1_V :
    (VW8 m c main_v49 : S1x32.Idx → EReal)
      = shapeCast S1x32 (W0 m c (Proc.devRef .tc main_arg2) : S32.Idx → EReal) shapeCasts_S32_S1x32 :=
  bias1 m c

theorem h1_keep11_V :
    VW11 m c main_v50 = VW9 m c main_v50 :=
  h1_keep11 m c

theorem feat1_V :
    (W24 m c (Proc.devRef .tc main_v54) : S128x32.Idx → EReal)
      = featK (VW10 m c main_v51) (countsK (W0 m c (Proc.devRef .tc main_arg9))) :=
  feat1 m c

theorem agg2_V :
    (VW15 m c main_v84 : S100352x32.Idx → EReal)
      = padRowsK (aggK (VW12 m c main_v55) (dinvK (W0 m c (Proc.devRef .tc main_arg8))) (W0 m c (Proc.devRef .tc main_arg7)) (W0 m c (Proc.devRef .tc main_arg8))) (constantI S_ 32 0#32) :=
  agg2 m c

theorem hlin2_keep_V :
    VW15 m c main_v55 = VW12 m c main_v55 :=
  hlin2_keep m c

theorem bias2_V :
    (VW15 m c main_v85 : S1x32.Idx → EReal)
      = shapeCast S1x32 (W0 m c (Proc.devRef .tc main_arg4) : S32.Idx → EReal) shapeCasts_S32_S1x32 :=
  bias2 m c

theorem h2_keep18_V :
    VW18 m c main_v86 = VW16 m c main_v86 :=
  h2_keep18 m c

theorem feat2_V :
    (W24 m c (Proc.devRef .tc main_v90) : S128x32.Idx → EReal)
      = featK (VW17 m c main_v87) (countsK (W0 m c (Proc.devRef .tc main_arg9))) :=
  feat2 m c

theorem agg3_V :
    (VW22 m c main_v120 : S100352x32.Idx → EReal)
      = padRowsK (aggK (VW19 m c main_v91) (dinvK (W0 m c (Proc.devRef .tc main_arg8))) (W0 m c (Proc.devRef .tc main_arg7)) (W0 m c (Proc.devRef .tc main_arg8))) (constantI S_ 32 0#32) :=
  agg3 m c

theorem hlin3_keep_V :
    VW22 m c main_v91 = VW19 m c main_v91 :=
  hlin3_keep m c

theorem bias3_V :
    (VW22 m c main_v121 : S1x32.Idx → EReal)
      = shapeCast S1x32 (W0 m c (Proc.devRef .tc main_arg6) : S32.Idx → EReal) shapeCasts_S32_S1x32 :=
  bias3 m c

theorem result_tail_V :
    (W25 m c (Proc.devRef .tc main_v133) : S128x32.Idx → EReal)
      = tailK (W24 m c (Proc.devRef .tc main_v54)) (W24 m c (Proc.devRef .tc main_v90))
          (VW24 m c main_v123) (countsK (W0 m c (Proc.devRef .tc main_arg9))) :=
  result_tail m c

end Cert.Bridge

end
-- ==== Proof.Bridge.GatherRows.lean ====
import proofs.«423851_j31086973288655_1_alg».proof.KernelIdeal
import proofs.«423851_j31086973288655_1_alg».proof.ReferenceIdeal
import Idealize.ShloMosaic.Lib.ValueIdx
import Idealize.ShloMosaic.Lib.StableHlo.Predicate

noncomputable section

namespace Cert.Bridge

open Idealize.ShloMosaic Idealize.ShloMosaic.ValueIdx

section Rows
variable {α : Type}

abbrev rowDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (e : Fin n) (j : Fin C) :
    Host.gather (rowDims N n C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowDims N n C wf).start (ix2 e j) idx 0 + (rowDims N n C wf).batchCoord (ix2 e j) 0
        + (rowDims N n C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n C wf).startIndexMap from List.mem_singleton.mpr rfl)]
    have hsi : (rowDims N n C wf).siIdx (ix2 e j) ⟨List.idxOf (0 : Fin 2) (rowDims N n C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N n C wf).start (ix2 e j) idx 1 + (rowDims N n C wf).batchCoord (ix2 e j) 1
        + (rowDims N n C wf).offCoord (ix2 e j) 1 = _
    have hk : (1 : Fin 2) ∈ (rowDims N n C wf).sKept :=
      (GatherDims.mem_sKept _ _).mpr ⟨(by decide : (1 : Fin 2) ∉ ([0] : List (Fin 2))), List.not_mem_nil⟩
    rw [GatherDims.batchCoord_eq_zero _ _ _ List.not_mem_nil]
    unfold GatherDims.start GatherDims.offCoord
    rw [dif_neg (show (1 : Fin 2) ∉ (rowDims N n C wf).startIndexMap from
      (by decide : (1 : Fin 2) ∉ ([0] : List (Fin 2)))), dif_pos hk]
    simp only [Nat.add_zero, Nat.zero_add]
    rfl

theorem bcast_col_apply {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  simp only [broadcastInDim]
  congr 1
  funext a
  have ha : a = 0 := Subsingleton.elim _ _
  subst ha
  apply Fin.ext
  have he := e.isLt
  split
  · next h1 => change n = 1 at h1; show (0 : Nat) = e.val; omega
  · rfl

theorem read_row_eq {N C : Nat} (x : (⟨2, ![N, C]⟩ : Shape).Idx → α) (a b : Fin N) (j : Fin C) (h : a.val = b.val) :
    x (ix2 a j) = x (ix2 b j) := by
  rw [Fin.ext h]

end Rows

theorem slt_zero_of_nonneg (s : BitVec 32) (h : 0 ≤ s.toInt) : IntOp.cmpi .slt s 0#32 = 0#1 := by
  have hs : s.slt 0#32 = false := by
    simp only [BitVec.slt, BitVec.toInt_zero, decide_eq_false_iff_not, not_lt]
    exact h
  show BitVec.ofBool (s.slt 0#32) = 0#1
  rw [hs]
  rfl

section Unit

theorem gatherP_apply [Cert.KernelIdeal.Facts₀] (x : Cert.KernelIdeal.S100352x32.Idx → EReal) (idx : IVec Cert.KernelIdeal.S1600000x1 32)
    (e : Fin 1600000) (j : Fin 32) :
    Host.gather Cert.KernelIdeal.gather_S100352x32_S1600000x1_S1600000x32_1_0_n_n_0_1_132 x idx (ix2 e j)
      = x (ix2 ⟨min (idx (ix2 e (0 : Fin 1))).toInt.toNat 100351, by omega⟩ j) :=
  gather_rows_apply (N := 100352) (n := 1600000) (C := 32) (by decide)
    Cert.KernelIdeal.Facts₀.gather_S100352x32_S1600000x1_S1600000x32_1_0_n_n_0_1_132_wf x idx e j

theorem gatherR_apply [Cert.ReferenceIdeal.Facts₀] (x : Cert.ReferenceIdeal.S100000x32.Idx → EReal) (idx : IVec Cert.ReferenceIdeal.S1600000x1 32)
    (e : Fin 1600000) (j : Fin 32) :
    Host.gather Cert.ReferenceIdeal.gather_S100000x32_S1600000x1_S1600000x32_1_0_n_n_0_1_132 x idx (ix2 e j)
      = x (ix2 ⟨min (idx (ix2 e (0 : Fin 1))).toInt.toNat 99999, by omega⟩ j) :=
  gather_rows_apply (N := 100000) (n := 1600000) (C := 32) (by decide)
    Cert.ReferenceIdeal.Facts₀.gather_S100000x32_S1600000x1_S1600000x32_1_0_n_n_0_1_132_wf x idx e j

def idxP [Cert.KernelIdeal.Facts₀] (src : IVec Cert.KernelIdeal.S1600000 32) : IVec Cert.KernelIdeal.S1600000x1 32 :=
  broadcastInDim Cert.KernelIdeal.S1600000x1 ![0] Cert.KernelIdeal.Facts₀.bcast_S1600000_S1600000x1_0
    (select
      (cmpi .slt src
        (broadcastInDim Cert.KernelIdeal.S1600000 ![] Cert.KernelIdeal.Facts₀.bcast_S_S1600000
          (constantI Cert.KernelIdeal.S_ 32 0#32)))
      (addi src
        (broadcastInDim Cert.KernelIdeal.S1600000 ![] Cert.KernelIdeal.Facts₀.bcast_S_S1600000
          (constantI Cert.KernelIdeal.S_ 32 100352#32)))
      src)

def idxR [Cert.ReferenceIdeal.Facts₀] (src : IVec Cert.ReferenceIdeal.S1600000 32) : IVec Cert.ReferenceIdeal.S1600000x1 32 :=
  broadcastInDim Cert.ReferenceIdeal.S1600000x1 ![0] Cert.ReferenceIdeal.Facts₀.bcast_S1600000_S1600000x1_0
    (select
      (cmpi .slt src
        (broadcastInDim Cert.ReferenceIdeal.S1600000 ![] Cert.ReferenceIdeal.Facts₀.bcast_S_S1600000
          (constantI Cert.ReferenceIdeal.S_ 32 0#32)))
      (addi src
        (broadcastInDim Cert.ReferenceIdeal.S1600000 ![] Cert.ReferenceIdeal.Facts₀.bcast_S_S1600000
          (constantI Cert.ReferenceIdeal.S_ 32 100000#32)))
      src)

theorem idxP_apply [Cert.KernelIdeal.Facts₀] (src : IVec Cert.KernelIdeal.S1600000 32) (e : Fin 1600000) (h : 0 ≤ (src (ix1 e)).toInt) :
    idxP src (ix2 e (0 : Fin 1)) = src (ix1 e) := by
  unfold idxP
  refine (bcast_col_apply (n := 1600000) _ _ e 0).trans ?_
  show Scalar.select (IntOp.cmpi .slt (src (ix1 e)) 0#32) _ (src (ix1 e)) = src (ix1 e)
  rw [slt_zero_of_nonneg _ h, select_zero]

theorem idxR_apply [Cert.ReferenceIdeal.Facts₀] (src : IVec Cert.ReferenceIdeal.S1600000 32) (e : Fin 1600000) (h : 0 ≤ (src (ix1 e)).toInt) :
    idxR src (ix2 e (0 : Fin 1)) = src (ix1 e) := by
  unfold idxR
  refine (bcast_col_apply (n := 1600000) _ _ e 0).trans ?_
  show Scalar.select (IntOp.cmpi .slt (src (ix1 e)) 0#32) _ (src (ix1 e)) = src (ix1 e)
  rw [slt_zero_of_nonneg _ h, select_zero]

theorem gather_rows_agree [Cert.KernelIdeal.Facts₀] [Cert.ReferenceIdeal.Facts₀] (hP : Cert.KernelIdeal.S100352x32.Idx → EReal) (hR : Cert.ReferenceIdeal.S100000x32.Idx → EReal)
    (hag : ∀ (i : Fin 100000) (j : Fin 32), hP (ix2 ⟨i.val, by omega⟩ j) = hR (ix2 i j))
    (src : IVec Cert.KernelIdeal.S1600000 32)
    (hsrc : ∀ e : Fin 1600000, 0 ≤ (src (ix1 e)).toInt ∧ (src (ix1 e)).toInt < 100000) :
    Host.gather Cert.KernelIdeal.gather_S100352x32_S1600000x1_S1600000x32_1_0_n_n_0_1_132 hP (idxP src)
      = Host.gather Cert.ReferenceIdeal.gather_S100000x32_S1600000x1_S1600000x32_1_0_n_n_0_1_132 hR (idxR src) := by
  funext y
  obtain ⟨e, j, rfl⟩ : ∃ (e : Fin 1600000) (j : Fin 32), y = ix2 e j := ⟨y 0, y 1, eq_ix2 y⟩
  obtain ⟨h0, h1⟩ := hsrc e
  have hlt : (src (ix1 e)).toInt.toNat < 100000 := by omega
  rw [gatherP_apply, gatherR_apply]
  refine (read_row_eq hP _ ⟨(src (ix1 e)).toInt.toNat, by omega⟩ j ?_).trans
    ((hag ⟨(src (ix1 e)).toInt.toNat, hlt⟩ j).trans (read_row_eq hR ⟨(src (ix1 e)).toInt.toNat, hlt⟩ _ j ?_))
  · show min (idxP src (ix2 e (0 : Fin 1))).toInt.toNat 100351 = (src (ix1 e)).toInt.toNat
    rw [idxP_apply src e h0]; omega
  · show (src (ix1 e)).toInt.toNat = min (idxR src (ix2 e (0 : Fin 1))).toInt.toNat 99999
    rw [idxR_apply src e h0]; omega

end Unit

end Cert.Bridge

end
-- ==== Proof.Bridge.RHost.lean ====
import proofs.«423851_j31086973288655_1_alg».proof.ReferenceIdeal
import proofs.«423851_j31086973288655_1_alg».proof.Proof.Bridge.GatherRows
import proofs.«423851_j31086973288655_1_alg».proof.Proof.RefRun
import Idealize.ShloMosaic.Lib.StableHlo.Run
import Idealize.ShloMosaic.Lib.Pipeline.Frame
import Idealize.ShloMosaic.PureOps.Ideal

noncomputable section

namespace Cert.Bridge

open Idealize.ShloMosaic Idealize.SL.Sem
open Cert.ReferenceIdeal
open Cert.ReferenceIdeal.Facts₀

variable [Cert.ReferenceIdeal.Facts]

theorem nary3_resultR {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem nary3_resultR' {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_resultR f hxs hy G

macro "ref_results" : tactic =>
  `(tactic| (simp (disch := decide) only [Cert.ReferenceIdeal.Hand.ops0, Cert.ReferenceIdeal.Hand.ops1,
      Cert.ReferenceIdeal.Hand.ops2, Cert.ReferenceIdeal.Hand.ops3,
      Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Cert.Bridge.nary3_resultR', Idealize.ShloMosaic.StableHlo.nary_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.nary_result_ne']))

def dinvR (dst : IVec S1600000 32) : FVec Ideal S100000 .f32 :=
  Host.rsqrt (F := Ideal)
    (addf (F := Ideal)
      (Host.scatterAdd (F := Ideal) scatter_S100000_S1600000x1_S1600000_n_0_0_1
        (broadcastInDim (s := S_) S100000 ![] bcast_S_S100000 (constant (F := Ideal) S_ .f32 0x00000000#32))
        (broadcastInDim (s := S1600000) S1600000x1 ![0] bcast_S1600000_S1600000x1_0 dst)
        (broadcastInDim (s := S_) S1600000 ![] bcast_S_S1600000 (constant (F := Ideal) S_ .f32 0x3F800000#32)))
      (broadcastInDim (s := S_) S100000 ![] bcast_S_S100000 (constant (F := Ideal) S_ .f32 0x3F800000#32)))

def countsR (batch : IVec S100000 32) : FVec Ideal S128 .f32 :=
  maximumf (F := Ideal)
    (Host.scatterAdd (F := Ideal) scatter_S128_S100000x1_S100000_n_0_0_1
      (broadcastInDim (s := S_) S128 ![] bcast_S_S128 (constant (F := Ideal) S_ .f32 0x00000000#32))
      (broadcastInDim (s := S100000) S100000x1 ![0] bcast_S100000_S100000x1_0 batch)
      (broadcastInDim (s := S_) S100000 ![] bcast_S_S100000 (constant (F := Ideal) S_ .f32 0x3F800000#32)))
    (broadcastInDim (s := S_) S128 ![] bcast_S_S128 (constant (F := Ideal) S_ .f32 0x3F800000#32))

def dotR64 (x : FVec Ideal S100000x64 .f32) (W : FVec Ideal S64x32 .f32) : FVec Ideal S100000x32 .f32 :=
  Host.dotGeneral (F := Ideal) dot_S100000x64_S64x32_S100000x32_1_0_0_1_n_n none x W

def dotR32 (h : FVec Ideal S100000x32 .f32) (W : FVec Ideal S32x32 .f32) : FVec Ideal S100000x32 .f32 :=
  Host.dotGeneral (F := Ideal) dot_S100000x32_S32x32_S100000x32_1_0_0_1_n_n none h W

def aggR (hlin : FVec Ideal S100000x32 .f32) (dinv : FVec Ideal S100000 .f32) (src dst : IVec S1600000 32) :
    FVec Ideal S100000x32 .f32 :=
  Host.scatterAdd (F := Ideal) scatter_S100000x32_S1600000x1_S1600000x32_1_0_0_1
    (broadcastInDim (s := S_) S100000x32 ![] bcast_S_S100000x32 (constant (F := Ideal) S_ .f32 0x00000000#32))
    (broadcastInDim (s := S1600000) S1600000x1 ![0] bcast_S1600000_S1600000x1_0 dst)
    (mulf (F := Ideal)
      (Host.gather gather_S100000x32_S1600000x1_S1600000x32_1_0_n_n_0_1_132 hlin (idxR src))
      (broadcastInDim (s := S1600000x1) S1600000x32 ![0, 1] bcast_S1600000x1_S1600000x32_0_1
        (broadcastInDim (s := S1600000) S1600000x1 ![0] bcast_S1600000_S1600000x1_0
          (mulf (F := Ideal)
            (Host.gather gather_S100000_S1600000x1_S1600000_n_0_n_n_0_1_1 dinv (idxR src))
            (Host.gather gather_S100000_S1600000x1_S1600000_n_0_n_n_0_1_1 dinv (idxR dst))))))

def leakyCall (a : FVec Ideal S100000x32 .f32) : FVec Ideal S100000x32 .f32 :=
  select
    (cmpf (F := Ideal) .oge a
      (broadcastInDim (s := S_) S100000x32 ![] bcast_S_S100000x32 (constant (F := Ideal) S_ .f32 0x00000000#32)))
    a
    (mulf (F := Ideal)
      (broadcastInDim (s := S_) S100000x32 ![] bcast_S_S100000x32 (id (constant (F := Ideal) S_ .f32 0x3C23D70A#32)))
      a)

def combR (agg hlin : FVec Ideal S100000x32 .f32) (dinv : FVec Ideal S100000 .f32) (b : FVec Ideal S32 .f32) :
    FVec Ideal S100000x32 .f32 :=
  leakyCall
    (addf (F := Ideal)
      (addf (F := Ideal) agg
        (mulf (F := Ideal) hlin
          (broadcastInDim (s := S100000x1) S100000x32 ![0, 1] bcast_S100000x1_S100000x32_0_1
            (broadcastInDim (s := S100000) S100000x1 ![0] bcast_S100000_S100000x1_0 (mulf (F := Ideal) dinv dinv)))))
      (broadcastInDim (s := S1x32) S100000x32 ![0, 1] bcast_S1x32_S100000x32_0_1
        (broadcastInDim (s := S32) S1x32 ![1] bcast_S32_S1x32_1 b)))

def layerR64 (x : FVec Ideal S100000x64 .f32) (W : FVec Ideal S64x32 .f32) (b : FVec Ideal S32 .f32)
    (dinv : FVec Ideal S100000 .f32) (src dst : IVec S1600000 32) : FVec Ideal S100000x32 .f32 :=
  combR (aggR (dotR64 x W) dinv src dst) (dotR64 x W) dinv b

def layerR32 (h : FVec Ideal S100000x32 .f32) (W : FVec Ideal S32x32 .f32) (b : FVec Ideal S32 .f32)
    (dinv : FVec Ideal S100000 .f32) (src dst : IVec S1600000 32) : FVec Ideal S100000x32 .f32 :=
  combR (aggR (dotR32 h W) dinv src dst) (dotR32 h W) dinv b

def poolR (batch : IVec S100000 32) (h : FVec Ideal S100000x32 .f32) : FVec Ideal S128x32 .f32 :=
  Host.scatterAdd (F := Ideal) scatter_S128x32_S100000x1_S100000x32_1_0_0_1
    (broadcastInDim (s := S_) S128x32 ![] bcast_S_S128x32 (constant (F := Ideal) S_ .f32 0x00000000#32))
    (broadcastInDim (s := S100000) S100000x1 ![0] bcast_S100000_S100000x1_0 batch)
    h

def featR (p : FVec Ideal S128x32 .f32) (counts : FVec Ideal S128 .f32) : FVec Ideal S128x32 .f32 :=
  Host.divf (F := Ideal) p
    (broadcastInDim (s := S128x1) S128x32 ![0, 1] bcast_S128x1_S128x32_0_1
      (broadcastInDim (s := S128) S128x1 ![0] bcast_S128_S128x1_0 counts))

def tailR (f1 f2 p3 : FVec Ideal S128x32 .f32) (counts : FVec Ideal S128 .f32) : FVec Ideal S128x32 .f32 :=
  Host.divf (F := Ideal)
    (Host.reduceAdd (F := Ideal)
      (concatenate (α := Ideal .f32) S3x128x32 0
        [⟨S1x128x32, broadcastInDim (s := S128x32) S1x128x32 ![1, 2] bcast_S128x32_S1x128x32_1_2 f1⟩,
         ⟨S1x128x32, broadcastInDim (s := S128x32) S1x128x32 ![1, 2] bcast_S128x32_S1x128x32_1_2 f2⟩,
         ⟨S1x128x32, broadcastInDim (s := S128x32) S1x128x32 ![1, 2] bcast_S128x32_S1x128x32_1_2 (featR p3 counts)⟩]
        concatenates_S1x128x32_S1x128x32_S1x128x32_S3x128x32_d0)
      (constant (F := Ideal) S_ .f32 0x00000000#32) reducesTo_S3x128x32_S128x32_d0 h_S_)
    (broadcastInDim (s := S_) S128x32 ![] bcast_S_S128x32 (constant (F := Ideal) S_ .f32 0x40400000#32))

def h1R (x : FVec Ideal S100000x64 .f32) (W0 : FVec Ideal S64x32 .f32) (b0 : FVec Ideal S32 .f32)
    (src dst : IVec S1600000 32) : FVec Ideal S100000x32 .f32 :=
  layerR64 x W0 b0 (dinvR dst) src dst

def h2R (x : FVec Ideal S100000x64 .f32) (W0 : FVec Ideal S64x32 .f32) (b0 : FVec Ideal S32 .f32)
    (W1 : FVec Ideal S32x32 .f32) (b1 : FVec Ideal S32 .f32) (src dst : IVec S1600000 32) : FVec Ideal S100000x32 .f32 :=
  layerR32 (h1R x W0 b0 src dst) W1 b1 (dinvR dst) src dst

def h3R (x : FVec Ideal S100000x64 .f32) (W0 : FVec Ideal S64x32 .f32) (b0 : FVec Ideal S32 .f32)
    (W1 : FVec Ideal S32x32 .f32) (b1 : FVec Ideal S32 .f32) (W2 : FVec Ideal S32x32 .f32) (b2 : FVec Ideal S32 .f32)
    (src dst : IVec S1600000 32) : FVec Ideal S100000x32 .f32 :=
  layerR32 (h2R x W0 b0 W1 b1 src dst) W2 b2 (dinvR dst) src dst

def preR (agg hlin : FVec Ideal S100000x32 .f32) (dinv : FVec Ideal S100000 .f32) : FVec Ideal S100000x32 .f32 :=
  addf (F := Ideal) agg
    (mulf (F := Ideal) hlin
      (broadcastInDim (s := S100000x1) S100000x32 ![0, 1] bcast_S100000x1_S100000x32_0_1
        (broadcastInDim (s := S100000) S100000x1 ![0] bcast_S100000_S100000x1_0 (mulf (F := Ideal) dinv dinv))))

def biasLeakyR (pre : FVec Ideal S100000x32 .f32) (b : FVec Ideal S32 .f32) : FVec Ideal S100000x32 .f32 :=
  leakyCall
    (addf (F := Ideal) pre
      (broadcastInDim (s := S1x32) S100000x32 ![0, 1] bcast_S1x32_S100000x32_0_1
        (broadcastInDim (s := S32) S1x32 ![1] bcast_S32_S1x32_1 b)))

def zeros128x32 : FVec Ideal S128x32 .f32 :=
  broadcastInDim (s := S_) S128x32 ![] bcast_S_S128x32 (constant (F := Ideal) S_ .f32 0x00000000#32)

def poolZ (z : FVec Ideal S128x32 .f32) (batch : IVec S100000 32) (h : FVec Ideal S100000x32 .f32) :
    FVec Ideal S128x32 .f32 :=
  Host.scatterAdd (F := Ideal) scatter_S128x32_S100000x1_S100000x32_1_0_0_1 z
    (broadcastInDim (s := S100000) S100000x1 ![0] bcast_S100000_S100000x1_0 batch) h

def lead1 (f : FVec Ideal S128x32 .f32) : FVec Ideal S1x128x32 .f32 :=
  broadcastInDim (s := S128x32) S1x128x32 ![1, 2] bcast_S128x32_S1x128x32_1_2 f

def tail3R (a1 a2 : FVec Ideal S1x128x32 .f32) (f3 : FVec Ideal S128x32 .f32) : FVec Ideal S128x32 .f32 :=
  Host.divf (F := Ideal)
    (Host.reduceAdd (F := Ideal)
      (concatenate (α := Ideal .f32) S3x128x32 0
        [⟨S1x128x32, a1⟩, ⟨S1x128x32, a2⟩, ⟨S1x128x32, lead1 f3⟩]
        concatenates_S1x128x32_S1x128x32_S1x128x32_S3x128x32_d0)
      (constant (F := Ideal) S_ .f32 0x00000000#32) reducesTo_S3x128x32_S128x32_d0 h_S_)
    (broadcastInDim (s := S_) S128x32 ![] bcast_S_S128x32 (constant (F := Ideal) S_ .f32 0x40400000#32))

section Run

open Cert.ReferenceIdeal.Hand

theorem ops0_v6 (V : Valuation τ sig (Elt Ideal)) :
    StableHlo.after (ops0 (F := Ideal)) V (Proc.devRef .tc main_v6) = dinvR (V (Proc.devRef .tc main_arg8)) := by
  ref_results; rfl

theorem ops0_v12 (V : Valuation τ sig (Elt Ideal)) :
    StableHlo.after (ops0 (F := Ideal)) V (Proc.devRef .tc main_v12) = countsR (V (Proc.devRef .tc main_arg9)) := by
  ref_results; rfl

theorem ops0_v46 (V : Valuation τ sig (Elt Ideal)) :
    StableHlo.after (ops0 (F := Ideal)) V (Proc.devRef .tc main_v46)
      = preR (aggR (dotR64 (V (Proc.devRef .tc main_arg0)) (V (Proc.devRef .tc main_arg1))) (dinvR (V (Proc.devRef .tc main_arg8))) (V (Proc.devRef .tc main_arg7)) (V (Proc.devRef .tc main_arg8)))
          (dotR64 (V (Proc.devRef .tc main_arg0)) (V (Proc.devRef .tc main_arg1))) (dinvR (V (Proc.devRef .tc main_arg8))) := by
  ref_results; rfl

theorem ops1_v56 (V : Valuation τ sig (Elt Ideal)) :
    StableHlo.after (ops1 (F := Ideal)) V (Proc.devRef .tc main_v56)
      = featR (poolR (V (Proc.devRef .tc main_arg9)) (biasLeakyR (V (Proc.devRef .tc main_v46)) (V (Proc.devRef .tc main_arg2)))) (V (Proc.devRef .tc main_v12)) := by
  ref_results; rfl

theorem ops1_v94 (V : Valuation τ sig (Elt Ideal)) :
    StableHlo.after (ops1 (F := Ideal)) V (Proc.devRef .tc main_v94)
      = layerR32 (biasLeakyR (V (Proc.devRef .tc main_v46)) (V (Proc.devRef .tc main_arg2))) (V (Proc.devRef .tc main_arg3)) (V (Proc.devRef .tc main_arg4))
          (V (Proc.devRef .tc main_v6)) (V (Proc.devRef .tc main_arg7)) (V (Proc.devRef .tc main_arg8)) := by
  ref_results; rfl

theorem ops1_v95 (V : Valuation τ sig (Elt Ideal)) :
    StableHlo.after (ops1 (F := Ideal)) V (Proc.devRef .tc main_v95) = zeros128x32 := by
  ref_results; rfl

theorem ops2_v145 (V : Valuation τ sig (Elt Ideal)) :
    StableHlo.after (ops2 (F := Ideal)) V (Proc.devRef .tc main_v145) = lead1 (V (Proc.devRef .tc main_v56)) := by
  ref_results; rfl

theorem ops2_v146 (V : Valuation τ sig (Elt Ideal)) :
    StableHlo.after (ops2 (F := Ideal)) V (Proc.devRef .tc main_v146)
      = lead1 (featR (poolZ (V (Proc.devRef .tc main_v95)) (V (Proc.devRef .tc main_arg9)) (V (Proc.devRef .tc main_v94))) (V (Proc.devRef .tc main_v12))) := by
  ref_results; rfl

theorem ops2_v144 (V : Valuation τ sig (Elt Ideal)) :
    StableHlo.after (ops2 (F := Ideal)) V (Proc.devRef .tc main_v144)
      = featR (poolR (V (Proc.devRef .tc main_arg9))
          (layerR32 (V (Proc.devRef .tc main_v94)) (V (Proc.devRef .tc main_arg5)) (V (Proc.devRef .tc main_arg6)) (V (Proc.devRef .tc main_v6)) (V (Proc.devRef .tc main_arg7)) (V (Proc.devRef .tc main_arg8))))
          (V (Proc.devRef .tc main_v12)) := by
  ref_results; rfl

theorem ops3_v151 (V : Valuation τ sig (Elt Ideal)) :
    StableHlo.after (ops3 (F := Ideal)) V (Proc.devRef .tc main_v151)
      = tail3R (V (Proc.devRef .tc main_v145)) (V (Proc.devRef .tc main_v146)) (V (Proc.devRef .tc main_v144)) := by
  ref_results; rfl

theorem ref_result (Vv : Valuation τ sig (Elt Ideal)) :
    StableHlo.after (ops (F := Ideal)) Vv (Proc.devRef .tc main_v151)
      = tailR
          (featR (poolR (Vv (Proc.devRef .tc main_arg9))
              (h1R (Vv (Proc.devRef .tc main_arg0)) (Vv (Proc.devRef .tc main_arg1)) (Vv (Proc.devRef .tc main_arg2))
                (Vv (Proc.devRef .tc main_arg7)) (Vv (Proc.devRef .tc main_arg8))))
            (countsR (Vv (Proc.devRef .tc main_arg9))))
          (featR (poolR (Vv (Proc.devRef .tc main_arg9))
              (h2R (Vv (Proc.devRef .tc main_arg0)) (Vv (Proc.devRef .tc main_arg1)) (Vv (Proc.devRef .tc main_arg2))
                (Vv (Proc.devRef .tc main_arg3)) (Vv (Proc.devRef .tc main_arg4))
                (Vv (Proc.devRef .tc main_arg7)) (Vv (Proc.devRef .tc main_arg8))))
            (countsR (Vv (Proc.devRef .tc main_arg9))))
          (poolR (Vv (Proc.devRef .tc main_arg9))
            (h3R (Vv (Proc.devRef .tc main_arg0)) (Vv (Proc.devRef .tc main_arg1)) (Vv (Proc.devRef .tc main_arg2))
              (Vv (Proc.devRef .tc main_arg3)) (Vv (Proc.devRef .tc main_arg4))
              (Vv (Proc.devRef .tc main_arg5)) (Vv (Proc.devRef .tc main_arg6))
              (Vv (Proc.devRef .tc main_arg7)) (Vv (Proc.devRef .tc main_arg8))))
          (countsR (Vv (Proc.devRef .tc main_arg9))) := by
  rw [after_ops, ops3_v151, ops2_v145, ops2_v146, ops2_v144]
  rw [ops1_v56, ops1_v95, ops1_v94,
    after_ops1_keep _ main_arg9 (by decide), after_ops1_keep _ main_v12 (by decide),
    after_ops1_keep _ main_arg5 (by decide), after_ops1_keep _ main_arg6 (by decide),
    after_ops1_keep _ main_v6 (by decide), after_ops1_keep _ main_arg7 (by decide),
    after_ops1_keep _ main_arg8 (by decide)]
  rw [ops0_v46, ops0_v6, ops0_v12,
    after_ops0_keep _ main_arg2 (by decide), after_ops0_keep _ main_arg3 (by decide),
    after_ops0_keep _ main_arg4 (by decide), after_ops0_keep _ main_arg5 (by decide),
    after_ops0_keep _ main_arg6 (by decide), after_ops0_keep _ main_arg7 (by decide),
    after_ops0_keep _ main_arg8 (by decide), after_ops0_keep _ main_arg9 (by decide)]
  rfl

end Run

end Cert.Bridge

end
-- ==== Proof.Bridge.PoolScatter.lean ====
import Idealize.ShloMosaic.PureOps.Ideal
import Idealize.ShloMosaic.PureOps.IdealRules
import Idealize.ShloMosaic.Lib.ValueIdx
import Idealize.ShloMosaic.Lib.StableHlo.Predicate
import Mathlib.Algebra.BigOperators.Group.Finset.Piecewise
import Mathlib.Data.Fin.Embedding
import proofs.«423851_j31086973288655_1_alg».proof.KernelIdeal
import proofs.«423851_j31086973288655_1_alg».proof.ReferenceIdeal

noncomputable section

open scoped BigOperators

namespace Cert.Bridge

open Idealize.ShloMosaic Idealize.ShloMosaic.ValueIdx

theorem word_eq_ofNat_iff (b : BitVec 32) (g : Fin 128) : b = BitVec.ofNat 32 g.val ↔ b.toInt = (g.val : ℤ) := by
  have hg : (BitVec.ofNat 32 g.val).toInt = (g.val : ℤ) :=
    StableHlo.Predicate.toInt_ofNat_small g.val (Nat.lt_trans g.isLt (by norm_num))
  constructor
  · intro h; rw [h, hg]
  · intro h; exact BitVec.eq_of_toInt_eq (h.trans hg.symm)

theorem negOne_ne_ofNat (g : Fin 128) : (-1 : BitVec 32) ≠ BitVec.ofNat 32 g.val := by
  intro h
  have h1 := (word_eq_ofNat_iff _ g).mp h
  have h2 : (-1 : BitVec 32).toInt = -1 := by decide
  rw [h2] at h1
  omega

abbrev PG : Shape := ⟨2, ![128, 32]⟩

abbrev PI : Shape := ⟨2, ![100000, 1]⟩

abbrev PU : Shape := ⟨2, ![100000, 32]⟩

def poolDims (wf : ScatterDims.WF PG PI PU [1] [0] [0] 1) : ScatterDims PG PI PU where
  updateWindowDims := [1]
  insertedWindowDims := [0]
  scatterDimsToOperandDims := [0]
  indexVectorDim := 1
  wf := wf

section Dims
variable (wf : ScatterDims.WF PG PI PU [1] [0] [0] 1) {w : Nat} (idx : IVec PI w)

theorem poolDims_siIdx (n : Fin 100000) (j' : Fin 32) (c : Fin (poolDims wf).scatterDimsToOperandDims.length) :
    (poolDims wf).siIdx (ix2 n j') c = ix2 n 0 := by
  funext b
  refine Fin.ext ?_
  match b with
  | ⟨0, _⟩ => rfl
  | ⟨1, _⟩ =>
    have hc := c.isLt
    change c.val < 1 at hc
    show c.val = 0
    omega

theorem poolDims_start0 (n : Fin 100000) (j' : Fin 32) :
    (poolDims wf).start (ix2 n j') idx 0 = (idx (ix2 n 0)).toInt := by
  unfold ScatterDims.start
  rw [dif_pos (show (0 : Fin 2) ∈ (poolDims wf).scatterDimsToOperandDims from List.mem_singleton.mpr rfl)]
  rw [poolDims_siIdx]

theorem poolDims_start1 (u : PU.Idx) : (poolDims wf).start u idx 1 = 0 := by
  unfold ScatterDims.start
  rw [dif_neg (show (1 : Fin 2) ∉ (poolDims wf).scatterDimsToOperandDims from fun h =>
    absurd (List.mem_singleton.mp h) (by decide))]

theorem poolDims_window0 (u : PU.Idx) : (poolDims wf).window u 0 = 0 := by
  unfold ScatterDims.window
  rw [dif_neg (show (0 : Fin 2) ∉ (poolDims wf).sKept from (by decide : (0 : Fin 2) ∉ Shape.kept PG [0]))]

theorem poolDims_window1 (n : Fin 100000) (j' : Fin 32) : (poolDims wf).window (ix2 n j') 1 = j'.val := by
  unfold ScatterDims.window
  rw [dif_pos (show (1 : Fin 2) ∈ (poolDims wf).sKept from (by decide : (1 : Fin 2) ∈ Shape.kept PG [0]))]
  rfl

theorem poolDims_resultIdx? (n : Fin 100000) (j' : Fin 32) :
    (poolDims wf).resultIdx? (ix2 n j') idx =
      if h : 0 ≤ (idx (ix2 n 0)).toInt ∧ (idx (ix2 n 0)).toInt < 128 then
        some (ix2 (⟨(idx (ix2 n 0)).toInt.toNat, by omega⟩ : Fin 128) j')
      else none := by
  have h00 : (poolDims wf).start (ix2 n j') idx 0 + (((poolDims wf).window (ix2 n j') 0 : ℕ) : ℤ)
      = (idx (ix2 n 0)).toInt := by
    rw [poolDims_start0, poolDims_window0]; simp
  have h11 : (poolDims wf).start (ix2 n j') idx 1 + (((poolDims wf).window (ix2 n j') 1 : ℕ) : ℤ)
      = (j'.val : ℤ) := by
    rw [poolDims_start1, poolDims_window1]; simp
  unfold ScatterDims.resultIdx?
  split
  · next H =>
    have H0 := H 0
    rw [h00] at H0
    have H0' : 0 ≤ (idx (ix2 n 0)).toInt ∧ (idx (ix2 n 0)).toInt < 128 := H0
    rw [dif_pos H0']
    congr 1
    funext a
    refine Fin.ext ?_
    match a with
    | ⟨0, _⟩ => exact congrArg Int.toNat h00
    | ⟨1, _⟩ => exact (congrArg Int.toNat h11).trans (Int.toNat_natCast _)
  · next H =>
    rw [dif_neg]
    intro hc
    refine H (Fin.forall_fin_two.mpr ⟨?_, ?_⟩)
    · show 0 ≤ (poolDims wf).start (ix2 n j') idx 0 + (((poolDims wf).window (ix2 n j') 0 : ℕ) : ℤ)
        ∧ (poolDims wf).start (ix2 n j') idx 0 + (((poolDims wf).window (ix2 n j') 0 : ℕ) : ℤ) < ((128 : ℕ) : ℤ)
      rw [h00]
      exact ⟨hc.1, by have := hc.2; omega⟩
    · show 0 ≤ (poolDims wf).start (ix2 n j') idx 1 + (((poolDims wf).window (ix2 n j') 1 : ℕ) : ℤ)
        ∧ (poolDims wf).start (ix2 n j') idx 1 + (((poolDims wf).window (ix2 n j') 1 : ℕ) : ℤ) < ((32 : ℕ) : ℤ)
      rw [h11]
      have := j'.isLt
      omega

theorem poolDims_lands_iff (n : Fin 100000) (j' : Fin 32) (g : Fin 128) (j : Fin 32) :
    (poolDims wf).resultIdx? (ix2 n j') idx = some (ix2 g j) ↔ (idx (ix2 n 0)).toInt = (g.val : ℤ) ∧ j' = j := by
  rw [poolDims_resultIdx?]
  constructor
  · intro h
    split at h
    · next hc =>
      have h' := Option.some.inj h
      have e0 : (idx (ix2 n 0)).toInt.toNat = g.val := congrArg Fin.val (congrFun h' 0)
      have e1 : j' = j := congrFun h' 1
      exact ⟨by have := hc.1; omega, e1⟩
    · exact absurd h (by simp)
  · rintro ⟨hv, rfl⟩
    have hc : 0 ≤ (idx (ix2 n 0)).toInt ∧ (idx (ix2 n 0)).toInt < 128 := by
      have := g.isLt
      omega
    rw [dif_pos hc]
    have hg : (⟨(idx (ix2 n 0)).toInt.toNat, by omega⟩ : Fin 128) = g :=
      Fin.ext (by show (idx (ix2 n 0)).toInt.toNat = g.val; omega)
    rw [hg]

end Dims

section Core
variable (wf : ScatterDims.WF PG PI PU [1] [0] [0] 1)

theorem pool_sum_eq_hostScatterAdd
    (hP : (⟨2, ![100352, 32]⟩ : Shape).Idx → EReal) (hR : PU.Idx → EReal)
    (hag : ∀ (i : Fin 100000) (j : Fin 32), hP (ix2 ⟨i.val, by omega⟩ j) = hR (ix2 i j))
    (batchrow : IVec ⟨2, ![1, 100352]⟩ 32) (col : IVec PI 32)
    (hb : ∀ n : Fin 100352, batchrow (ix2 0 n) = if h : n.val < 100000 then col (ix2 ⟨n.val, h⟩ 0) else (-1 : BitVec 32))
    (x : PG.Idx → EReal) (hx : ∀ i, x i = 0) (g : Fin 128) (j : Fin 32) :
    (∑ n : Fin 100352, (if batchrow (ix2 0 n) = BitVec.ofNat 32 g.val then (1 : EReal) else 0) * hP (ix2 n j))
      = Ideal.hostScatterAdd (poolDims wf) x col hR (ix2 g j) := by
  have hRight : Ideal.hostScatterAdd (poolDims wf) x col hR (ix2 g j)
      = ∑ m : Fin 100000, if (col (ix2 m 0)).toInt = (g.val : ℤ) then hR (ix2 m j) else 0 := by
    unfold Ideal.hostScatterAdd
    rw [hx, zero_add, Finset.sum_filter, sum_idx2]
    refine Finset.sum_congr rfl fun m _ => ?_
    rw [Finset.sum_eq_single j]
    · by_cases hv : (col (ix2 m 0)).toInt = (g.val : ℤ)
      · rw [if_pos ((poolDims_lands_iff wf col m j g j).mpr ⟨hv, rfl⟩), if_pos hv]
      · rw [if_neg (fun h => hv ((poolDims_lands_iff wf col m j g j).mp h).1), if_neg hv]
    · intro j' _ hne
      rw [if_neg (fun h => hne ((poolDims_lands_iff wf col m j' g j).mp h).2)]
    · intro h
      exact absurd (Finset.mem_univ j) h
  have hterm : ∀ (n : Fin 100352) (h : n.val < 100000),
      (if batchrow (ix2 0 n) = BitVec.ofNat 32 g.val then (1 : EReal) else 0) * hP (ix2 n j)
        = if (col (ix2 (⟨n.val, h⟩ : Fin 100000) 0)).toInt = (g.val : ℤ) then hR (ix2 (⟨n.val, h⟩ : Fin 100000) j) else 0 := by
    intro n h
    rw [hb n, dif_pos h]
    have hagn : hP (ix2 n j) = hR (ix2 (⟨n.val, h⟩ : Fin 100000) j) := hag ⟨n.val, h⟩ j
    by_cases hv : (col (ix2 (⟨n.val, h⟩ : Fin 100000) 0)).toInt = (g.val : ℤ)
    · rw [if_pos ((word_eq_ofNat_iff _ g).mpr hv), if_pos hv, one_mul, hagn]
    · rw [if_neg (fun e => hv ((word_eq_ofNat_iff _ g).mp e)), if_neg hv, zero_mul]
  have hle : 100000 ≤ 100352 := by norm_num
  have hLeft : (∑ n : Fin 100352, (if batchrow (ix2 0 n) = BitVec.ofNat 32 g.val then (1 : EReal) else 0) * hP (ix2 n j))
      = ∑ m : Fin 100000, if (col (ix2 m 0)).toInt = (g.val : ℤ) then hR (ix2 m j) else 0 := by
    rw [← Finset.sum_subset (Finset.subset_univ (Finset.univ.map (Fin.castLEEmb hle)))]
    · rw [Finset.sum_map]
      refine Finset.sum_congr rfl fun m _ => ?_
      exact hterm (Fin.castLEEmb hle m) m.isLt
    · intro n _ hn
      have hge : ¬ n.val < 100000 := fun hlt =>
        hn (Finset.mem_map.mpr ⟨⟨n.val, hlt⟩, Finset.mem_univ _, Fin.ext rfl⟩)
      rw [hb n, dif_neg hge, if_neg (negOne_ne_ofNat g), zero_mul]
  rw [hLeft, hRight]

end Core

section Program
variable [Cert.ReferenceIdeal.Facts₀]

def poolZero : FVec Ideal Cert.ReferenceIdeal.S128x32 .f32 :=
  broadcastInDim Cert.ReferenceIdeal.S128x32 ![] Cert.ReferenceIdeal.Facts₀.bcast_S_S128x32
    (constant (F := Ideal) Cert.ReferenceIdeal.S_ .f32 0x00000000#32)

def poolIdx (batch : IVec Cert.ReferenceIdeal.S100000 32) : IVec Cert.ReferenceIdeal.S100000x1 32 :=
  broadcastInDim Cert.ReferenceIdeal.S100000x1 ![0] Cert.ReferenceIdeal.Facts₀.bcast_S100000_S100000x1_0 batch

theorem poolZero_apply (i : Cert.ReferenceIdeal.S128x32.Idx) : poolZero i = 0 :=
  IdealRules.sign_bit.ideal_zero .f32

theorem poolIdx_apply (batch : IVec Cert.ReferenceIdeal.S100000 32) (n : Fin 100000) :
    poolIdx batch (ix2 n 0) = batch (ix1 n) := by
  unfold poolIdx
  simp only [broadcastInDim]
  congr 1
  funext a
  obtain rfl : a = 0 := Subsingleton.elim _ _
  refine Fin.ext ?_
  split
  · next h1 => change (100000 : ℕ) = 1 at h1; omega
  · rfl

theorem scatter_eq_poolDims :
    Cert.ReferenceIdeal.scatter_S128x32_S100000x1_S100000x32_1_0_0_1
      = poolDims Cert.ReferenceIdeal.Facts₀.scatter_S128x32_S100000x1_S100000x32_1_0_0_1_wf := rfl

theorem pool_eq_scatter (hP : Cert.KernelIdeal.S100352x32.Idx → EReal) (hR : Cert.ReferenceIdeal.S100000x32.Idx → EReal)
    (hag : ∀ (i : Fin 100000) (j : Fin 32), hP (ix2 ⟨i.val, by omega⟩ j) = hR (ix2 i j))
    (batchrow : IVec Cert.KernelIdeal.S1x100352 32) (batch : IVec Cert.ReferenceIdeal.S100000 32)
    (hb : ∀ n : Fin 100352, batchrow (ix2 0 n) = if h : n.val < 100000 then batch (ix1 ⟨n.val, h⟩) else (-1 : BitVec 32))
    (g : Fin 128) (j : Fin 32) :
    (∑ n : Fin 100352, (if batchrow (ix2 0 n) = BitVec.ofNat 32 g.val then (1 : EReal) else 0) * hP (ix2 n j))
      = Host.scatterAdd (F := Ideal) (φ := .f32) Cert.ReferenceIdeal.scatter_S128x32_S100000x1_S100000x32_1_0_0_1
          poolZero (poolIdx batch) hR (ix2 g j) := by
  have hb' : ∀ n : Fin 100352, batchrow (ix2 0 n)
      = if h : n.val < 100000 then poolIdx batch (ix2 (⟨n.val, h⟩ : Fin 100000) 0) else (-1 : BitVec 32) := by
    intro n
    rw [hb n]
    by_cases h : n.val < 100000
    · rw [dif_pos h, dif_pos h, poolIdx_apply]
    · rw [dif_neg h, dif_neg h]
  rw [scatter_eq_poolDims]
  exact pool_sum_eq_hostScatterAdd Cert.ReferenceIdeal.Facts₀.scatter_S128x32_S100000x1_S100000x32_1_0_0_1_wf
    hP hR hag batchrow (poolIdx batch) hb' poolZero poolZero_apply g j

end Program

end Cert.Bridge

end
-- ==== Proof.Bridge.LayoutK.lean ====
import proofs.«423851_j31086973288655_1_alg».proof.Proof.Gen.KernelIdeal
import Idealize.ShloMosaic.Lib.KernelVsHost
import Idealize.ShloMosaic.Lib.ValueLayout

noncomputable section

namespace Cert.Bridge

open Idealize.ShloMosaic Idealize.ShloMosaic.ValueIdx
open Cert.KernelIdeal Cert.KernelIdeal.Gen

variable {α : Type}

theorem pad_rows32_apply (x : S100000x32.Idx → α) (v : S_.Idx → α) (i : Fin 100352) (j : Fin 32) :
    pad S100352x32 ![0, 0] ![352, 0] ![0, 0] x v pads_S100000x32_S100352x32_03520_000 h_S_ (ix2 i j)
      = if h : i.val < 100000 then x (ix2 ⟨i.val, h⟩ j) else v ix0 := by
  by_cases h : i.val < 100000
  · rw [dif_pos h]
    exact pad_apply_of_inside _ _ _ x v _ _ (ix2 i j) (ix2 (⟨i.val, h⟩ : Fin 100000) j) (fun a =>
      match a with
      | ⟨0, _⟩ => by show i.val = 0 + i.val * (0 + 1); omega
      | ⟨1, _⟩ => by show j.val = 0 + j.val * (0 + 1); omega)
  · rw [dif_neg h]
    refine (pad_apply_of_not_inside _ _ _ x v _ _ (ix2 i j) (0 : Fin 2) ?_).trans (congrArg v (eq_ix0 _))
    intro hin
    have h3 : (i.val - 0) / (0 + 1) < 100000 := hin.2.2
    rw [Nat.sub_zero, Nat.zero_add, Nat.div_one] at h3
    exact h h3

theorem pad_rows64_apply (x : S100000x64.Idx → α) (v : S_.Idx → α) (i : Fin 100352) (j : Fin 64) :
    pad S100352x64 ![0, 0] ![352, 0] ![0, 0] x v pads_S100000x64_S100352x64_03520_000 h_S_ (ix2 i j)
      = if h : i.val < 100000 then x (ix2 ⟨i.val, h⟩ j) else v ix0 := by
  by_cases h : i.val < 100000
  · rw [dif_pos h]
    exact pad_apply_of_inside _ _ _ x v _ _ (ix2 i j) (ix2 (⟨i.val, h⟩ : Fin 100000) j) (fun a =>
      match a with
      | ⟨0, _⟩ => by show i.val = 0 + i.val * (0 + 1); omega
      | ⟨1, _⟩ => by show j.val = 0 + j.val * (0 + 1); omega)
  · rw [dif_neg h]
    refine (pad_apply_of_not_inside _ _ _ x v _ _ (ix2 i j) (0 : Fin 2) ?_).trans (congrArg v (eq_ix0 _))
    intro hin
    have h3 : (i.val - 0) / (0 + 1) < 100000 := hin.2.2
    rw [Nat.sub_zero, Nat.zero_add, Nat.div_one] at h3
    exact h h3

theorem pad_batch_apply (b : S100000.Idx → α) (v : S_.Idx → α) (n : Fin 100352) :
    pad S100352 ![0] ![352] ![0] b v pads_S100000_S100352_03520 h_S_ (ix1 n)
      = if h : n.val < 100000 then b (ix1 ⟨n.val, h⟩) else v ix0 := by
  by_cases h : n.val < 100000
  · rw [dif_pos h]
    exact pad_apply_of_inside _ _ _ b v _ _ (ix1 n) (ix1 (⟨n.val, h⟩ : Fin 100000)) (fun a =>
      match a with
      | ⟨0, _⟩ => by show n.val = 0 + n.val * (0 + 1); omega)
  · rw [dif_neg h]
    refine (pad_apply_of_not_inside _ _ _ b v _ _ (ix1 n) (0 : Fin 1) ?_).trans (congrArg v (eq_ix0 _))
    intro hin
    have h3 : (n.val - 0) / (0 + 1) < 100000 := hin.2.2
    rw [Nat.sub_zero, Nat.zero_add, Nat.div_one] at h3
    exact h h3

theorem pad_rows32_real (x : S100000x32.Idx → α) (v : S_.Idx → α) (i : Fin 100000) (j : Fin 32) :
    pad S100352x32 ![0, 0] ![352, 0] ![0, 0] x v pads_S100000x32_S100352x32_03520_000 h_S_
        (ix2 (⟨i.val, by omega⟩ : Fin 100352) j) = x (ix2 i j) := by
  rw [pad_rows32_apply x v ⟨i.val, by omega⟩ j, dif_pos (show i.val < 100000 from i.isLt)]

theorem pad_rows64_real (x : S100000x64.Idx → α) (v : S_.Idx → α) (i : Fin 100000) (j : Fin 64) :
    pad S100352x64 ![0, 0] ![352, 0] ![0, 0] x v pads_S100000x64_S100352x64_03520_000 h_S_
        (ix2 (⟨i.val, by omega⟩ : Fin 100352) j) = x (ix2 i j) := by
  rw [pad_rows64_apply x v ⟨i.val, by omega⟩ j, dif_pos (show i.val < 100000 from i.isLt)]

theorem batch_row_apply (y : S100352.Idx → α) (n : Fin 100352) :
    shapeCast S1x100352 y shapeCasts_S100352_S1x100352 (ix2 (0 : Fin 1) n) = y (ix1 n) :=
  shapeCast_a_1a_apply y _ 0 n

theorem bias_row_apply (b : S32.Idx → α) (j : Fin 32) :
    shapeCast S1x32 b shapeCasts_S32_S1x32 (ix2 (0 : Fin 1) j) = b (ix1 j) :=
  shapeCast_a_1a_apply b _ 0 j

theorem col_apply (y : S100352.Idx → α) (i : Fin 100352) :
    shapeCast S100352x1 y shapeCasts_S100352_S100352x1 (ix2 i (0 : Fin 1)) = y (ix1 i) :=
  shapeCast_apply y _ (ix2 i (0 : Fin 1)) (ix1 i) (by
    rw [Shape.rowMajor_val_two, Shape.rowMajor_val_one]
    show i.val = i.val * 1 + 0
    omega)

theorem concat_apply (d : S100000.Idx → α) (o : S352.Idx → α) (i : Fin 100352) :
    concatenate S100352 0 [⟨S100000, d⟩, ⟨S352, o⟩] concatenates_S100000_S352_S100352_d0 (ix1 i)
      = if h : i.val < 100000 then d (ix1 ⟨i.val, h⟩) else o (ix1 ⟨i.val - 100000, by omega⟩) := by
  by_cases h : i.val < 100000
  · rw [dif_pos h]
    exact concatenate_pair_apply_left _ d o _ (ix1 i) rfl (ix1 (⟨i.val, h⟩ : Fin 100000)) (fun b =>
      match b with
      | ⟨0, _⟩ => rfl)
  · rw [dif_neg h]
    exact concatenate_pair_apply_right _ d o _ (ix1 i) rfl rfl (ix1 (⟨i.val - 100000, by omega⟩ : Fin 352))
      (fun b hb => match b, hb with
        | ⟨0, _⟩, hb => absurd rfl hb)
      (by show (i.val - 100000) + 100000 = i.val; omega)

theorem dinv_col_apply (d : S100000.Idx → α) (o : S352.Idx → α) (i : Fin 100352) :
    shapeCast S100352x1 (concatenate S100352 0 [⟨S100000, d⟩, ⟨S352, o⟩] concatenates_S100000_S352_S100352_d0)
        shapeCasts_S100352_S100352x1 (ix2 i (0 : Fin 1))
      = if h : i.val < 100000 then d (ix1 ⟨i.val, h⟩) else o (ix1 ⟨i.val - 100000, by omega⟩) :=
  (col_apply _ i).trans (concat_apply d o i)

end Cert.Bridge
-- ==== Proof.Bridge.PointwiseR.lean ====
import proofs.«423851_j31086973288655_1_alg».proof.ReferenceIdeal
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.ReferenceIdeal
open scoped BigOperators

section Rectifier

theorem select_cmp_oge_zero (x a b : EReal) :
    Scalar.select (Ideal.cmp .oge x 0) a b = if 0 ≤ x then a else b := by
  show (if BitVec.ofBool (decide (0 ≤ x)) = 1 then a else b) = _
  by_cases hx : 0 ≤ x
  · simp [hx]
  · simp [hx]

def leakyR (x : EReal) : EReal := if 0 ≤ x then x else Ideal.ofBits .f32 0x3C23D70A#32 * x

theorem leaky_eq (c x : EReal) : (if 0 < x then x else c * x) = (if 0 ≤ x then x else c * x) := by
  by_cases h : 0 < x
  · rw [if_pos h, if_pos h.le]
  · rw [if_neg h]
    by_cases h' : 0 ≤ x
    · have hx : x = 0 := le_antisymm (not_lt.mp h) h'
      rw [if_pos h', hx, mul_zero]
    · rw [if_neg h']

theorem leaky_gt_eq_leakyR (x : EReal) :
    (if 0 < x then x else Ideal.ofBits .f32 0x3C23D70A#32 * x) = leakyR x :=
  leaky_eq _ x

end Rectifier

section Ops
variable [Facts₀]
open Cert.ReferenceIdeal.Facts₀

theorem lhs_dot64_0 (j : S100000x32.Idx) (k : dot_S100000x64_S64x32_S100000x32_1_0_0_1_n_n.contr.Idx) :
    (dot_S100000x64_S64x32_S100000x32_1_0_0_1_n_n.lhsIdx j k 0).val = (j 0).val := by
  unfold DotDims.lhsIdx
  rw [dif_neg (show ¬(0 : Fin S100000x64.rank) ∈ dot_S100000x64_S64x32_S100000x32_1_0_0_1_n_n.lhsBatch from List.not_mem_nil),
    dif_pos (show (0 : Fin S100000x64.rank) ∈ dot_S100000x64_S64x32_S100000x32_1_0_0_1_n_n.lhsNonContracting from List.mem_singleton.mpr rfl)]
  rfl

theorem lhs_dot64_1 (j : S100000x32.Idx) (k : Fin 64) :
    (dot_S100000x64_S64x32_S100000x32_1_0_0_1_n_n.lhsIdx j ((contrEquiv1 dot_S100000x64_S64x32_S100000x32_1_0_0_1_n_n 64 rfl rfl).symm k) 1).val = k.val :=
  (dot_S100000x64_S64x32_S100000x32_1_0_0_1_n_n.lhsIdx_val_of_single (cl := 1) rfl j _).trans
    (contrEquiv1_symm_val dot_S100000x64_S64x32_S100000x32_1_0_0_1_n_n 64 rfl rfl k)

theorem rhs_dot64_0 (j : S100000x32.Idx) (k : Fin 64) :
    (dot_S100000x64_S64x32_S100000x32_1_0_0_1_n_n.rhsIdx j ((contrEquiv1 dot_S100000x64_S64x32_S100000x32_1_0_0_1_n_n 64 rfl rfl).symm k) 0).val = k.val :=
  (dot_S100000x64_S64x32_S100000x32_1_0_0_1_n_n.rhsIdx_val_of_single (cr := 0) rfl j _).trans
    (contrEquiv1_symm_val dot_S100000x64_S64x32_S100000x32_1_0_0_1_n_n 64 rfl rfl k)

theorem rhs_dot64_1 (j : S100000x32.Idx) (k : dot_S100000x64_S64x32_S100000x32_1_0_0_1_n_n.contr.Idx) :
    (dot_S100000x64_S64x32_S100000x32_1_0_0_1_n_n.rhsIdx j k 1).val = (j 1).val := by
  unfold DotDims.rhsIdx
  rw [dif_neg (show ¬(1 : Fin S64x32.rank) ∈ dot_S100000x64_S64x32_S100000x32_1_0_0_1_n_n.rhsBatch from List.not_mem_nil),
    dif_pos (show (1 : Fin S64x32.rank) ∈ dot_S100000x64_S64x32_S100000x32_1_0_0_1_n_n.rhsNonContracting from List.mem_singleton.mpr rfl)]
  rfl

theorem dot_rows64_apply (h : S100000x64.Idx → EReal) (w : S64x32.Idx → EReal) (i : Fin 100000) (j : Fin 32) :
    Host.dotGeneral (F := Ideal) (φ₁ := .f32) (φ₂ := .f32) dot_S100000x64_S64x32_S100000x32_1_0_0_1_n_n none h w (ix2 i j)
      = ∑ k : Fin 64, h (ix2 i k) * w (ix2 k j) := by
  refine (Ideal.dotGeneral_apply (φ₁ := .f32) (φ₂ := .f32) dot_S100000x64_S64x32_S100000x32_1_0_0_1_n_n none .single h w (ix2 i j)).trans ?_
  refine (Equiv.sum_comp (contrEquiv1 dot_S100000x64_S64x32_S100000x32_1_0_0_1_n_n 64 rfl rfl).symm _).symm.trans ?_
  refine Finset.sum_congr rfl fun k _ => ?_
  have hl : dot_S100000x64_S64x32_S100000x32_1_0_0_1_n_n.lhsIdx (ix2 i j) ((contrEquiv1 dot_S100000x64_S64x32_S100000x32_1_0_0_1_n_n 64 rfl rfl).symm k) = ix2 i k := by
    funext a
    match a with
    | ⟨0, _⟩ => exact Fin.ext (lhs_dot64_0 _ _)
    | ⟨1, _⟩ => exact Fin.ext (lhs_dot64_1 _ _)
  have hr : dot_S100000x64_S64x32_S100000x32_1_0_0_1_n_n.rhsIdx (ix2 i j) ((contrEquiv1 dot_S100000x64_S64x32_S100000x32_1_0_0_1_n_n 64 rfl rfl).symm k) = ix2 k j := by
    funext a
    match a with
    | ⟨0, _⟩ => exact Fin.ext (rhs_dot64_0 _ _)
    | ⟨1, _⟩ => exact Fin.ext (rhs_dot64_1 _ _)
  exact congrArg₂ (· * ·) (congrArg h hl) (congrArg w hr)

theorem lhs_dot32_0 (j : S100000x32.Idx) (k : dot_S100000x32_S32x32_S100000x32_1_0_0_1_n_n.contr.Idx) :
    (dot_S100000x32_S32x32_S100000x32_1_0_0_1_n_n.lhsIdx j k 0).val = (j 0).val := by
  unfold DotDims.lhsIdx
  rw [dif_neg (show ¬(0 : Fin S100000x32.rank) ∈ dot_S100000x32_S32x32_S100000x32_1_0_0_1_n_n.lhsBatch from List.not_mem_nil),
    dif_pos (show (0 : Fin S100000x32.rank) ∈ dot_S100000x32_S32x32_S100000x32_1_0_0_1_n_n.lhsNonContracting from List.mem_singleton.mpr rfl)]
  rfl

theorem lhs_dot32_1 (j : S100000x32.Idx) (k : Fin 32) :
    (dot_S100000x32_S32x32_S100000x32_1_0_0_1_n_n.lhsIdx j ((contrEquiv1 dot_S100000x32_S32x32_S100000x32_1_0_0_1_n_n 32 rfl rfl).symm k) 1).val = k.val :=
  (dot_S100000x32_S32x32_S100000x32_1_0_0_1_n_n.lhsIdx_val_of_single (cl := 1) rfl j _).trans
    (contrEquiv1_symm_val dot_S100000x32_S32x32_S100000x32_1_0_0_1_n_n 32 rfl rfl k)

theorem rhs_dot32_0 (j : S100000x32.Idx) (k : Fin 32) :
    (dot_S100000x32_S32x32_S100000x32_1_0_0_1_n_n.rhsIdx j ((contrEquiv1 dot_S100000x32_S32x32_S100000x32_1_0_0_1_n_n 32 rfl rfl).symm k) 0).val = k.val :=
  (dot_S100000x32_S32x32_S100000x32_1_0_0_1_n_n.rhsIdx_val_of_single (cr := 0) rfl j _).trans
    (contrEquiv1_symm_val dot_S100000x32_S32x32_S100000x32_1_0_0_1_n_n 32 rfl rfl k)

theorem rhs_dot32_1 (j : S100000x32.Idx) (k : dot_S100000x32_S32x32_S100000x32_1_0_0_1_n_n.contr.Idx) :
    (dot_S100000x32_S32x32_S100000x32_1_0_0_1_n_n.rhsIdx j k 1).val = (j 1).val := by
  unfold DotDims.rhsIdx
  rw [dif_neg (show ¬(1 : Fin S32x32.rank) ∈ dot_S100000x32_S32x32_S100000x32_1_0_0_1_n_n.rhsBatch from List.not_mem_nil),
    dif_pos (show (1 : Fin S32x32.rank) ∈ dot_S100000x32_S32x32_S100000x32_1_0_0_1_n_n.rhsNonContracting from List.mem_singleton.mpr rfl)]
  rfl

theorem dot_rows32_apply (h : S100000x32.Idx → EReal) (w : S32x32.Idx → EReal) (i : Fin 100000) (j : Fin 32) :
    Host.dotGeneral (F := Ideal) (φ₁ := .f32) (φ₂ := .f32) dot_S100000x32_S32x32_S100000x32_1_0_0_1_n_n none h w (ix2 i j)
      = ∑ k : Fin 32, h (ix2 i k) * w (ix2 k j) := by
  refine (Ideal.dotGeneral_apply (φ₁ := .f32) (φ₂ := .f32) dot_S100000x32_S32x32_S100000x32_1_0_0_1_n_n none .single h w (ix2 i j)).trans ?_
  refine (Equiv.sum_comp (contrEquiv1 dot_S100000x32_S32x32_S100000x32_1_0_0_1_n_n 32 rfl rfl).symm _).symm.trans ?_
  refine Finset.sum_congr rfl fun k _ => ?_
  have hl : dot_S100000x32_S32x32_S100000x32_1_0_0_1_n_n.lhsIdx (ix2 i j) ((contrEquiv1 dot_S100000x32_S32x32_S100000x32_1_0_0_1_n_n 32 rfl rfl).symm k) = ix2 i k := by
    funext a
    match a with
    | ⟨0, _⟩ => exact Fin.ext (lhs_dot32_0 _ _)
    | ⟨1, _⟩ => exact Fin.ext (lhs_dot32_1 _ _)
  have hr : dot_S100000x32_S32x32_S100000x32_1_0_0_1_n_n.rhsIdx (ix2 i j) ((contrEquiv1 dot_S100000x32_S32x32_S100000x32_1_0_0_1_n_n 32 rfl rfl).symm k) = ix2 k j := by
    funext a
    match a with
    | ⟨0, _⟩ => exact Fin.ext (rhs_dot32_0 _ _)
    | ⟨1, _⟩ => exact Fin.ext (rhs_dot32_1 _ _)
  exact congrArg₂ (· * ·) (congrArg h hl) (congrArg w hr)

theorem self_term_apply (d : S100000.Idx → EReal) (i : Fin 100000) (j : Fin 32) :
    broadcastInDim S100000x32 ![0, 1] bcast_S100000x1_S100000x32_0_1
        (broadcastInDim S100000x1 ![0] bcast_S100000_S100000x1_0 (mulf (F := Ideal) (φ := .f32) d d)) (ix2 i j)
      = d (ix1 i) * d (ix1 i) := by
  refine (broadcastInDim_apply ![0, 1] bcast_S100000x1_S100000x32_0_1 _ (ix2 i j) (ix2 i (0 : Fin 1)) ?_).trans ?_
  · intro a
    match a with
    | ⟨0, _⟩ => rfl
    | ⟨1, _⟩ => rfl
  · exact broadcastInDim_apply ![0] bcast_S100000_S100000x1_0 _ (ix2 i (0 : Fin 1)) (ix1 i) (fun a => by
      match a with
      | ⟨0, _⟩ => rfl)

theorem bias_bcast_apply (b : S32.Idx → EReal) (i : Fin 100000) (j : Fin 32) :
    broadcastInDim S100000x32 ![0, 1] bcast_S1x32_S100000x32_0_1
        (broadcastInDim S1x32 ![1] bcast_S32_S1x32_1 b) (ix2 i j)
      = b (ix1 j) := by
  refine (broadcastInDim_apply ![0, 1] bcast_S1x32_S100000x32_0_1 _ (ix2 i j) (ix2 (0 : Fin 1) j) ?_).trans ?_
  · intro a
    match a with
    | ⟨0, _⟩ => rfl
    | ⟨1, _⟩ => rfl
  · exact broadcastInDim_apply ![1] bcast_S32_S1x32_1 b (ix2 (0 : Fin 1) j) (ix1 j) (fun a => by
      match a with
      | ⟨0, _⟩ => rfl)

theorem leaky_call_apply (y : S100000x32.Idx → EReal) (i : Fin 100000) (j : Fin 32) :
    select
        (cmpf (F := Ideal) (φ := .f32) .oge y
          (broadcastInDim (s := S_) S100000x32 ![] bcast_S_S100000x32 (constant (F := Ideal) S_ .f32 0x00000000#32)))
        y
        (mulf (F := Ideal) (φ := .f32)
          (broadcastInDim (s := S_) S100000x32 ![] bcast_S_S100000x32
            (id (constant (F := Ideal) S_ .f32 0x3C23D70A#32)))
          y)
        (ix2 i j)
      = leakyR (y (ix2 i j)) := by
  show Scalar.select (Ideal.cmp .oge (y (ix2 i j)) (Ideal.ofBits .f32 0x00000000#32)) (y (ix2 i j))
      (Ideal.ofBits .f32 0x3C23D70A#32 * y (ix2 i j)) = _
  rw [Ideal.ofBits_zero_f32]
  exact select_cmp_oge_zero _ _ _

end Ops

end Cert.Bridge

end
-- ==== Proof.Bridge.Layer.lean ====
import proofs.«423851_j31086973288655_1_alg».proof.Proof.Gen.KernelIdeal
import proofs.«423851_j31086973288655_1_alg».proof.Proof.Gen.ReferenceIdeal
import proofs.«423851_j31086973288655_1_alg».proof.Proof.Bridge.KHost
import proofs.«423851_j31086973288655_1_alg».proof.Proof.Bridge.RHost
import proofs.«423851_j31086973288655_1_alg».proof.Proof.Bridge.GatherRows
import proofs.«423851_j31086973288655_1_alg».proof.Proof.Bridge.PoolScatter
import proofs.«423851_j31086973288655_1_alg».proof.Proof.Bridge.LayoutK
import proofs.«423851_j31086973288655_1_alg».proof.Proof.Bridge.PointwiseR
import proofs.«423851_j31086973288655_1_alg».proof.Proof.KI.ValCBCore
import Idealize.ShloMosaic.Lib.ValueIdx

noncomputable section

namespace Cert.Bridge

open Idealize.ShloMosaic Idealize.ShloMosaic.ValueIdx
open Cert.KernelIdeal.Val (leakyK)

abbrev PArr : Type := Cert.KernelIdeal.S100352x32.Idx → EReal

abbrev RArr : Type := Cert.ReferenceIdeal.S100000x32.Idx → EReal

def Agree (hP : PArr) (hR : RArr) : Prop :=
  ∀ (i : Fin 100000) (j : Fin 32), hP (ix2 ⟨i.val, by omega⟩ j) = hR (ix2 i j)

theorem dinv_eq (dst : IVec Cert.KernelIdeal.S1600000 32) : dinvK dst = dinvR dst := rfl
theorem counts_eq (batch : IVec Cert.KernelIdeal.S100000 32) : countsK batch = countsR batch := rfl
theorem feat_eq (p : Cert.KernelIdeal.S128x32.Idx → EReal) (cnt : Cert.KernelIdeal.S128.Idx → EReal) : featK p cnt = featR p cnt := rfl
theorem tail_eq (f1 f2 p3 : Cert.KernelIdeal.S128x32.Idx → EReal) (cnt : Cert.KernelIdeal.S128.Idx → EReal) :
    tailK f1 f2 p3 cnt = tailR f1 f2 p3 cnt := rfl

theorem padX_real (x : Cert.KernelIdeal.S100000x64.Idx → EReal) (z : IVec Cert.KernelIdeal.S_ 32) (i : Fin 100000) (k : Fin 64) :
    padXK x z (ix2 ⟨i.val, by omega⟩ k) = x (ix2 i k) := by
  unfold padXK padXG
  exact pad_rows64_real x _ i k

theorem padRows_real (a : Cert.KernelIdeal.S100000x32.Idx → EReal) (z : IVec Cert.KernelIdeal.S_ 32) (i : Fin 100000) (j : Fin 32) :
    padRowsK a z (ix2 ⟨i.val, by omega⟩ j) = a (ix2 i j) := by
  unfold padRowsK padRowsG
  exact pad_rows32_real a _ i j

theorem dinvCol_real (d : Cert.KernelIdeal.S100000.Idx → EReal) (i : Fin 100000) :
    dinvColK d (ix2 (⟨i.val, by omega⟩ : Fin 100352) (0 : Fin 1)) = d (ix1 i) := by
  unfold dinvColK dinvColG
  rw [dinv_col_apply, dif_pos (show (⟨i.val, by omega⟩ : Fin 100352).val < 100000 from i.isLt)]

theorem batchRow_apply (batch : IVec Cert.KernelIdeal.S100000 32) (n : Fin 100352) :
    shapeCast Cert.KernelIdeal.S1x100352
        (pad Cert.KernelIdeal.S100352 ![0] ![352] ![0] batch (constantI Cert.KernelIdeal.S_ 32 4294967295#32)
          Cert.KernelIdeal.Gen.pads_S100000_S100352_03520 Cert.KernelIdeal.Gen.h_S_)
        Cert.KernelIdeal.Gen.shapeCasts_S100352_S1x100352 (ix2 (0 : Fin 1) n)
      = if h : n.val < 100000 then batch (ix1 ⟨n.val, h⟩) else (-1 : BitVec 32) := by
  rw [batch_row_apply, pad_batch_apply]
  by_cases h : n.val < 100000
  · rw [dif_pos h, dif_pos h]
  · rw [dif_neg h, dif_neg h]; rfl

theorem mm_agree64 (xP : Cert.KernelIdeal.S100352x64.Idx → EReal) (x : Cert.ReferenceIdeal.S100000x64.Idx → EReal)
    (hx : ∀ (i : Fin 100000) (k : Fin 64), xP (ix2 ⟨i.val, by omega⟩ k) = x (ix2 i k))
    (W : Cert.ReferenceIdeal.S64x32.Idx → EReal) (hlinP : PArr)
    (hl : ∀ (i : Fin 100352) (j : Fin 32), hlinP (ix2 i j) = ∑ k : Fin 64, xP (ix2 i k) * W (ix2 k j)) :
    Agree hlinP (dotR64 x W) := by
  intro i j
  rw [hl]
  unfold dotR64
  rw [dot_rows64_apply]
  exact Finset.sum_congr rfl fun k _ => by rw [hx]

theorem mm_agree32 (hP : PArr) (hR : RArr) (hag : Agree hP hR)
    (W : Cert.ReferenceIdeal.S32x32.Idx → EReal) (hlinP : PArr)
    (hl : ∀ (i : Fin 100352) (j : Fin 32), hlinP (ix2 i j) = ∑ k : Fin 32, hP (ix2 i k) * W (ix2 k j)) :
    Agree hlinP (dotR32 hR W) := by
  intro i j
  rw [hl]
  unfold dotR32
  rw [dot_rows32_apply]
  exact Finset.sum_congr rfl fun k _ => by rw [hag]

theorem agg_eq (hlinP : PArr) (hlinR : RArr) (hag : Agree hlinP hlinR) (dinv : Cert.KernelIdeal.S100000.Idx → EReal)
    (src dst : IVec Cert.KernelIdeal.S1600000 32)
    (hsrc : ∀ e : Fin 1600000, 0 ≤ (src (ix1 e)).toInt ∧ (src (ix1 e)).toInt < 100000) :
    aggK hlinP dinv src dst = aggR hlinR dinv src dst := by
  have hg := gather_rows_agree hlinP hlinR hag src hsrc
  unfold idxP at hg
  unfold aggK aggG aggR
  rw [hg]
  rfl

theorem comb_agree (hlinP : PArr) (hlinR : RArr) (hag : Agree hlinP hlinR) (aggP : PArr) (aggR' : RArr) (hagg : Agree aggP aggR')
    (dinv : Cert.ReferenceIdeal.S100000.Idx → EReal) (dcol : Cert.KernelIdeal.S100352x1.Idx → EReal)
    (hd : ∀ i : Fin 100000, dcol (ix2 (⟨i.val, by omega⟩ : Fin 100352) (0 : Fin 1)) = dinv (ix1 i))
    (b : Cert.ReferenceIdeal.S32.Idx → EReal) (brow : Cert.KernelIdeal.S1x32.Idx → EReal)
    (hb : ∀ j : Fin 32, brow (ix2 (0 : Fin 1) j) = b (ix1 j))
    (hnext : PArr)
    (hn : ∀ (i : Fin 100352) (j : Fin 32), hnext (ix2 i j)
        = leakyK ((aggP (ix2 i j) + hlinP (ix2 i j) * (dcol (ix2 i (0 : Fin 1)) * dcol (ix2 i (0 : Fin 1)))) + brow (ix2 (0 : Fin 1) j))) :
    Agree hnext (combR aggR' hlinR dinv b) := by
  intro i j
  rw [hn, hagg i j, hag i j, hd i, hb j]
  unfold combR leakyCall
  rw [leaky_call_apply, addf_apply, addf_apply, mulf_apply, self_term_apply, bias_bcast_apply]
  unfold leakyK
  exact leaky_gt_eq_leakyR _

theorem pool_eq (hP : PArr) (hR : RArr) (hag : Agree hP hR)
    (batchrow : IVec Cert.KernelIdeal.S1x100352 32) (batch : IVec Cert.ReferenceIdeal.S100000 32)
    (hb : ∀ n : Fin 100352, batchrow (ix2 0 n) = if h : n.val < 100000 then batch (ix1 ⟨n.val, h⟩) else (-1 : BitVec 32))
    (poolP : Cert.KernelIdeal.S128x32.Idx → EReal)
    (hp : ∀ (g : Fin 128) (j : Fin 32), poolP (ix2 g j)
        = ∑ n : Fin 100352, (if batchrow (ix2 0 n) = BitVec.ofNat 32 g.val then (1 : EReal) else 0) * hP (ix2 n j)) :
    poolP = poolR batch hR := by
  funext i
  obtain ⟨g, j, rfl⟩ : ∃ (g : Fin 128) (j : Fin 32), i = ix2 g j := ⟨i 0, i 1, eq_ix2 i⟩
  rw [hp, pool_eq_scatter hP hR hag batchrow batch hb g j]
  rfl

end Cert.Bridge

end
-- ==== Proof.PreFacts.lean ====
import proofs.«423851_j31086973288655_1_alg».proof.Defs
import proofs.«423851_j31086973288655_1_alg».proof.Proof.Gen.Pre_finite_inputs
import Idealize.ShloMosaic.Lib.StableHlo.Predicate
import Idealize.ShloMosaic.Lib.ReduceAll
import Idealize.ShloMosaic.Lib.ValueIdx

noncomputable section

namespace Cert.PreFacts

open Idealize.ShloMosaic Idealize.SL.Sem
open Cert.Pre_finite_inputs

instance subsingleton_S_Idx : Subsingleton S_.Idx := ⟨fun a b => funext fun d => d.elim0⟩

theorem toInt_lit0 : (0#32 : BitVec 32).toInt = 0 := by decide
theorem toInt_lit100000 : (100000#32 : BitVec 32).toInt = 100000 :=
  StableHlo.Predicate.toInt_ofNat_small 100000 (by decide)

theorem fn_eq_part2 {F : FTy → Type} [FloatOps F] [Facts]
    (a0 : FVec F S100000x64 .f32) (a1 : FVec F S64x32 .f32) (a2 : FVec F S32 .f32) (a3 : FVec F S32x32 .f32)
    (a4 : FVec F S32 .f32) (a5 : FVec F S32x32 .f32) (a6 : FVec F S32 .f32) (a7 : IVec S1600000 32)
    (a8 : IVec S1600000 32) (a9 : IVec S100000 32) :
    ∃ v33 : IVec S_ 1, fn (F := F) a0 a1 a2 a3 a4 a5 a6 a7 a8 a9 = fn_part2 (F := F) a7 v33 :=
  ⟨_, rfl⟩

theorem part2_in_range {F : FTy → Type} [FloatOps F] [Facts] (a7 : IVec S1600000 32) (v33 : IVec S_ 1)
    (h : fn_part2 (F := F) a7 v33 ValueIdx.ix0 = 1#1) (e : Fin 1600000) :
    0 ≤ (a7 (ValueIdx.ix1 e)).toInt ∧ (a7 (ValueIdx.ix1 e)).toInt < 100000 := by
  have h1 : IntOp.andi (v33 ValueIdx.ix0)
      (Host.reduce IntOp.andi
        (andi (cmpi .sge a7 (broadcastInDim S1600000 ![] Facts.bcast_S_S1600000 (constantI S_ 32 0#32)))
          (cmpi .slt a7 (broadcastInDim S1600000 ![] Facts.bcast_S_S1600000 (constantI S_ 32 100000#32))))
        (constantI S_ 1 1#1) Facts.reducesTo_S1600000_S_d0 Facts.h_S_ ValueIdx.ix0) = 1#1 := h
  have h2 := (IntOp.andi_eq_one.1 h1).2
  have h3' := Host.reduce_andi_all _ _ _ _ _ h2 (ValueIdx.ix1 e)
  have h3 : IntOp.andi (IntOp.cmpi .sge (a7 (ValueIdx.ix1 e)) 0#32) (IntOp.cmpi .slt (a7 (ValueIdx.ix1 e)) 100000#32) = 1#1 := h3'
  obtain ⟨hge, hlt⟩ := IntOp.andi_eq_one.1 h3
  have hge' := IntOp.cmpi_sge.1 hge
  have hlt' := IntOp.cmpi_slt.1 hlt
  rw [toInt_lit0] at hge'
  rw [toInt_lit100000] at hlt'
  exact ⟨hge', hlt'⟩

theorem src_in_range {F : FTy → Type} [FloatOps F] [Facts]
    (a0 : FVec F S100000x64 .f32) (a1 : FVec F S64x32 .f32) (a2 : FVec F S32 .f32) (a3 : FVec F S32x32 .f32)
    (a4 : FVec F S32 .f32) (a5 : FVec F S32x32 .f32) (a6 : FVec F S32 .f32) (a7 : IVec S1600000 32)
    (a8 : IVec S1600000 32) (a9 : IVec S100000 32)
    (h : fn (F := F) a0 a1 a2 a3 a4 a5 a6 a7 a8 a9 = fun _ => 1#1) (e : Fin 1600000) :
    0 ≤ (a7 (ValueIdx.ix1 e)).toInt ∧ (a7 (ValueIdx.ix1 e)).toInt < 100000 := by
  obtain ⟨v33, hv⟩ := fn_eq_part2 (F := F) a0 a1 a2 a3 a4 a5 a6 a7 a8 a9
  rw [hv] at h
  exact part2_in_range (F := F) a7 v33 (congrFun h ValueIdx.ix0) e

theorem src_in_range_KI [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1600000) :
    0 ≤ BitVec.toInt (m ((c.tc : Thread Cert.KernelIdeal.nD Cert.KernelIdeal.τ).loc Cert.KernelIdeal.main_arg7) (ValueIdx.ix1 e))
      ∧ BitVec.toInt (m ((c.tc : Thread Cert.KernelIdeal.nD Cert.KernelIdeal.τ).loc Cert.KernelIdeal.main_arg7) (ValueIdx.ix1 e)) < 100000 :=
  src_in_range (F := Ideal) _ _ _ _ _ _ _ _ _ _ (hpre c) e

end Cert.PreFacts

end
-- ==== Proof.Bridge.Final.lean ====
import proofs.«423851_j31086973288655_1_alg».proof.Proof.KI.Chain
import proofs.«423851_j31086973288655_1_alg».proof.Proof.KI.ValMM
import proofs.«423851_j31086973288655_1_alg».proof.Proof.KI.ValMM3
import proofs.«423851_j31086973288655_1_alg».proof.Proof.KI.ValMM6
import proofs.«423851_j31086973288655_1_alg».proof.Proof.KI.ValCB
import proofs.«423851_j31086973288655_1_alg».proof.Proof.KI.ValPool
import proofs.«423851_j31086973288655_1_alg».proof.Proof.Bridge.Entry
import proofs.«423851_j31086973288655_1_alg».proof.Proof.Bridge.Layer
import proofs.«423851_j31086973288655_1_alg».proof.Proof.Bridge.RHost
import proofs.«423851_j31086973288655_1_alg».proof.Proof.PreFacts
import proofs.«423851_j31086973288655_1_alg».proof.Proof.RefRun

noncomputable section

namespace Cert.Bridge

open Idealize.ShloMosaic Idealize.ShloMosaic.TcCoe Idealize.ShloMosaic.ValueIdx Idealize.SL.Sem
open Cert.KernelIdeal Cert.KernelIdeal.Gen Cert.KernelIdeal.Val

variable (m : (ℓ : Loc nD τ sig) → Buf (Elt Ideal) ℓ) (c : Dev nD)

abbrev X0 : S100000x64.Idx → EReal := W0 (F := Ideal) m c (Proc.devRef .tc main_arg0)
abbrev Wt0 : S64x32.Idx → EReal := W0 (F := Ideal) m c (Proc.devRef .tc main_arg1)
abbrev Bs0 : S32.Idx → EReal := W0 (F := Ideal) m c (Proc.devRef .tc main_arg2)
abbrev Wt1 : S32x32.Idx → EReal := W0 (F := Ideal) m c (Proc.devRef .tc main_arg3)
abbrev Bs1 : S32.Idx → EReal := W0 (F := Ideal) m c (Proc.devRef .tc main_arg4)
abbrev Wt2 : S32x32.Idx → EReal := W0 (F := Ideal) m c (Proc.devRef .tc main_arg5)
abbrev Bs2 : S32.Idx → EReal := W0 (F := Ideal) m c (Proc.devRef .tc main_arg6)
abbrev Src : IVec S1600000 32 := W0 (F := Ideal) m c (Proc.devRef .tc main_arg7)
abbrev Dst : IVec S1600000 32 := W0 (F := Ideal) m c (Proc.devRef .tc main_arg8)
abbrev Bat : IVec S100000 32 := W0 (F := Ideal) m c (Proc.devRef .tc main_arg9)

abbrev H1 : RArr := h1R (X0 m c) (Wt0 m c) (Bs0 m c) (Src m c) (Dst m c)
abbrev H2 : RArr := h2R (X0 m c) (Wt0 m c) (Bs0 m c) (Wt1 m c) (Bs1 m c) (Src m c) (Dst m c)
abbrev H3 : RArr := h3R (X0 m c) (Wt0 m c) (Bs0 m c) (Wt1 m c) (Bs1 m c) (Wt2 m c) (Bs2 m c) (Src m c) (Dst m c)

abbrev SrcInRange : Prop := ∀ e : Fin 1600000, 0 ≤ (Src m c (ix1 e)).toInt ∧ (Src m c (ix1 e)).toInt < 100000

theorem x_agree (i : Fin 100000) (k : Fin 64) :
    (VW4 m c main_v18 : S100352x64.Idx → EReal) (ix2 ⟨i.val, by omega⟩ k) = X0 m c (ix2 i k) := by
  rw [entry_v18_V]; exact padX_real _ _ i k

theorem hlin1_agree : Agree (VW5 m c main_v19) (dotR64 (X0 m c) (Wt0 m c)) := by
  refine mm_agree64 (VW4 m c main_v18) (X0 m c) (x_agree m c) (Wt0 m c) (VW5 m c main_v19) ?_
  intro i j
  rw [show (VW5 m c main_v19 : PArr) = (dat0 (F := Ideal) (VW4 m) c).arrAt 2 cfg0.N from W5_out m c, arr_mm0 (VW4 m) c i j]
  refine Finset.sum_congr rfl fun k _ => ?_
  rw [show realArr (S := S64x32) (VW4 m c main_arg1) = Wt0 m c from entry_w0_V m c]

theorem h1_agree (hsrc : SrcInRange m c) : Agree (VW9 m c main_v50) (H1 m c) := by
  unfold H1 h1R layerR64
  refine comb_agree (VW8 m c main_v19) (dotR64 (X0 m c) (Wt0 m c)) ?hag (VW8 m c main_v48)
    (aggR (dotR64 (X0 m c) (Wt0 m c)) (dinvR (Dst m c)) (Src m c) (Dst m c)) ?hagg (dinvR (Dst m c)) (VW8 m c main_v15) ?hd
    (Bs0 m c) (VW8 m c main_v49) ?hb (VW9 m c main_v50) ?hn
  case hag => rw [hlin1_keep_V]; exact hlin1_agree m c
  case hagg =>
    intro i j
    rw [agg1_V, padRows_real, agg_eq _ _ (hlin1_agree m c) _ _ _ hsrc, dinv_eq]
  case hd => intro i; rw [dcol_at8_V, dinvCol_real, dinv_eq]
  case hb => intro j; rw [bias1_V]; exact bias_row_apply _ j
  case hn =>
    intro i j
    rw [show (VW9 m c main_v50 : PArr) = (dat1 (F := Ideal) (VW8 m) c).arrAt 4 cfg1.N from W9_out m c]
    exact arr_cb1 (VW8 m) c i j

set_option maxHeartbeats 1000000 in
theorem pool1_eq (hsrc : SrcInRange m c) : (VW10 m c main_v51 : S128x32.Idx → EReal) = poolR (Bat m c) (H1 m c) := by
  refine pool_eq (VW9 m c main_v50) (H1 m c) (h1_agree m c hsrc) (VW9 m c main_v17) (Bat m c) ?hb (VW10 m c main_v51) ?hp
  case hb => intro n; exact (congrFun (brow_at9_V m c) (ix2 (0 : Fin 1) n)).trans (batchRow_apply _ n)
  case hp =>
    intro g j
    have e : (VW10 m c main_v51 : S128x32.Idx → EReal) = ((dat2 (F := Ideal) (VW9 m) c).arrAt 2 cfg2.N : S128x32.Idx → EReal) := W10_out m c
    have h := arr_pool2 (VW9 m) c g j
    exact (congrFun e (ix2 g j)).trans h

theorem hlin2_agree (hsrc : SrcInRange m c) : Agree (VW12 m c main_v55) (dotR32 (H1 m c) (Wt1 m c)) := by
  refine mm_agree32 (VW11 m c main_v50) (H1 m c) (by rw [h1_keep11_V]; exact h1_agree m c hsrc) (Wt1 m c) (VW12 m c main_v55) ?_
  intro i j
  rw [show (VW12 m c main_v55 : PArr) = (dat3 (F := Ideal) (VW11 m) c).arrAt 2 cfg3.N from W12_out m c, arr_mm3 (VW11 m) c i j]
  refine Finset.sum_congr rfl fun k _ => ?_
  rw [show realArr (S := S32x32) (VW11 m c main_arg3) = Wt1 m c from entry_w3_V m c]

theorem h2_agree (hsrc : SrcInRange m c) : Agree (VW16 m c main_v86) (H2 m c) := by
  unfold H2 h2R layerR32
  refine comb_agree (VW15 m c main_v55) (dotR32 (H1 m c) (Wt1 m c)) ?hag (VW15 m c main_v84)
    (aggR (dotR32 (H1 m c) (Wt1 m c)) (dinvR (Dst m c)) (Src m c) (Dst m c)) ?hagg (dinvR (Dst m c)) (VW15 m c main_v15) ?hd
    (Bs1 m c) (VW15 m c main_v85) ?hb (VW16 m c main_v86) ?hn
  case hag => rw [hlin2_keep_V]; exact hlin2_agree m c hsrc
  case hagg =>
    intro i j
    rw [agg2_V, padRows_real, agg_eq _ _ (hlin2_agree m c hsrc) _ _ _ hsrc, dinv_eq]
  case hd => intro i; rw [dcol_at15_V, dinvCol_real, dinv_eq]
  case hb => intro j; rw [bias2_V]; exact bias_row_apply _ j
  case hn =>
    intro i j
    rw [show (VW16 m c main_v86 : PArr) = (dat4 (F := Ideal) (VW15 m) c).arrAt 4 cfg4.N from W16_out m c]
    exact arr_cb4 (VW15 m) c i j

set_option maxHeartbeats 1000000 in
theorem pool2_eq (hsrc : SrcInRange m c) : (VW17 m c main_v87 : S128x32.Idx → EReal) = poolR (Bat m c) (H2 m c) := by
  refine pool_eq (VW16 m c main_v86) (H2 m c) (h2_agree m c hsrc) (VW16 m c main_v17) (Bat m c) ?hb (VW17 m c main_v87) ?hp
  case hb => intro n; exact (congrFun (brow_at16_V m c) (ix2 (0 : Fin 1) n)).trans (batchRow_apply _ n)
  case hp =>
    intro g j
    have e : (VW17 m c main_v87 : S128x32.Idx → EReal) = ((dat5 (F := Ideal) (VW16 m) c).arrAt 2 cfg5.N : S128x32.Idx → EReal) := W17_out m c
    have h := arr_pool5 (VW16 m) c g j
    exact (congrFun e (ix2 g j)).trans h

theorem hlin3_agree (hsrc : SrcInRange m c) : Agree (VW19 m c main_v91) (dotR32 (H2 m c) (Wt2 m c)) := by
  refine mm_agree32 (VW18 m c main_v86) (H2 m c) (by rw [h2_keep18_V]; exact h2_agree m c hsrc) (Wt2 m c) (VW19 m c main_v91) ?_
  intro i j
  rw [show (VW19 m c main_v91 : PArr) = (dat6 (F := Ideal) (VW18 m) c).arrAt 2 cfg6.N from W19_out m c, arr_mm6 (VW18 m) c i j]
  refine Finset.sum_congr rfl fun k _ => ?_
  rw [show realArr (S := S32x32) (VW18 m c main_arg5) = Wt2 m c from entry_w6_V m c]

theorem h3_agree (hsrc : SrcInRange m c) : Agree (VW23 m c main_v122) (H3 m c) := by
  unfold H3 h3R layerR32
  refine comb_agree (VW22 m c main_v91) (dotR32 (H2 m c) (Wt2 m c)) ?hag (VW22 m c main_v120)
    (aggR (dotR32 (H2 m c) (Wt2 m c)) (dinvR (Dst m c)) (Src m c) (Dst m c)) ?hagg (dinvR (Dst m c)) (VW22 m c main_v15) ?hd
    (Bs2 m c) (VW22 m c main_v121) ?hb (VW23 m c main_v122) ?hn
  case hag => rw [hlin3_keep_V]; exact hlin3_agree m c hsrc
  case hagg =>
    intro i j
    rw [agg3_V, padRows_real, agg_eq _ _ (hlin3_agree m c hsrc) _ _ _ hsrc, dinv_eq]
  case hd => intro i; rw [dcol_at22_V, dinvCol_real, dinv_eq]
  case hb => intro j; rw [bias3_V]; exact bias_row_apply _ j
  case hn =>
    intro i j
    rw [show (VW23 m c main_v122 : PArr) = (dat7 (F := Ideal) (VW22 m) c).arrAt 4 cfg7.N from W23_out m c]
    exact arr_cb7 (VW22 m) c i j

set_option maxHeartbeats 1000000 in
theorem pool3_eq (hsrc : SrcInRange m c) : (VW24 m c main_v123 : S128x32.Idx → EReal) = poolR (Bat m c) (H3 m c) := by
  refine pool_eq (VW23 m c main_v122) (H3 m c) (h3_agree m c hsrc) (VW23 m c main_v17) (Bat m c) ?hb (VW24 m c main_v123) ?hp
  case hb => intro n; exact (congrFun (brow_at23_V m c) (ix2 (0 : Fin 1) n)).trans (batchRow_apply _ n)
  case hp =>
    intro g j
    have e : (VW24 m c main_v123 : S128x32.Idx → EReal) = ((dat8 (F := Ideal) (VW23 m) c).arrAt 2 cfg8.N : S128x32.Idx → EReal) := W24_out m c
    have h := arr_pool8 (VW23 m) c g j
    exact (congrFun e (ix2 g j)).trans h

theorem result_bridge (res f1 f2 p1 p2 p3 : S128x32.Idx → EReal) (cnt : S128.Idx → EReal) (batch : IVec S100000 32)
    (q1 q2 q3 : S128x32.Idx → EReal)
    (hres : res = tailK f1 f2 p3 cnt) (hf1 : f1 = featK p1 cnt) (hf2 : f2 = featK p2 cnt) (hcnt : cnt = countsK batch)
    (hp1 : p1 = q1) (hp2 : p2 = q2) (hp3 : p3 = q3) :
    res = tailR (featR q1 (countsR batch)) (featR q2 (countsR batch)) q3 (countsR batch) := by
  subst hres hf1 hf2 hcnt hp1 hp2 hp3
  rw [tail_eq, feat_eq, feat_eq, counts_eq]

theorem kernel_result (hsrc : SrcInRange m c) :
    (W25 (F := Ideal) m c (Proc.devRef .tc main_v133) : S128x32.Idx → EReal)
      = tailR (featR (poolR (Bat m c) (H1 m c)) (countsR (Bat m c))) (featR (poolR (Bat m c) (H2 m c)) (countsR (Bat m c)))
          (poolR (Bat m c) (H3 m c)) (countsR (Bat m c)) := by
  exact result_bridge _ _ _ _ _ _ _ _ _ _ _ (result_tail_V m c) (feat1_V m c) (feat2_V m c) rfl
    (pool1_eq m c hsrc) (pool2_eq m c hsrc) (pool3_eq m c hsrc)

end Cert.Bridge

namespace Cert.Bridge

open Idealize.ShloMosaic Idealize.ShloMosaic.TcCoe Idealize.ShloMosaic.ValueIdx Idealize.SL.Sem

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.KernelIdeal.Gen.W25 (F := Ideal) m c (Proc.devRef .tc Cert.KernelIdeal.main_v133)
      = StableHlo.after (Cert.ReferenceIdeal.Hand.ops (F := Ideal)) (fun b => m' (c, b)) (Proc.devRef .tc Cert.ReferenceIdeal.main_v151) := by
  have hsrc : SrcInRange m c := fun e => Cert.PreFacts.src_in_range_KI m hpre c e
  obtain ⟨h0, h1, h2, h3, h4, h5, h6, h7, h8, h9⟩ := hagree c
  have e0 : m' (c, Proc.devRef .tc Cert.ReferenceIdeal.main_arg0) = X0 m c := h0
  have e1 : m' (c, Proc.devRef .tc Cert.ReferenceIdeal.main_arg1) = Wt0 m c := h1
  have e2 : m' (c, Proc.devRef .tc Cert.ReferenceIdeal.main_arg2) = Bs0 m c := h2
  have e3 : m' (c, Proc.devRef .tc Cert.ReferenceIdeal.main_arg3) = Wt1 m c := h3
  have e4 : m' (c, Proc.devRef .tc Cert.ReferenceIdeal.main_arg4) = Bs1 m c := h4
  have e5 : m' (c, Proc.devRef .tc Cert.ReferenceIdeal.main_arg5) = Wt2 m c := h5
  have e6 : m' (c, Proc.devRef .tc Cert.ReferenceIdeal.main_arg6) = Bs2 m c := h6
  have e7 : m' (c, Proc.devRef .tc Cert.ReferenceIdeal.main_arg7) = Src m c := h7
  have e8 : m' (c, Proc.devRef .tc Cert.ReferenceIdeal.main_arg8) = Dst m c := h8
  have e9 : m' (c, Proc.devRef .tc Cert.ReferenceIdeal.main_arg9) = Bat m c := h9
  have hr := ref_result (fun b => m' (c, b))
  refine (kernel_result m c hsrc).trans (Eq.trans ?_ hr.symm)
  rw [e0, e1, e2, e3, e4, e5, e6, e7, e8, e9]

end Cert.Bridge

end
-- ==== Proof.lean ====
/-
  A three-layer graph convolution with mean pooling, written as nine row-tiled regions among host operations, against
  its plain reference, over the extended reals. Rows below 100000 of every padded array equal the reference's rows,
  layer by layer (a matrix product, a gather at an index below 100000 and a pointwise step all act row by row); the
  padded rows carry graph id −1, match no graph, and add 0 · x = 0 to every pooled sum. The program as printed and its
  idealization are one text, so one run, proved for any float instance, gives both of their frames.
-/
import proofs.«423851_j31086973288655_1_alg».proof.Defs
import proofs.«423851_j31086973288655_1_alg».proof.Proof.Gen.Kernel
import proofs.«423851_j31086973288655_1_alg».proof.Proof.Gen.KernelIdeal
import proofs.«423851_j31086973288655_1_alg».proof.Proof.Gen.ReferenceIdeal
import proofs.«423851_j31086973288655_1_alg».proof.Proof.Gen.Pre_finite_inputs
import proofs.«423851_j31086973288655_1_alg».proof.Proof.KI.Chain
import proofs.«423851_j31086973288655_1_alg».proof.Proof.RefRun
import proofs.«423851_j31086973288655_1_alg».proof.Proof.Bridge.Final
import Idealize.ShloMosaic.Adequacy
import Idealize.ShloMosaic.Init

noncomputable section

namespace Cert.Proof

open Idealize.ShloMosaic Idealize.ShloMosaic.TcCoe Idealize.SL.Sem

open Lean Elab Tactic in
/-- Closes the goal with a term whose type is the goal once both are unfolded; the comparison of the two types is
    the final type check of the declaration. -/
elab "exact_unfolded " t:term : tactic => do
  let g ← getMainGoal
  g.withContext do g.assign (← instantiateMVars (← Tactic.elabTerm t none))

/-- The printed program is, definition by definition, the idealized program's text, so the frame proved for every
    float instance is its frame too. -/
theorem frame_k : @Cert.frame_Kernel Cert.Kernel.Gen.facts Cert.Pre_finite_inputs.Gen.facts := by
  intro m ρ _
  exact_unfolded Cert.KernelIdeal.Gen.frame (F := Bits) m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W25 (F := Ideal) m c (Proc.devRef .tc Cert.KernelIdeal.main_v133), Cert.KernelIdeal.Gen.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  exact (Cert.Bridge.result_eq m m' hpre hagree c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
